-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_denom" .f32 0x41A00000#32 ((268435456 / 13421773 : ℝ) : EReal)
  ∧ IdealRules.named_const.Statement Cert.KernelIdeal.κ "inv_denom" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v54)) (v3 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_v55) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x6400000 : Shape := ⟨2, ![2, 6400000]⟩
abbrev S6400000 : Shape := ⟨1, ![6400000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S6400000 : S_.BroadcastsInDim S6400000 (![] : Fin 0 → Fin S6400000.rank)
  reducesTo_S6400000_S_d0 : S6400000.ReducesTo [0] S_

variable [Facts]

def fn {F : FTy → Type} [FloatOps F] (main_arg0 : FVec F S100000x3 .f32) (main_arg1 : IVec S2x6400000 32) (main_arg2 : FVec F S6400000 .f32) (main_arg3 : FVec F S6400000 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S6400000 .f32 := Host.absf main_arg3
  let main_cst_2 : FVec F S_ .f32 := constant S_ .f32 0x7F800000#32
  let main_v10 : FVec F S6400000 .f32 := broadcastInDim S6400000 ![] bcast_S_S6400000 main_cst_2
  let main_v11 : IVec S6400000 1 := cmpf .olt main_v9 main_v10
  let main_c_3 : IVec S_ 1 := constantI S_ 1 1#1
  let main_v12 : IVec S_ 1 := (fun x v => Host.reduce IntOp.andi x v reducesTo_S6400000_S_d0 h_S_) main_v11 main_c_3
  let main_v13 : IVec S_ 1 := andi main_v8 main_v12
  main_v13
-- ==== Kernel.lean ====
abbrev S100000x3 : Shape := ⟨2, ![100000, 3]⟩
abbrev S2x6400000 : Shape := ⟨2, ![2, 6400000]⟩
abbrev S6400000 : Shape := ⟨1, ![6400000]⟩
abbrev S1x6400000 : Shape := ⟨2, ![1, 6400000]⟩
abbrev S100000x1 : Shape := ⟨2, ![100000, 1]⟩
abbrev S100000 : Shape := ⟨1, ![100000]⟩
abbrev S_ : Shape := ⟨0, ![]⟩
abbrev S6400000x1 : Shape := ⟨2, ![6400000, 1]⟩
abbrev S2x1x1 : Shape := ⟨3, ![2, 1, 1]⟩
abbrev S2x3x3 : Shape := ⟨3, ![2, 3, 3]⟩
abbrev S128000 : Shape := ⟨1, ![128000]⟩
abbrev S1x1x1 : Shape := ⟨3, ![1, 1, 1]⟩
abbrev S1x3x3 : Shape := ⟨3, ![1, 3, 3]⟩
abbrev S1x1 : Shape := ⟨2, ![1, 1]⟩
abbrev S3x3 : Shape := ⟨2, ![3, 3]⟩
abbrev S1x128000 : Shape := ⟨2, ![1, 128000]⟩
abbrev S1 : Shape := ⟨1, ![1]⟩
abbrev S6400000x3 : Shape := ⟨2, ![6400000, 3]⟩
abbrev S12800000 : Shape := ⟨1, ![12800000]⟩
abbrev S12800000x3 : Shape := ⟨2, ![12800000, 3]⟩
abbrev S12800000x1 : Shape := ⟨2, ![12800000, 1]⟩

abbrev nBuf : Space → Nat
  | .hbm => 98
  | .vmem => 31
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S6400000, .f32⟩
  | .hbm, ⟨3, _⟩ => ⟨S6400000, .f32⟩
  | .hbm, ⟨4, _⟩ => ⟨S1x6400000, .i32⟩
  | .hbm, ⟨5, _⟩ => ⟨S6400000, .i32⟩
  | .hbm, ⟨6, _⟩ => ⟨S1x6400000, .i32⟩
  | .hbm, ⟨7, _⟩ => ⟨S6400000, .i32⟩
  | .hbm, ⟨8, _⟩ => ⟨S100000x1, .f32⟩
  | .hbm, ⟨9, _⟩ => ⟨S100000, .f32⟩
  | .hbm, ⟨10, _⟩ => ⟨S100000x1, .f32⟩
  | .hbm, ⟨11, _⟩ => ⟨S100000, .f32⟩
  | .hbm, ⟨12, _⟩ => ⟨S100000x1, .f32⟩
  | .hbm, ⟨13, _⟩ => ⟨S100000, .f32⟩
  | .hbm, ⟨14, _⟩ => ⟨S_, .i32⟩
  | .hbm, ⟨15, _⟩ => ⟨S6400000, .i32⟩
  | .hbm, ⟨16, _⟩ => ⟨S6400000, .i1⟩
  | .hbm, ⟨17, _⟩ => ⟨S_, .i32⟩
  | .hbm, ⟨18, _⟩ => ⟨S6400000, .i32⟩
  | .hbm, ⟨19, _⟩ => ⟨S6400000, .i32⟩
  | .hbm, ⟨20, _⟩ => ⟨S6400000, .i32⟩
  | .hbm, ⟨21, _⟩ => ⟨S6400000x1, .i32⟩
  | .hbm, ⟨22, _⟩ => ⟨S6400000, .f32⟩
  | .hbm, ⟨23, _⟩ => ⟨S_, .i32⟩
  | .hbm, ⟨24, _⟩ => ⟨S6400000, .i32⟩
  | .hbm, ⟨25, _⟩ => ⟨S6400000, .i1⟩
  | .hbm, ⟨26, _⟩ => ⟨S_, .i32⟩
  | .hbm, ⟨27, _⟩ => ⟨S6400000, .i32⟩
  | .hbm, ⟨28, _⟩ => ⟨S6400000, .i32⟩
  | .hbm, ⟨29, _⟩ => ⟨S6400000, .i32⟩
  | .hbm, ⟨30, _⟩ => ⟨S6400000x1, .i32⟩
  | .hbm, ⟨31, _⟩ => ⟨S6400000, .f32⟩
  | .hbm, ⟨32, _⟩ => ⟨S_, .i32⟩
  | .hbm, ⟨33, _⟩ => ⟨S6400000, .i32⟩
  | .hbm, ⟨34, _⟩ => ⟨S6400000, .i1⟩
  | .hbm, ⟨35, _⟩ => ⟨S_, .i32⟩
  | .hbm, ⟨36, _⟩ => ⟨S6400000, .i32⟩
  | .hbm, ⟨37, _⟩ => ⟨S6400000, .i32⟩
  | .hbm, ⟨38, _⟩ => ⟨S6400000, .i32⟩
  | .hbm, ⟨39, _⟩ => ⟨S6400000x1, .i32⟩
  | .hbm, ⟨40, _⟩ => ⟨S6400000, .f32⟩
  | .hbm, ⟨41, _⟩ => ⟨S_, .i32⟩
  | .hbm, ⟨42, _⟩ => ⟨S6400000, .i32⟩
  | .hbm, ⟨43, _⟩ => ⟨S6400000, .i1⟩
  | .hbm, ⟨44, _⟩ => ⟨S_, .i32⟩
  | .hbm, ⟨45, _⟩ => ⟨S6400000, .i32⟩
  | .hbm, ⟨46, _⟩ => ⟨S6400000, .i32⟩
  | .hbm, ⟨47, _⟩ => ⟨S6400000, .i32⟩
  | .hbm, ⟨48, _⟩ => ⟨S6400000x1, .i32⟩
  | .hbm, ⟨49, _⟩ => ⟨S6400000, .f32⟩
  | .hbm, ⟨50, _⟩ => ⟨S_, .i32⟩
  | .hbm, ⟨51, _⟩ => ⟨S6400000, .i32⟩
  | .hbm, ⟨52, _⟩ => ⟨S6400000, .i1⟩
  | .hbm, ⟨53, _⟩ => ⟨S_, .i32⟩
  | .hbm, ⟨54, _⟩ => ⟨S6400000, .i32⟩
  | .hbm, ⟨55, _⟩ => ⟨S6400000, .i32⟩
  | .hbm, ⟨56, _⟩ => ⟨S6400000, .i32⟩
  | .hbm, ⟨57, _⟩ => ⟨S6400000x1, .i32⟩
  | .hbm, ⟨58, _⟩ => ⟨S6400000, .f32⟩
  | .hbm, ⟨59, _⟩ => ⟨S_, .i32⟩
  | .hbm, ⟨60, _⟩ => ⟨S6400000, .i32⟩
  | .hbm, ⟨61, _⟩ => ⟨S6400000, .i1⟩
  | .hbm, ⟨62, _⟩ => ⟨S_, .i32⟩
  | .hbm, ⟨63, _⟩ => ⟨S6400000, .i32⟩
  | .hbm, ⟨64, _⟩ => ⟨S6400000, .i32⟩
  | .hbm, ⟨65, _⟩ => ⟨S6400000, .i32⟩
  | .hbm, ⟨66, _⟩ => ⟨S6400000x1, .i32⟩
  | .hbm, ⟨67, _⟩ => ⟨S6400000, .f32⟩
  | .hbm, ⟨68, _⟩ => ⟨S6400000, .f32⟩
  | .hbm, ⟨69, _⟩ => ⟨S6400000, .f32⟩
  | .hbm, ⟨70, _⟩ => ⟨S6400000, .f32⟩
  | .hbm, ⟨71, _⟩ => ⟨S2x1x1, .f32⟩
  | .hbm, ⟨72, _⟩ => ⟨S2x1x1, .f32⟩
  | .hbm, ⟨73, _⟩ => ⟨S2x3x3, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S3x3, .f32⟩
  | .hbm, ⟨80, _⟩ => ⟨S6400000x1, .f32⟩
  | .hbm, ⟨81, _⟩ => ⟨S6400000x1, .f32⟩
  | .hbm, ⟨82, _⟩ => ⟨S6400000x1, .f32⟩
  | .hbm, ⟨83, _⟩ => ⟨S6400000x3, .f32⟩
  | .hbm, ⟨84, _⟩ => ⟨S12800000, .i32⟩
  | .hbm, ⟨85, _⟩ => ⟨S6400000x3, .f32⟩
  | .hbm, ⟨86, _⟩ => ⟨S12800000x3, .f32⟩
  | .hbm, ⟨87, _⟩ => ⟨S_, .f32⟩
  | .hbm, ⟨88, _⟩ => ⟨S100000x3, .f32⟩
  | .hbm, ⟨89, _⟩ => ⟨S_, .i32⟩
  | .hbm, ⟨90, _⟩ => ⟨S12800000, .i32⟩
  | .hbm, ⟨91, _⟩ => ⟨S12800000, .i1⟩
  | .hbm, ⟨92, _⟩ => ⟨S_, .i32⟩
  | .hbm, ⟨93, _⟩ => ⟨S12800000, .i32⟩
  | .hbm, ⟨94, _⟩ => ⟨S12800000, .i32⟩
  | .hbm, ⟨95, _⟩ => ⟨S12800000, .i32⟩
  | .hbm, ⟨96, _⟩ => ⟨S12800000x1, .i32⟩
  | .hbm, ⟨97, _⟩ => ⟨S100000x3, .f32⟩
  | .local _ .vmem, ⟨0, _⟩ => ⟨S128000, .f32⟩
  | .local _ .vmem, ⟨1, _⟩ => ⟨S128000, .f32⟩
  | .local _ .vmem, ⟨2, _⟩ => ⟨S128000, .f32⟩
  | .local _ .vmem, ⟨3, _⟩ => ⟨S128000, .f32⟩
  | .local _ .vmem, ⟨4, _⟩ => ⟨S128000, .f32⟩
  | .local _ .vmem, ⟨5, _⟩ => ⟨S128000, .f32⟩
  | .local _ .vmem, ⟨6, _⟩ => ⟨S128000, .f32⟩
  | .local _ .vmem, ⟨7, _⟩ => ⟨S128000, .f32⟩
  | .local _ .vmem, ⟨8, _⟩ => ⟨S128000, .f32⟩
  | .local _ .vmem, ⟨9, _⟩ => ⟨S128000, .f32⟩
  | .local _ .vmem, ⟨10, _⟩ => ⟨S128000, .f32⟩
  | .local _ .vmem, ⟨11, _⟩ => ⟨S128000, .f32⟩
  | .local _ .vmem, ⟨12, _⟩ => ⟨S128000, .f32⟩
  | .local _ .vmem, ⟨13, _⟩ => ⟨S128000, .f32⟩
  | .local _ .vmem, ⟨14, _⟩ => ⟨S128000, .f32⟩
  | .local _ .vmem, ⟨15, _⟩ => ⟨S128000, .f32⟩
  | .local _ .vmem, ⟨16, _⟩ => ⟨S128000, .f32⟩
  | .local _ .vmem, ⟨17, _⟩ => ⟨S128000, .f32⟩
  | .local _ .vmem, ⟨18, _⟩ => ⟨S128000, .f32⟩
  | .local _ .vmem, ⟨19, _⟩ => ⟨S128000, .f32⟩
  | .local _ .vmem, ⟨20, _⟩ => ⟨S128000, .f32⟩
  | .local _ .vmem, ⟨21, _⟩ => ⟨S128000, .f32⟩
  | .local _ .vmem, ⟨22, _⟩ => ⟨S1x1x1, .f32⟩
  | .local _ .vmem, ⟨23, _⟩ => ⟨S1x1x1, .f32⟩
  | .local _ .vmem, ⟨24, _⟩ => ⟨S1x1x1, .f32⟩
  | .local _ .vmem, ⟨25, _⟩ => ⟨S1x1x1, .f32⟩
  | .local _ .vmem, ⟨26, _⟩ => ⟨S1x3x3, .f32⟩
  | .local _ .vmem, ⟨27, _⟩ => ⟨S1x3x3, .f32⟩
  | .local _ .vmem, ⟨28, _⟩ => ⟨S1x1, .f32⟩
  | .local _ .vmem, ⟨29, _⟩ => ⟨S1x1, .f32⟩
  | .local _ .vmem, ⟨30, _⟩ => ⟨S3x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_c_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52_0 : Ref sig .tc := ⟨.hbm, 68, rfl⟩
abbrev main_v52_1 : Ref sig .tc := ⟨.hbm, 69, rfl⟩
abbrev main_v52_2 : Ref sig .tc := ⟨.hbm, 70, rfl⟩
abbrev main_v52_3 : Ref sig .tc := ⟨.hbm, 71, rfl⟩
abbrev main_v52_4 : Ref sig .tc := ⟨.hbm, 72, rfl⟩
abbrev main_v52_5 : Ref sig .tc := ⟨.hbm, 73, rfl⟩
abbrev main_cst : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_c_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v249 : BitVec 1 := Scalar.cmpi .eq arg1 c24_i32
  let v250 : BitVec 32 := Scalar.extui v249
  let c0_i32_93 : BitVec 32 := 0#32
  let v251 : BitVec 1 := Scalar.cmpi .ne v250 c0_i32_93
  v251

def cc0_transform_0 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_3 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_4 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_5 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_6 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_7 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_8 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_9 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_10 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x3x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S_S6400000 : S_.BroadcastsInDim S6400000 (![] : Fin 0 → Fin S6400000.rank)
  bcast_S6400000_S6400000x1_0 : S6400000.BroadcastsInDim S6400000x1 (![0] : Fin 1 → Fin S6400000x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3x3_S3x3_0_0 : ∀ a, (![0, 0] : Fin 2 → Nat) a + S3x3.size a ≤ S3x3.size a
  h_S3x3 : 0 < S3x3.numel
  shapeCasts_S3x3_S3x3 : S3x3.ShapeCasts S3x3
  inb_S128000_S128000_0 : ∀ a, (![0] : Fin 1 → Nat) a + S128000.size a ≤ S128000.size a
  h_S128000 : 0 < S128000.numel
  shapeCasts_S128000_S128000 : S128000.ShapeCasts S128000
  natLt_1_32 : 1 < 32
  shapeCasts_S128000_S1x128000 : S128000.ShapeCasts S1x128000
  reduces_S1x128000_S1 : S1x128000.Reduces [1] S1
  shapeCasts_S1_S1x1 : S1.ShapeCasts S1x1
  inpos_S1x1_p0_0 : ∀ a, (![0, 0] : Fin 2 → Nat) a < S1x1.size a
  inb_S3x3_S1x1_0_0 : ∀ a, (![0, 0] : Fin 2 → Nat) a + S1x1.size a ≤ S3x3.size a
  inb_S3x3_S1x1_0_1 : ∀ a, (![0, 1] : Fin 2 → Nat) a + S1x1.size a ≤ S3x3.size a
  inb_S3x3_S1x1_0_2 : ∀ a, (![0, 2] : Fin 2 → Nat) a + S1x1.size a ≤ S3x3.size a
  inb_S3x3_S1x1_1_0 : ∀ a, (![1, 0] : Fin 2 → Nat) a + S1x1.size a ≤ S3x3.size a
  inb_S3x3_S1x1_1_1 : ∀ a, (![1, 1] : Fin 2 → Nat) a + S1x1.size a ≤ S3x3.size a
  inb_S3x3_S1x1_1_2 : ∀ a, (![1, 2] : Fin 2 → Nat) a + S1x1.size a ≤ S3x3.size a
  inb_S3x3_S1x1_2_0 : ∀ a, (![2, 0] : Fin 2 → Nat) a + S1x1.size a ≤ S3x3.size a
  inb_S3x3_S1x1_2_1 : ∀ a, (![2, 1] : Fin 2 → Nat) a + S1x1.size a ≤ S3x3.size a
  inb_S3x3_S1x1_2_2 : ∀ a, (![2, 2] : Fin 2 → Nat) a + S1x1.size a ≤ S3x3.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x3x3_S1x3x3_0_0_0 : ∀ a, (![0, 0, 0] : Fin 3 → Nat) a + S1x3x3.size a ≤ S1x3x3.size a
  h_S1x3x3 : 0 < S1x3x3.numel
  shapeCasts_S1x3x3_S3x3 : S1x3x3.ShapeCasts S3x3
  shapeCasts_S3x3_S1x3x3 : S3x3.ShapeCasts S1x3x3
  reducesTo_S2x1x1_S_d0_1_2 : S2x1x1.ReducesTo [0, 1, 2] S_
  h_S_ : 0 < S_.numel
  reducesTo_S2x3x3_S3x3_d0 : S2x3x3.ReducesTo [0] S3x3
  concatenates_S6400000x1_S6400000x1_S6400000x1_S6400000x3_d1 : Shape.Concatenates [S6400000x1, S6400000x1, S6400000x1] S6400000x3 1
  concatenates_S6400000_S6400000_S12800000_d0 : Shape.Concatenates [S6400000, S6400000] S12800000 0
  concatenates_S6400000x3_S6400000x3_S12800000x3_d0 : Shape.Concatenates [S6400000x3, S6400000x3] S12800000x3 0
  bcast_S_S100000x3 : S_.BroadcastsInDim S100000x3 (![] : Fin 0 → Fin S100000x3.rank)
  bcast_S_S12800000 : S_.BroadcastsInDim S12800000 (![] : Fin 0 → Fin S12800000.rank)
  bcast_S12800000_S12800000x1_0 : S12800000.BroadcastsInDim S12800000x1 (![0] : Fin 1 → Fin S12800000x1.rank)
  gather_S100000_S6400000x1_S6400000_n_0_n_n_0_1_1_wf : GatherDims.WF S100000 S6400000x1 S6400000 [] [0] [] [0] [] 1 ![1]
  scatter_S100000x3_S12800000x1_S12800000x3_1_0_0_1_wf : ScatterDims.WF S100000x3 S12800000x1 S12800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128000.size a ≤ S6400000.size a
  hwx0_0 : ∀ i : grid0.Coords, EltTy.bits .f32 = 32 ∨ (Rect.block (s := S6400000) S128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128000.size a ≤ S6400000.size a
  hwx0_1 : ∀ i : grid0.Coords, EltTy.bits .f32 = 32 ∨ (Rect.block (s := S6400000) S128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128000.size a ≤ S6400000.size a
  hwx0_2 : ∀ i : grid0.Coords, EltTy.bits .f32 = 32 ∨ (Rect.block (s := S6400000) S128000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128000.size a ≤ S6400000.size a
  hwx0_3 : ∀ i : grid0.Coords, EltTy.bits .f32 = 32 ∨ (Rect.block (s := S6400000) S128000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128000.size a ≤ S6400000.size a
  hwx0_4 : ∀ i : grid0.Coords, EltTy.bits .f32 = 32 ∨ (Rect.block (s := S6400000) S128000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128000.size a ≤ S6400000.size a
  hwx0_5 : ∀ i : grid0.Coords, EltTy.bits .f32 = 32 ∨ (Rect.block (s := S6400000) S128000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128000.size a ≤ S6400000.size a
  hwx0_6 : ∀ i : grid0.Coords, EltTy.bits .f32 = 32 ∨ (Rect.block (s := S6400000) S128000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128000.size a ≤ S6400000.size a
  hwx0_7 : ∀ i : grid0.Coords, EltTy.bits .f32 = 32 ∨ (Rect.block (s := S6400000) S128000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128000.size a ≤ S6400000.size a
  hwx0_8 : ∀ i : grid0.Coords, EltTy.bits .f32 = 32 ∨ (Rect.block (s := S6400000) S128000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128000.size a ≤ S6400000.size a
  hwx0_9 : ∀ i : grid0.Coords, EltTy.bits .f32 = 32 ∨ (Rect.block (s := S6400000) S128000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128000.size a ≤ S6400000.size a
  hwx0_10 : ∀ i : grid0.Coords, EltTy.bits .f32 = 32 ∨ (Rect.block (s := S6400000) S128000.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1.size a ≤ S2x1x1.size a
  hwx0_11 : ∀ i : grid0.Coords, EltTy.bits .f32 = 32 ∨ (Rect.block (s := S2x1x1) S1x1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1.size a ≤ S2x1x1.size a
  hwx0_12 : ∀ i : grid0.Coords, EltTy.bits .f32 = 32 ∨ (Rect.block (s := S2x1x1) S1x1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x3x3.size a ≤ S2x3x3.size a
  hwx0_13 : ∀ i : grid0.Coords, EltTy.bits .f32 = 32 ∨ (Rect.block (s := S2x3x3) S1x3x3.size (cc0_transform_13 i) (hinb0_13 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000x3_S12800000x1_S12800000x3_1_0_0_1 : ScatterDims S100000x3 S12800000x1 S12800000x3 where
  updateWindowDims := [1]
  insertedWindowDims := [0]
  scatterDimsToOperandDims := [0]
  indexVectorDim := 1
  wf := scatter_S100000x3_S12800000x1_S12800000x3_1_0_0_1_wf

abbrev win0_0 : Pipeline.Window sig grid0 :=
  Pipeline.Window.ofSpec (Memref.whole main_v16) S128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44) S128000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v51) S128000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S128000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v52_0) S128000.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v52_1) S128000.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v52_2) S128000.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v52_3) S1x1x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v52_4) S1x1x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v52_5) S1x3x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | 12 => fun i => !(k0_cond2 i == 1#1) | 13 => fun i => !(k0_cond2 i == 1#1) | ⟨_ + 14, h⟩ => absurd h (Nat.not_lt.2 (Nat.le_add_left _ _))

class Facts : Prop extends Facts₀ where

variable [Facts]
-- ==== ReferenceIdeal.lean ====
abbrev S100000x3 : Shape := ⟨2, ![100000, 3]⟩
abbrev S2x6400000 : Shape := ⟨2, ![2, 6400000]⟩
abbrev S6400000 : Shape := ⟨1, ![6400000]⟩
abbrev S1x6400000 : Shape := ⟨2, ![1, 6400000]⟩
abbrev S_ : Shape := ⟨0, ![]⟩
abbrev S6400000x1 : Shape := ⟨2, ![6400000, 1]⟩
abbrev S6400000x3 : Shape := ⟨2, ![6400000, 3]⟩
abbrev S3x3 : Shape := ⟨2, ![3, 3]⟩

abbrev nBuf : Space → Nat
  | .hbm => 184
  | .vmem => 0
  | .smem => 0
  | _ => 0

abbrev hbmTy0_0 (i : Nat) : BufTy := match i % 128 with
  | 0 => ⟨S100000x3, .f32⟩
  | 1 => ⟨S2x6400000, .i32⟩
  | 2 => ⟨S6400000, .f32⟩
  | 3 => ⟨S6400000, .f32⟩
  | 4 => ⟨S1x6400000, .i32⟩
  | 5 => ⟨S6400000, .i32⟩
  | 6 => ⟨S1x6400000, .i32⟩
  | 7 => ⟨S6400000, .i32⟩
  | 8 => ⟨S_, .i32⟩
  | 9 => ⟨S6400000, .i32⟩
  | 10 => ⟨S6400000, .i1⟩
  | 11 => ⟨S_, .i32⟩
  | 12 => ⟨S6400000, .i32⟩
  | 13 => ⟨S6400000, .i32⟩
  | 14 => ⟨S6400000, .i32⟩
  | 15 => ⟨S6400000x1, .i32⟩
  | 16 => ⟨S6400000x3, .f32⟩
  | 17 => ⟨S_, .i32⟩
  | 18 => ⟨S6400000, .i32⟩
  | 19 => ⟨S6400000, .i1⟩
  | 20 => ⟨S_, .i32⟩
  | 21 => ⟨S6400000, .i32⟩
  | 22 => ⟨S6400000, .i32⟩
  | 23 => ⟨S6400000, .i32⟩
  | 24 => ⟨S6400000x1, .i32⟩
  | 25 => ⟨S6400000x3, .f32⟩
  | 26 => ⟨S6400000x3, .f32⟩
  | 27 => ⟨S_, .f32⟩
  | 28 => ⟨S6400000x3, .f32⟩
  | 29 => ⟨S6400000x3, .f32⟩
  | 30 => ⟨S6400000x3, .f32⟩
  | 31 => ⟨S_, .f32⟩
  | 32 => ⟨S6400000x3, .f32⟩
  | 33 => ⟨S6400000x3, .f32⟩
  | 34 => ⟨S6400000x3, .f32⟩
  | 35 => ⟨S6400000x3, .f32⟩
  | 36 => ⟨S_, .f32⟩
  | 37 => ⟨S6400000, .f32⟩
  | 38 => ⟨S_, .f32⟩
  | 39 => ⟨S6400000, .f32⟩
  | 40 => ⟨S6400000, .f32⟩
  | 41 => ⟨S6400000, .f32⟩
  | 42 => ⟨S_, .f32⟩
  | 43 => ⟨S6400000, .f32⟩
  | 44 => ⟨S6400000, .f32⟩
  | 45 => ⟨S6400000x1, .f32⟩
  | 46 => ⟨S6400000x3, .f32⟩
  | 47 => ⟨S6400000x3, .f32⟩
  | 48 => ⟨S6400000, .f32⟩
  | 49 => ⟨S6400000, .f32⟩
  | 50 => ⟨S6400000, .f32⟩
  | 51 => ⟨S6400000, .f32⟩
  | 52 => ⟨S6400000, .f32⟩
  | 53 => ⟨S_, .f32⟩
  | 54 => ⟨S6400000, .f32⟩
  | 55 => ⟨S6400000, .f32⟩
  | 56 => ⟨S6400000, .f32⟩
  | 57 => ⟨S6400000, .f32⟩
  | 58 => ⟨S_, .f32⟩
  | 59 => ⟨S6400000, .f32⟩
  | 60 => ⟨S6400000, .f32⟩
  | 61 => ⟨S6400000, .f32⟩
  | 62 => ⟨S_, .f32⟩
  | 63 => ⟨S6400000, .f32⟩
  | 64 => ⟨S6400000, .f32⟩
  | 65 => ⟨S6400000, .f32⟩
  | 66 => ⟨S6400000, .f32⟩
  | 67 => ⟨S_, .f32⟩
  | 68 => ⟨S6400000, .f32⟩
  | 69 => ⟨S6400000, .f32⟩
  | 70 => ⟨S_, .f32⟩
  | 71 => ⟨S6400000, .f32⟩
  | 72 => ⟨S6400000, .f32⟩
  | 73 => ⟨S_, .f32⟩
  | 74 => ⟨S_, .f32⟩
  | 75 => ⟨S_, .f32⟩
  | 76 => ⟨S6400000, .f32⟩
  | 77 => ⟨S6400000, .f32⟩
  | 78 => ⟨S_, .f32⟩
  | 79 => ⟨S6400000, .f32⟩
  | 80 => ⟨S6400000, .f32⟩
  | 81 => ⟨S6400000, .f32⟩
  | 82 => ⟨S6400000, .f32⟩
  | 83 => ⟨S_, .f32⟩
  | 84 => ⟨S6400000, .f32⟩
  | 85 => ⟨S6400000, .f32⟩
  | 86 => ⟨S_, .f32⟩
  | 87 => ⟨S6400000, .f32⟩
  | 88 => ⟨S6400000, .f32⟩
  | 89 => ⟨S6400000, .f32⟩
  | 90 => ⟨S6400000, .f32⟩
  | 91 => ⟨S_, .f32⟩
  | 92 => ⟨S6400000, .f32⟩
  | 93 => ⟨S6400000, .f32⟩
  | 94 => ⟨S6400000, .f32⟩
  | 95 => ⟨S6400000, .f32⟩
  | 96 => ⟨S6400000, .f32⟩
  | 97 => ⟨S6400000, .f32⟩
  | 98 => ⟨S_, .f32⟩
  | 99 => ⟨S6400000, .f32⟩
  | 100 => ⟨S6400000, .f32⟩
  | 101 => ⟨S6400000, .f32⟩
  | 102 => ⟨S6400000, .f32⟩
  | 103 => ⟨S_, .f32⟩
  | 104 => ⟨S6400000, .f32⟩
  | 105 => ⟨S6400000, .f32⟩
  | 106 => ⟨S6400000, .f32⟩
  | 107 => ⟨S6400000, .f32⟩
  | 108 => ⟨S_, .f32⟩
  | 109 => ⟨S6400000, .f32⟩
  | 110 => ⟨S6400000, .f32⟩
  | 111 => ⟨S6400000, .f32⟩
  | 112 => ⟨S6400000, .f32⟩
  | 113 => ⟨S6400000, .f32⟩
  | 114 => ⟨S_, .f32⟩
  | 115 => ⟨S6400000, .f32⟩
  | 116 => ⟨S6400000, .f32⟩
  | 117 => ⟨S6400000, .f32⟩
  | 118 => ⟨S_, .f32⟩
  | 119 => ⟨S6400000, .f32⟩
  | 120 => ⟨S6400000, .f32⟩
  | 121 => ⟨S_, .f32⟩
  | 122 => ⟨S6400000, .f32⟩
  | 123 => ⟨S6400000, .i1⟩
  | 124 => ⟨S_, .f32⟩
  | 125 => ⟨S6400000, .f32⟩
  | 126 => ⟨S6400000, .i1⟩
  | 127 => ⟨S6400000, .i1⟩
  | _ => ⟨S100000x3, .f32⟩

abbrev hbmTy0_1 (i : Nat) : BufTy := match i % 128 with
  | 0 => ⟨S_, .f32⟩
  | 1 => ⟨S6400000, .f32⟩
  | 2 => ⟨S6400000, .i1⟩
  | 3 => ⟨S_, .f32⟩
  | 4 => ⟨S_, .f32⟩
  | 5 => ⟨S6400000, .f32⟩
  | 6 => ⟨S6400000, .f32⟩
  | 7 => ⟨S_, .f32⟩
  | 8 => ⟨S_, .f32⟩
  | 9 => ⟨S6400000, .f32⟩
  | 10 => ⟨S6400000, .f32⟩
  | 11 => ⟨S_, .f32⟩
  | 12 => ⟨S_, .f32⟩
  | 13 => ⟨S6400000, .f32⟩
  | 14 => ⟨S6400000, .f32⟩
  | 15 => ⟨S6400000, .f32⟩
  | 16 => ⟨S6400000, .f32⟩
  | 17 => ⟨S6400000, .f32⟩
  | 18 => ⟨S6400000, .f32⟩
  | 19 => ⟨S_, .f32⟩
  | 20 => ⟨S6400000, .f32⟩
  | 21 => ⟨S6400000, .i1⟩
  | 22 => ⟨S6400000, .f32⟩
  | 23 => ⟨S6400000, .f32⟩
  | 24 => ⟨S6400000, .f32⟩
  | 25 => ⟨S6400000x1, .f32⟩
  | 26 => ⟨S6400000x3, .f32⟩
  | 27 => ⟨S6400000x3, .f32⟩
  | 28 => ⟨S_, .f32⟩
  | 29 => ⟨S100000x3, .f32⟩
  | 30 => ⟨S_, .i32⟩
  | 31 => ⟨S6400000, .i32⟩
  | 32 => ⟨S6400000, .i1⟩
  | 33 => ⟨S_, .i32⟩
  | 34 => ⟨S6400000, .i32⟩
  | 35 => ⟨S6400000, .i32⟩
  | 36 => ⟨S6400000, .i32⟩
  | 37 => ⟨S6400000x1, .i32⟩
  | 38 => ⟨S100000x3, .f32⟩
  | 39 => ⟨S6400000x3, .f32⟩
  | 40 => ⟨S_, .i32⟩
  | 41 => ⟨S6400000, .i32⟩
  | 42 => ⟨S6400000, .i1⟩
  | 43 => ⟨S_, .i32⟩
  | 44 => ⟨S6400000, .i32⟩
  | 45 => ⟨S6400000, .i32⟩
  | 46 => ⟨S6400000, .i32⟩
  | 47 => ⟨S6400000x1, .i32⟩
  | 48 => ⟨S100000x3, .f32⟩
  | 49 => ⟨S_, .f32⟩
  | 50 => ⟨S_, .f32⟩
  | 51 => ⟨S6400000, .f32⟩
  | 52 => ⟨S6400000, .f32⟩
  | 53 => ⟨S_, .f32⟩
  | 54 => ⟨S_, .f32⟩
  | 55 => ⟨S3x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_cst_13 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_19 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_21 : Ref sig .tc := ⟨.hbm, 118, rfl⟩
abbrev main_v86 : Ref sig .tc := ⟨.hbm, 119, rfl⟩
abbrev main_v87 : Ref sig .tc := ⟨.hbm, 120, rfl⟩
abbrev main_cst_22 : Ref sig .tc := ⟨.hbm, 121, rfl⟩
abbrev main_v88 : Ref sig .tc := ⟨.hbm, 122, rfl⟩
abbrev main_v89 : Ref sig .tc := ⟨.hbm, 123, rfl⟩
abbrev main_cst_23 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_24 : Ref sig .tc := ⟨.hbm, 128, rfl⟩
abbrev main_v93 : Ref sig .tc := ⟨.hbm, 129, rfl⟩
abbrev main_v94 : Ref sig .tc := ⟨.hbm, 130, rfl⟩
abbrev main_cst_25 : Ref sig .tc := ⟨.hbm, 131, rfl⟩
abbrev main_call2_v0 : Ref sig .tc := ⟨.hbm, 132, rfl⟩
abbrev main_call2_v1 : Ref sig .tc := ⟨.hbm, 133, rfl⟩
abbrev main_v95 : Ref sig .tc := ⟨.hbm, 134, rfl⟩
abbrev main_cst_26 : Ref sig .tc := ⟨.hbm, 135, rfl⟩
abbrev main_call3_v0 : Ref sig .tc := ⟨.hbm, 136, rfl⟩
abbrev main_call3_v1 : Ref sig .tc := ⟨.hbm, 137, rfl⟩
abbrev main_v96 : Ref sig .tc := ⟨.hbm, 138, rfl⟩
abbrev main_cst_27 : Ref sig .tc := ⟨.hbm, 139, rfl⟩
abbrev main_call4_v0 : Ref sig .tc := ⟨.hbm, 140, rfl⟩
abbrev main_call4_v1 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_28 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_29 : Ref sig .tc := ⟨.hbm, 156, rfl⟩
abbrev main_v110 : Ref sig .tc := ⟨.hbm, 157, rfl⟩
abbrev main_c_30 : Ref sig .tc := ⟨.hbm, 158, rfl⟩
abbrev main_v111 : Ref sig .tc := ⟨.hbm, 159, rfl⟩
abbrev main_v112 : Ref sig .tc := ⟨.hbm, 160, rfl⟩
abbrev main_c_31 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_32 : Ref sig .tc := ⟨.hbm, 168, rfl⟩
abbrev main_v119 : Ref sig .tc := ⟨.hbm, 169, rfl⟩
abbrev main_v120 : Ref sig .tc := ⟨.hbm, 170, rfl⟩
abbrev main_c_33 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_34 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_35 : Ref sig .tc := ⟨.hbm, 181, rfl⟩
abbrev main_v129 : Ref sig .tc := ⟨.hbm, 182, rfl⟩
abbrev main_v130 : Ref sig .tc := ⟨.hbm, 183, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x3 : S_.BroadcastsInDim S6400000x3 (![] : Fin 0 → Fin S6400000x3.rank)
  reducesTo_S6400000x3_S6400000_d1 : S6400000x3.ReducesTo [1] S6400000
  h_S_ : 0 < S_.numel
  bcast_S6400000x1_S6400000x3_0_1 : S6400000x1.BroadcastsInDim S6400000x3 (![0, 1] : Fin 2 → Fin S6400000x3.rank)
  bcast_S_S100000x3 : S_.BroadcastsInDim S100000x3 (![] : Fin 0 → Fin S100000x3.rank)
  reducesTo_S6400000_S_d0 : S6400000.ReducesTo [0] S_
  gather_S100000x3_S6400000x1_S6400000x3_1_0_n_n_0_1_13_wf : GatherDims.WF S100000x3 S6400000x1 S6400000x3 [1] [0] [] [0] [] 1 ![1, 3]
  scatter_S100000x3_S6400000x1_S6400000x3_1_0_0_1_wf : ScatterDims.WF S100000x3 S6400000x1 S6400000x3 [1] [0] [0] 1
  dot_S6400000x3_S6400000x3_S3x3_0_0_1_1_n_n_wf : DotDims.WF S6400000x3 S6400000x3 S3x3 [0] [0] [1] [1] [] []

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf
def scatter_S100000x3_S6400000x1_S6400000x3_1_0_0_1 : ScatterDims S100000x3 S6400000x1 S6400000x3 where
  updateWindowDims := [1]
  insertedWindowDims := [0]
  scatterDimsToOperandDims := [0]
  indexVectorDim := 1
  wf := scatter_S100000x3_S6400000x1_S6400000x3_1_0_0_1_wf
def dot_S6400000x3_S6400000x3_S3x3_0_0_1_1_n_n : DotDims S6400000x3 S6400000x3 S3x3 where
  lhsContracting := [0]
  rhsContracting := [0]
  lhsNonContracting := [1]
  rhsNonContracting := [1]
  lhsBatch := []
  rhsBatch := []
  wf := dot_S6400000x3_S6400000x3_S3x3_0_0_1_1_n_n_wf

class Facts : Prop extends Facts₀ where

variable [Facts]
-- ==== Proof.K.Setup.lean ====
import proofs.«420260_j7687991460463_2_alg».proof.Proof.Gen.Kernel.Launch
import proofs.«420260_j7687991460463_2_alg».proof.Proof.Gen.Kernel.Skeleton
import proofs.«420260_j7687991460463_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 8000000 in

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 8000000 in

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 8000000 in

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 8000000 in

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 8000000 in

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 8000000 in

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    ((h c).1 6).trans (((dats 0 c).arrAt_in 6 rfl _).trans ((hA c 6).trans (V_main_arg2 m c))),
    ((h c).1 7).trans (((dats 0 c).arrAt_in 7 rfl _).trans ((hA c 7).trans (V_main_arg3 m c)))⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1

theorem hcond0_1 : ∀ t : Fin cfg0.N, cond0_1 (grid0.coords t) ↔ t.val % 25 = 24 :=
  (by decide +kernel : ∀ t : Fin grid0.N, cond0_1 (grid0.coords t) ↔ t.val % 25 = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel

theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel

theorem liveAt0_11_C : ∀ t : Fin cfg0.N, cond0_1 (grid0.coords t) → cfg0.idle 11 (grid0.coords t) = false := by decide +kernel

theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel

theorem liveAt0_12_C : ∀ t : Fin cfg0.N, cond0_1 (grid0.coords t) → cfg0.idle 12 (grid0.coords t) = false := by decide +kernel

theorem idleAt0_13 : ∀ t : Fin cfg0.N, ¬cond0_1 (grid0.coords t) → cfg0.idle 13 (grid0.coords t) = true := by decide +kernel
theorem noFlush0_13 : ∀ t : Fin cfg0.N, ¬cond0_1 (grid0.coords t) → (cfg0.win 13).flush t = false := by decide +kernel

theorem liveAt0_13_C : ∀ t : Fin cfg0.N, cond0_1 (grid0.coords t) → cfg0.idle 13 (grid0.coords t) = false := by decide +kernel

abbrev VO0_8 : View sig .tc .vmem S128000 .f32 := (Memref.whole cc0_stg8_0 : Memref sig .tc .vmem S128000 .f32).view

abbrev VO0_9 : View sig .tc .vmem S128000 .f32 := (Memref.whole cc0_stg9_0 : Memref sig .tc .vmem S128000 .f32).view

abbrev VO0_10 : View sig .tc .vmem S128000 .f32 := (Memref.whole cc0_stg10_0 : Memref sig .tc .vmem S128000 .f32).view

abbrev VO0_11 : View sig .tc .vmem S1x1x1 .f32 := (Memref.whole cc0_stg11_0 : Memref sig .tc .vmem S1x1x1 .f32).view

abbrev VO0_12 : View sig .tc .vmem S1x1x1 .f32 := (Memref.whole cc0_stg12_0 : Memref sig .tc .vmem S1x1x1 .f32).view

abbrev VO0_13 : View sig .tc .vmem S1x3x3 .f32 := (Memref.whole cc0_stg13_0 : Memref sig .tc .vmem S1x3x3 .f32).view
abbrev ms0_0 (t : Fin cfg0.N) : Memref sig .tc .vmem S128000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128000 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128000 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128000 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128000 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x3x3 .f32 := win0_13.stage (cfg0.slots t 13)
abbrev hs0_13 (t : Fin cfg0.N) : (ms0_13 t).IsWhole := hstage0_13 ((cfg0.slots t 13).cast nbuf0_13)

abbrev scM0_0 : Memref sig .tc .vmem S1x1 .f32 := Memref.whole cc0_scratch0
abbrev scM0_1 : Memref sig .tc .vmem S1x1 .f32 := Memref.whole cc0_scratch1
abbrev scM0_2 : Memref sig .tc .vmem S3x3 .f32 := Memref.whole cc0_scratch2
abbrev VS0_0 : View sig .tc .vmem S1x1 .f32 := scM0_0.view
abbrev VS0_1 : View sig .tc .vmem S1x1 .f32 := scM0_1.view
abbrev VS0_2 : View sig .tc .vmem S3x3 .f32 := scM0_2.view

/-- The seventeen whole buffers one step of the body works on: eight inputs, six outputs, three accumulators. -/
structure Bufs where
  arg2 : Memref sig .tc .vmem S128000 .f32
  harg2 : arg2.IsWhole
  arg3 : Memref sig .tc .vmem S128000 .f32
  harg3 : arg3.IsWhole
  arg4 : Memref sig .tc .vmem S128000 .f32
  harg4 : arg4.IsWhole
  arg5 : Memref sig .tc .vmem S128000 .f32
  harg5 : arg5.IsWhole
  arg6 : Memref sig .tc .vmem S128000 .f32
  harg6 : arg6.IsWhole
  arg7 : Memref sig .tc .vmem S128000 .f32
  harg7 : arg7.IsWhole
  arg8 : Memref sig .tc .vmem S128000 .f32
  harg8 : arg8.IsWhole
  arg9 : Memref sig .tc .vmem S128000 .f32
  harg9 : arg9.IsWhole
  arg10 : Memref sig .tc .vmem S128000 .f32
  harg10 : arg10.IsWhole
  arg11 : Memref sig .tc .vmem S128000 .f32
  harg11 : arg11.IsWhole
  arg12 : Memref sig .tc .vmem S128000 .f32
  harg12 : arg12.IsWhole
  arg13 : Memref sig .tc .vmem S1x1x1 .f32
  harg13 : arg13.IsWhole
  arg14 : Memref sig .tc .vmem S1x1x1 .f32
  harg14 : arg14.IsWhole
  arg15 : Memref sig .tc .vmem S1x3x3 .f32
  harg15 : arg15.IsWhole
  arg16 : Memref sig .tc .vmem S1x1 .f32
  harg16 : arg16.IsWhole
  arg17 : Memref sig .tc .vmem S1x1 .f32
  harg17 : arg17.IsWhole
  arg18 : Memref sig .tc .vmem S3x3 .f32
  harg18 : arg18.IsWhole

/-- The launch's own buffers at grid step `t`. -/
abbrev bufsAt (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t,
    scM0_0, Memref.isWhole_whole _, scM0_1, Memref.isWhole_whole _, scM0_2, Memref.isWhole_whole _⟩

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Frame

end
-- ==== Proof.K.RunA.lean ====
import proofs.«420260_j7687991460463_2_alg».proof.Proof.K.Setup

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (bs : Bufs) (hc0 : cond0_0 i) (hc1 : ¬cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) :
    Σ' (L8 : List (View.Piece (Elt F) S128000 .f32)) (L9 : List (View.Piece (Elt F) S128000 .f32)) (L10 : List (View.Piece (Elt F) S128000 .f32)) (L11 : List (View.Piece (Elt F) S1x1x1 .f32)) (L12 : List (View.Piece (Elt F) S1x1x1 .f32)) (L13 : List (View.Piece (Elt F) S1x3x3 .f32)) (LS0 : List (View.Piece (Elt F) S1x1 .f32)) (LS1 : List (View.Piece (Elt F) S1x1 .f32)), { LS2 : List (View.Piece (Elt F) S3x3 .f32) //
      ∀ (xi11 : Vec F S1x1x1 .f32) (xi12 : Vec F S1x1x1 .f32) (xi13 : Vec F S1x3x3 .f32) (E : Set ℕ) (K : PUnit → sProp 𝕄),
        iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ d, owns (c : Thread nD τ) bs.arg10 fullShare d) ∗ (∃ d, owns (c : Thread nD τ) bs.arg11 fullShare d) ∗ (∃ d, owns (c : Thread nD τ) bs.arg12 fullShare d) ∗ owns (c : Thread nD τ) bs.arg13 fullShare xi11 ∗ owns (c : Thread nD τ) bs.arg14 fullShare xi12 ∗ owns (c : Thread nD τ) bs.arg15 fullShare xi13 ∗ (∃ d, owns (c : Thread nD τ) bs.arg16 fullShare d) ∗ (∃ d, owns (c : Thread nD τ) bs.arg17 fullShare d) ∗ (∃ d, owns (c : Thread nD τ) bs.arg18 fullShare d)
            ∗ (iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ f, bs.arg10.view.loc (c : Thread nD τ) ↦[bs.arg10.view.set]{fullShare} bs.arg10.view.writes (Elt F) f L8) ∗ (∃ f, bs.arg11.view.loc (c : Thread nD τ) ↦[bs.arg11.view.set]{fullShare} bs.arg11.view.writes (Elt F) f L9) ∗ (∃ f, bs.arg12.view.loc (c : Thread nD τ) ↦[bs.arg12.view.set]{fullShare} bs.arg12.view.writes (Elt F) f L10) ∗ owns (c : Thread nD τ) bs.arg13 fullShare xi11 ∗ owns (c : Thread nD τ) bs.arg14 fullShare xi12 ∗ owns (c : Thread nD τ) bs.arg15 fullShare xi13 ∗ (∃ f, bs.arg16.view.loc (c : Thread nD τ) ↦[bs.arg16.view.set]{fullShare} bs.arg16.view.writes (Elt F) f LS0) ∗ (∃ f, bs.arg17.view.loc (c : Thread nD τ) ↦[bs.arg17.view.set]{fullShare} bs.arg17.view.writes (Elt F) f LS1) ∗ (∃ f, bs.arg18.view.loc (c : Thread nD τ) ↦[bs.arg18.view.set]{fullShare} bs.arg18.view.writes (Elt F) f LS2)) -∗ K ⟨⟩))
          ⊢ wp frame (wpE (defs₀ (F := F)) Variants.none c none) E (cc0__lj_kernel i bs.arg2 bs.harg2 bs.arg3 bs.harg3 bs.arg4 bs.harg4 bs.arg5 bs.harg5 bs.arg6 bs.harg6 bs.arg7 bs.harg7 bs.arg8 bs.harg8 bs.arg9 bs.harg9 bs.arg10 bs.harg10 bs.arg11 bs.harg11 bs.arg12 bs.harg12 bs.arg13 bs.harg13 bs.arg14 bs.harg14 bs.arg15 bs.harg15 bs.arg16 bs.harg16 bs.arg17 bs.harg17 bs.arg18 bs.harg18) K } := by
  refine ⟨?_, ?_, ?_, [], [], [], ?_, ?_, ?_, fun xi11 xi12 xi13 E K => ?run⟩
  case run =>
    simp only [cc0__lj_kernel_eq_skeleton]; unfold cc0__lj_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, Hk⟩
    obtain rfl := bs.harg2.eq_unread hf0; obtain rfl := bs.harg3.eq_unread hf1; obtain rfl := bs.harg4.eq_unread hf2; obtain rfl := bs.harg5.eq_unread hf3; obtain rfl := bs.harg6.eq_unread hf4; obtain rfl := bs.harg7.eq_unread hf5; obtain rfl := bs.harg8.eq_unread hf6; obtain rfl := bs.harg9.eq_unread hf7; obtain rfl := bs.harg13.eq_unread hf11; obtain rfl := bs.harg14.eq_unread hf12; obtain rfl := bs.harg15.eq_unread hf13
    sl_exec (disch := first | exact hc0 | exact hc1)
    sl_step
    iapply Hk
    isplitl [H0]
    · iexists _; isplitr; · ipureintro; exact bs.harg2.read_unread _
      iexact H0
    isplitl [H1]
    · iexists _; isplitr; · ipureintro; exact bs.harg3.read_unread _
      iexact H1
    isplitl [H2]
    · iexists _; isplitr; · ipureintro; exact bs.harg4.read_unread _
      iexact H2
    isplitl [H3]
    · iexists _; isplitr; · ipureintro; exact bs.harg5.read_unread _
      iexact H3
    isplitl [H4]
    · iexists _; isplitr; · ipureintro; exact bs.harg6.read_unread _
      iexact H4
    isplitl [H5]
    · iexists _; isplitr; · ipureintro; exact bs.harg7.read_unread _
      iexact H5
    isplitl [H6]
    · iexists _; isplitr; · ipureintro; exact bs.harg8.read_unread _
      iexact H6
    isplitl [H7]
    · iexists _; isplitr; · ipureintro; exact bs.harg9.read_unread _
      iexact H7
    isplitl [H8]; · iexists _; iexact H8
    isplitl [H9]; · iexists _; iexact H9
    isplitl [H10]; · iexists _; iexact H10
    isplitl [H11]
    · iexists _; isplitr; · ipureintro; exact bs.harg13.read_unread _
      iexact H11
    isplitl [H12]
    · iexists _; isplitr; · ipureintro; exact bs.harg14.read_unread _
      iexact H12
    isplitl [H13]
    · iexists _; isplitr; · ipureintro; exact bs.harg15.read_unread _
      iexact H13
    isplitl [HS0]; · iexists _; iexact HS0
    isplitl [HS1]; · iexists _; iexact HS1
    iexists _; iexact HS2

end Cert.Kernel.Frame

end
-- ==== Proof.K.RunB.lean ====
import proofs.«420260_j7687991460463_2_alg».proof.Proof.K.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (bs : Bufs) (hc0 : ¬cond0_0 i) (hc1 : ¬cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32) :
    Σ' (L8 : List (View.Piece (Elt F) S128000 .f32)) (L9 : List (View.Piece (Elt F) S128000 .f32)) (L10 : List (View.Piece (Elt F) S128000 .f32)) (L11 : List (View.Piece (Elt F) S1x1x1 .f32)) (L12 : List (View.Piece (Elt F) S1x1x1 .f32)) (L13 : List (View.Piece (Elt F) S1x3x3 .f32)) (LS0 : List (View.Piece (Elt F) S1x1 .f32)) (LS1 : List (View.Piece (Elt F) S1x1 .f32)), { LS2 : List (View.Piece (Elt F) S3x3 .f32) //
      ∀ (xi11 : Vec F S1x1x1 .f32) (xi12 : Vec F S1x1x1 .f32) (xi13 : Vec F S1x3x3 .f32) (E : Set ℕ) (K : PUnit → sProp 𝕄),
        iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ d, owns (c : Thread nD τ) bs.arg10 fullShare d) ∗ (∃ d, owns (c : Thread nD τ) bs.arg11 fullShare d) ∗ (∃ d, owns (c : Thread nD τ) bs.arg12 fullShare d) ∗ owns (c : Thread nD τ) bs.arg13 fullShare xi11 ∗ owns (c : Thread nD τ) bs.arg14 fullShare xi12 ∗ owns (c : Thread nD τ) bs.arg15 fullShare xi13 ∗ owns (c : Thread nD τ) bs.arg16 fullShare xs0 ∗ owns (c : Thread nD τ) bs.arg17 fullShare xs1 ∗ owns (c : Thread nD τ) bs.arg18 fullShare xs2
            ∗ (iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ f, bs.arg10.view.loc (c : Thread nD τ) ↦[bs.arg10.view.set]{fullShare} bs.arg10.view.writes (Elt F) f L8) ∗ (∃ f, bs.arg11.view.loc (c : Thread nD τ) ↦[bs.arg11.view.set]{fullShare} bs.arg11.view.writes (Elt F) f L9) ∗ (∃ f, bs.arg12.view.loc (c : Thread nD τ) ↦[bs.arg12.view.set]{fullShare} bs.arg12.view.writes (Elt F) f L10) ∗ owns (c : Thread nD τ) bs.arg13 fullShare xi11 ∗ owns (c : Thread nD τ) bs.arg14 fullShare xi12 ∗ owns (c : Thread nD τ) bs.arg15 fullShare xi13 ∗ (∃ f, bs.arg16.view.loc (c : Thread nD τ) ↦[bs.arg16.view.set]{fullShare} bs.arg16.view.writes (Elt F) f LS0) ∗ (∃ f, bs.arg17.view.loc (c : Thread nD τ) ↦[bs.arg17.view.set]{fullShare} bs.arg17.view.writes (Elt F) f LS1) ∗ (∃ f, bs.arg18.view.loc (c : Thread nD τ) ↦[bs.arg18.view.set]{fullShare} bs.arg18.view.writes (Elt F) f LS2)) -∗ K ⟨⟩))
          ⊢ wp frame (wpE (defs₀ (F := F)) Variants.none c none) E (cc0__lj_kernel i bs.arg2 bs.harg2 bs.arg3 bs.harg3 bs.arg4 bs.harg4 bs.arg5 bs.harg5 bs.arg6 bs.harg6 bs.arg7 bs.harg7 bs.arg8 bs.harg8 bs.arg9 bs.harg9 bs.arg10 bs.harg10 bs.arg11 bs.harg11 bs.arg12 bs.harg12 bs.arg13 bs.harg13 bs.arg14 bs.harg14 bs.arg15 bs.harg15 bs.arg16 bs.harg16 bs.arg17 bs.harg17 bs.arg18 bs.harg18) K } := by
  refine ⟨?_, ?_, ?_, [], [], [], ?_, ?_, ?_, fun xi11 xi12 xi13 E K => ?run⟩
  case run =>
    simp only [cc0__lj_kernel_eq_skeleton]; unfold cc0__lj_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%fs0, %hfs0, HS0⟩, ⟨%fs1, %hfs1, HS1⟩, ⟨%fs2, %hfs2, HS2⟩, Hk⟩
    obtain rfl := bs.harg2.eq_unread hf0; obtain rfl := bs.harg3.eq_unread hf1; obtain rfl := bs.harg4.eq_unread hf2; obtain rfl := bs.harg5.eq_unread hf3; obtain rfl := bs.harg6.eq_unread hf4; obtain rfl := bs.harg7.eq_unread hf5; obtain rfl := bs.harg8.eq_unread hf6; obtain rfl := bs.harg9.eq_unread hf7; obtain rfl := bs.harg13.eq_unread hf11; obtain rfl := bs.harg14.eq_unread hf12; obtain rfl := bs.harg15.eq_unread hf13; obtain rfl := bs.harg16.eq_unread hfs0; obtain rfl := bs.harg17.eq_unread hfs1; obtain rfl := bs.harg18.eq_unread hfs2
    sl_exec (disch := first | exact hc0 | exact hc1)
    sl_step
    iapply Hk
    isplitl [H0]
    · iexists _; isplitr; · ipureintro; exact bs.harg2.read_unread _
      iexact H0
    isplitl [H1]
    · iexists _; isplitr; · ipureintro; exact bs.harg3.read_unread _
      iexact H1
    isplitl [H2]
    · iexists _; isplitr; · ipureintro; exact bs.harg4.read_unread _
      iexact H2
    isplitl [H3]
    · iexists _; isplitr; · ipureintro; exact bs.harg5.read_unread _
      iexact H3
    isplitl [H4]
    · iexists _; isplitr; · ipureintro; exact bs.harg6.read_unread _
      iexact H4
    isplitl [H5]
    · iexists _; isplitr; · ipureintro; exact bs.harg7.read_unread _
      iexact H5
    isplitl [H6]
    · iexists _; isplitr; · ipureintro; exact bs.harg8.read_unread _
      iexact H6
    isplitl [H7]
    · iexists _; isplitr; · ipureintro; exact bs.harg9.read_unread _
      iexact H7
    isplitl [H8]; · iexists _; iexact H8
    isplitl [H9]; · iexists _; iexact H9
    isplitl [H10]; · iexists _; iexact H10
    isplitl [H11]
    · iexists _; isplitr; · ipureintro; exact bs.harg13.read_unread _
      iexact H11
    isplitl [H12]
    · iexists _; isplitr; · ipureintro; exact bs.harg14.read_unread _
      iexact H12
    isplitl [H13]
    · iexists _; isplitr; · ipureintro; exact bs.harg15.read_unread _
      iexact H13
    isplitl [HS0]; · iexists _; iexact HS0
    isplitl [HS1]; · iexists _; iexact HS1
    iexists _; iexact HS2

end Cert.Kernel.Frame

end
-- ==== Proof.K.RunC.lean ====
import proofs.«420260_j7687991460463_2_alg».proof.Proof.K.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_C (c : Dev nD) (i : grid0.Coords) (bs : Bufs) (hc0 : ¬cond0_0 i) (hc1 : cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32) :
    Σ' (L8 : List (View.Piece (Elt F) S128000 .f32)) (L9 : List (View.Piece (Elt F) S128000 .f32)) (L10 : List (View.Piece (Elt F) S128000 .f32)) (L11 : List (View.Piece (Elt F) S1x1x1 .f32)) (L12 : List (View.Piece (Elt F) S1x1x1 .f32)) (L13 : List (View.Piece (Elt F) S1x3x3 .f32)) (LS0 : List (View.Piece (Elt F) S1x1 .f32)) (LS1 : List (View.Piece (Elt F) S1x1 .f32)), { LS2 : List (View.Piece (Elt F) S3x3 .f32) //
      ∀ (E : Set ℕ) (K : PUnit → sProp 𝕄),
        iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ d, owns (c : Thread nD τ) bs.arg10 fullShare d) ∗ (∃ d, owns (c : Thread nD τ) bs.arg11 fullShare d) ∗ (∃ d, owns (c : Thread nD τ) bs.arg12 fullShare d) ∗ (∃ d, owns (c : Thread nD τ) bs.arg13 fullShare d) ∗ (∃ d, owns (c : Thread nD τ) bs.arg14 fullShare d) ∗ (∃ d, owns (c : Thread nD τ) bs.arg15 fullShare d) ∗ owns (c : Thread nD τ) bs.arg16 fullShare xs0 ∗ owns (c : Thread nD τ) bs.arg17 fullShare xs1 ∗ owns (c : Thread nD τ) bs.arg18 fullShare xs2
            ∗ (iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ f, bs.arg10.view.loc (c : Thread nD τ) ↦[bs.arg10.view.set]{fullShare} bs.arg10.view.writes (Elt F) f L8) ∗ (∃ f, bs.arg11.view.loc (c : Thread nD τ) ↦[bs.arg11.view.set]{fullShare} bs.arg11.view.writes (Elt F) f L9) ∗ (∃ f, bs.arg12.view.loc (c : Thread nD τ) ↦[bs.arg12.view.set]{fullShare} bs.arg12.view.writes (Elt F) f L10) ∗ (∃ f, bs.arg13.view.loc (c : Thread nD τ) ↦[bs.arg13.view.set]{fullShare} bs.arg13.view.writes (Elt F) f L11) ∗ (∃ f, bs.arg14.view.loc (c : Thread nD τ) ↦[bs.arg14.view.set]{fullShare} bs.arg14.view.writes (Elt F) f L12) ∗ (∃ f, bs.arg15.view.loc (c : Thread nD τ) ↦[bs.arg15.view.set]{fullShare} bs.arg15.view.writes (Elt F) f L13) ∗ (∃ f, bs.arg16.view.loc (c : Thread nD τ) ↦[bs.arg16.view.set]{fullShare} bs.arg16.view.writes (Elt F) f LS0) ∗ (∃ f, bs.arg17.view.loc (c : Thread nD τ) ↦[bs.arg17.view.set]{fullShare} bs.arg17.view.writes (Elt F) f LS1) ∗ (∃ f, bs.arg18.view.loc (c : Thread nD τ) ↦[bs.arg18.view.set]{fullShare} bs.arg18.view.writes (Elt F) f LS2)) -∗ K ⟨⟩))
          ⊢ wp frame (wpE (defs₀ (F := F)) Variants.none c none) E (cc0__lj_kernel i bs.arg2 bs.harg2 bs.arg3 bs.harg3 bs.arg4 bs.harg4 bs.arg5 bs.harg5 bs.arg6 bs.harg6 bs.arg7 bs.harg7 bs.arg8 bs.harg8 bs.arg9 bs.harg9 bs.arg10 bs.harg10 bs.arg11 bs.harg11 bs.arg12 bs.harg12 bs.arg13 bs.harg13 bs.arg14 bs.harg14 bs.arg15 bs.harg15 bs.arg16 bs.harg16 bs.arg17 bs.harg17 bs.arg18 bs.harg18) K } := by
  refine ⟨?_, ?_, ?_, ?_, ?_, ?_, ?_, ?_, ?_, fun E K => ?run⟩
  case run =>
    simp only [cc0__lj_kernel_eq_skeleton]; unfold cc0__lj_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%fs2, %hfs2, HS2⟩, Hk⟩
    obtain rfl := bs.harg2.eq_unread hf0; obtain rfl := bs.harg3.eq_unread hf1; obtain rfl := bs.harg4.eq_unread hf2; obtain rfl := bs.harg5.eq_unread hf3; obtain rfl := bs.harg6.eq_unread hf4; obtain rfl := bs.harg7.eq_unread hf5; obtain rfl := bs.harg8.eq_unread hf6; obtain rfl := bs.harg9.eq_unread hf7; obtain rfl := bs.harg16.eq_unread hfs0; obtain rfl := bs.harg17.eq_unread hfs1; obtain rfl := bs.harg18.eq_unread hfs2
    sl_exec (disch := first | exact hc0 | exact hc1)
    sl_step
    iapply Hk
    isplitl [H0]
    · iexists _; isplitr; · ipureintro; exact bs.harg2.read_unread _
      iexact H0
    isplitl [H1]
    · iexists _; isplitr; · ipureintro; exact bs.harg3.read_unread _
      iexact H1
    isplitl [H2]
    · iexists _; isplitr; · ipureintro; exact bs.harg4.read_unread _
      iexact H2
    isplitl [H3]
    · iexists _; isplitr; · ipureintro; exact bs.harg5.read_unread _
      iexact H3
    isplitl [H4]
    · iexists _; isplitr; · ipureintro; exact bs.harg6.read_unread _
      iexact H4
    isplitl [H5]
    · iexists _; isplitr; · ipureintro; exact bs.harg7.read_unread _
      iexact H5
    isplitl [H6]
    · iexists _; isplitr; · ipureintro; exact bs.harg8.read_unread _
      iexact H6
    isplitl [H7]
    · iexists _; isplitr; · ipureintro; exact bs.harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    isplitl [HS1]; · iexists _; iexact HS1
    iexists _; iexact HS2

end Cert.Kernel.Frame

end
-- ==== Proof.K.FrameDefs.lean ====
import proofs.«420260_j7687991460463_2_alg».proof.Proof.K.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Step
variable (c : Dev nD) (i : grid0.Coords) (bs : Bufs)

section A
variable (hc0 : cond0_0 i) (hc1 : ¬cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32)

/-- What a core's first step leaves in the nine buffers it stores into: the six outputs in window order, then the three accumulators. -/
def outs0_A : Vec F S128000 .f32 × Vec F S128000 .f32 × Vec F S128000 .f32 × Vec F S1x1x1 .f32 × Vec F S1x1x1 .f32 × Vec F S1x3x3 .f32 × Vec F S1x1 .f32 × Vec F S1x1 .f32 × Vec F S3x3 .f32 :=
  let r := kernelRun0_A c i bs hc0 hc1 x0 x1 x2 x3 x4 x5 x6 x7
  (VO0_8.read (Elt F) (VO0_8.writes (Elt F) VO0_8.junk r.1),
    VO0_9.read (Elt F) (VO0_9.writes (Elt F) VO0_9.junk r.2.1),
    VO0_10.read (Elt F) (VO0_10.writes (Elt F) VO0_10.junk r.2.2.1),
    VO0_11.read (Elt F) (VO0_11.writes (Elt F) VO0_11.junk r.2.2.2.1),
    VO0_12.read (Elt F) (VO0_12.writes (Elt F) VO0_12.junk r.2.2.2.2.1),
    VO0_13.read (Elt F) (VO0_13.writes (Elt F) VO0_13.junk r.2.2.2.2.2.1),
    VS0_0.read (Elt F) (VS0_0.writes (Elt F) VS0_0.junk r.2.2.2.2.2.2.1),
    VS0_1.read (Elt F) (VS0_1.writes (Elt F) VS0_1.junk r.2.2.2.2.2.2.2.1),
    VS0_2.read (Elt F) (VS0_2.writes (Elt F) VS0_2.junk r.2.2.2.2.2.2.2.2.1))

end A

section B
variable (hc0 : ¬cond0_0 i) (hc1 : ¬cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32)

/-- The same for a middle step, which starts from the accumulators `xs0 xs1 xs2` the step before left. -/
def outs0_B : Vec F S128000 .f32 × Vec F S128000 .f32 × Vec F S128000 .f32 × Vec F S1x1x1 .f32 × Vec F S1x1x1 .f32 × Vec F S1x3x3 .f32 × Vec F S1x1 .f32 × Vec F S1x1 .f32 × Vec F S3x3 .f32 :=
  let r := kernelRun0_B c i bs hc0 hc1 x0 x1 x2 x3 x4 x5 x6 x7 xs0 xs1 xs2
  (VO0_8.read (Elt F) (VO0_8.writes (Elt F) VO0_8.junk r.1),
    VO0_9.read (Elt F) (VO0_9.writes (Elt F) VO0_9.junk r.2.1),
    VO0_10.read (Elt F) (VO0_10.writes (Elt F) VO0_10.junk r.2.2.1),
    VO0_11.read (Elt F) (VO0_11.writes (Elt F) VO0_11.junk r.2.2.2.1),
    VO0_12.read (Elt F) (VO0_12.writes (Elt F) VO0_12.junk r.2.2.2.2.1),
    VO0_13.read (Elt F) (VO0_13.writes (Elt F) VO0_13.junk r.2.2.2.2.2.1),
    VS0_0.read (Elt F) (VS0_0.writes (Elt F) VS0_0.junk r.2.2.2.2.2.2.1),
    VS0_1.read (Elt F) (VS0_1.writes (Elt F) VS0_1.junk r.2.2.2.2.2.2.2.1),
    VS0_2.read (Elt F) (VS0_2.writes (Elt F) VS0_2.junk r.2.2.2.2.2.2.2.2.1))

end B

section C
variable (hc0 : ¬cond0_0 i) (hc1 : cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32)

/-- The same for a core's last step, which also copies the accumulators to the three reduction outputs. -/
def outs0_C : Vec F S128000 .f32 × Vec F S128000 .f32 × Vec F S128000 .f32 × Vec F S1x1x1 .f32 × Vec F S1x1x1 .f32 × Vec F S1x3x3 .f32 × Vec F S1x1 .f32 × Vec F S1x1 .f32 × Vec F S3x3 .f32 :=
  let r := kernelRun0_C c i bs hc0 hc1 x0 x1 x2 x3 x4 x5 x6 x7 xs0 xs1 xs2
  (VO0_8.read (Elt F) (VO0_8.writes (Elt F) VO0_8.junk r.1),
    VO0_9.read (Elt F) (VO0_9.writes (Elt F) VO0_9.junk r.2.1),
    VO0_10.read (Elt F) (VO0_10.writes (Elt F) VO0_10.junk r.2.2.1),
    VO0_11.read (Elt F) (VO0_11.writes (Elt F) VO0_11.junk r.2.2.2.1),
    VO0_12.read (Elt F) (VO0_12.writes (Elt F) VO0_12.junk r.2.2.2.2.1),
    VO0_13.read (Elt F) (VO0_13.writes (Elt F) VO0_13.junk r.2.2.2.2.2.1),
    VS0_0.read (Elt F) (VS0_0.writes (Elt F) VS0_0.junk r.2.2.2.2.2.2.1),
    VS0_1.read (Elt F) (VS0_1.writes (Elt F) VS0_1.junk r.2.2.2.2.2.2.2.1),
    VS0_2.read (Elt F) (VS0_2.writes (Elt F) VS0_2.junk r.2.2.2.2.2.2.2.2.1))

end C

end Step

/-- The nine buffers after step `n`, by recursion: the kind of step is `n` modulo 25, and only a core's first step forgets the step before. -/
def outsAt0 (c : Dev nD) : (n : ℕ) → n < cfg0.N → Vec F S128000 .f32 × Vec F S128000 .f32 × Vec F S128000 .f32 × Vec F S1x1x1 .f32 × Vec F S1x1x1 .f32 × Vec F S1x3x3 .f32 × Vec F S1x1 .f32 × Vec F S1x1 .f32 × Vec F S3x3 .f32
  | 0, hn => outs0_A c (grid0.coords ⟨0, hn⟩) (bufsAt ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 25 = 0 then
      if h1 : (n + 1) % 25 = 24 then
        False.elim (by omega)
      else
        outs0_A c (grid0.coords ⟨n + 1, hn⟩) (bufsAt ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      if h1 : (n + 1) % 25 = 24 then
        outs0_C c (grid0.coords ⟨n + 1, hn⟩) (bufsAt ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2
      else
        outs0_B c (grid0.coords ⟨n + 1, hn⟩) (bufsAt ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2

theorem outsAt0_A (c : Dev nD) (t : Fin cfg0.N) (h0 : t.val % 25 = 0) (h1 : ¬t.val % 25 = 24) :
    outsAt0 m c t.val t.isLt = outs0_A c (grid0.coords t) (bufsAt t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 m c t.val t.isLt = outs0_B c (grid0.coords t) (bufsAt t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 m c t.val t.isLt = outs0_C c (grid0.coords t) (bufsAt t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_pos h1).trans rfl)

/-- Between steps the accumulators hold what the last step left (anything before the very first). -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2)) ∗ (∃ r, prngReg c r)) := by
  cases n with
  | zero => exact absurd rfl hz
  | succ n => rfl

/-- Whatever the accumulators hold between steps, they hold something. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-- The launch's proof data: every input at its block, every output at the recursion's component. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]

/-- An input's or a force output's buffer is handed back whole at every step, holding what the proof data says. -/
theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0_2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0_3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0_4 t]
theorem leaves0_5 (c : Dev nD) (t : Fin cfg0.N) :
    (dats m 0 c).leavesExact 5 t = owns (c : Thread nD τ) (ms0_5 t) fullShare ((dats m 0 c).after 5 t) := by
  unfold Dat.leavesExact; rw [liveAt0_5 t]
theorem leaves0_6 (c : Dev nD) (t : Fin cfg0.N) :
    (dats m 0 c).leavesExact 6 t = owns (c : Thread nD τ) (ms0_6 t) fullShare ((dats m 0 c).after 6 t) := by
  unfold Dat.leavesExact; rw [liveAt0_6 t]
theorem leaves0_7 (c : Dev nD) (t : Fin cfg0.N) :
    (dats m 0 c).leavesExact 7 t = owns (c : Thread nD τ) (ms0_7 t) fullShare ((dats m 0 c).after 7 t) := by
  unfold Dat.leavesExact; rw [liveAt0_7 t]
theorem leaves0_8 (c : Dev nD) (t : Fin cfg0.N) :
    (dats m 0 c).leavesExact 8 t = owns (c : Thread nD τ) (ms0_8 t) fullShare ((dats m 0 c).after 8 t) := by
  unfold Dat.leavesExact; rw [liveAt0_8 t]
theorem leaves0_9 (c : Dev nD) (t : Fin cfg0.N) :
    (dats m 0 c).leavesExact 9 t = owns (c : Thread nD τ) (ms0_9 t) fullShare ((dats m 0 c).after 9 t) := by
  unfold Dat.leavesExact; rw [liveAt0_9 t]
theorem leaves0_10 (c : Dev nD) (t : Fin cfg0.N) :
    (dats m 0 c).leavesExact 10 t = owns (c : Thread nD τ) (ms0_10 t) fullShare ((dats m 0 c).after 10 t) := by
  unfold Dat.leavesExact; rw [liveAt0_10 t]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

end Cert.Kernel.Frame

end
-- ==== Proof.K.BodyA.lean ====
import proofs.«420260_j7687991460463_2_alg».proof.Proof.K.FrameDefs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- A core's first step: the accumulators are zeroed before anything reads them, so it is enough that they hold something. -/
theorem sound_A (c : Dev nD) (t : Fin cfg0.N) (h0 : t.val % 25 = 0) (h1 : ¬t.val % 25 = 24) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [leaves0_0 m c t, after0_0, leaves0_1 m c t, after0_1, leaves0_2 m c t, after0_2, leaves0_3 m c t, after0_3, leaves0_4 m c t, after0_4, leaves0_5 m c t, after0_5, leaves0_6 m c t, after0_6, leaves0_7 m c t, after0_7, leaves0_8 m c t, after0_8, leaves0_9 m c t, after0_9, leaves0_10 m c t, after0_10]
  rw [Dat.leavesExact_idle (dats m 0 c) 11 t (idleAt0_11 t (fun h => h1 ((hcond0_1 t).mp h))) (noFlush0_11 t (fun h => h1 ((hcond0_1 t).mp h)))]
  rw [Dat.leavesExact_idle (dats m 0 c) 12 t (idleAt0_12 t (fun h => h1 ((hcond0_1 t).mp h))) (noFlush0_12 t (fun h => h1 ((hcond0_1 t).mp h)))]
  rw [Dat.leavesExact_idle (dats m 0 c) 13 t (idleAt0_13 t (fun h => h1 ((hcond0_1 t).mp h))) (noFlush0_13 t (fun h => h1 ((hcond0_1 t).mp h)))]
  rw [outsAt0_A m c t h0 h1, outs0_A]
  dsimp only
  rw [PhiS_castSucc m c t]
  refine (sep_mono_left (PhiS_any m c _ _)).trans ?_
  rw [PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) (bufsAt t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, H11, H12, H13, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (View.cover_of_tiledL _ S1x1.size (by sl_kernel_rfl))
      isplitl [HS1]
      · unfold owns; iexists _; isplitr
        swap; · iexact HS1
        ipureintro; exact View.read_writes_of_cover _ _ _ _ _ (View.cover_of_tiledL _ S1x1.size (by sl_kernel_rfl))
      unfold owns; iexists _; isplitr
      swap; · iexact HS2
      ipureintro; exact View.read_writes_of_cover _ _ _ _ _ (View.cover_of_tiledL _ S1x1.size (by sl_kernel_rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (View.cover_of_tiledL _ S128000.size (by sl_kernel_rfl))
  isplitl [H9]
  · unfold owns; iexists _; isplitr
    swap; · iexact H9
    ipureintro; exact View.read_writes_of_cover _ _ _ _ _ (View.cover_of_tiledL _ S128000.size (by sl_kernel_rfl))
  isplitl [H10]
  · unfold owns; iexists _; isplitr
    swap; · iexact H10
    ipureintro; exact View.read_writes_of_cover _ _ _ _ _ (View.cover_of_tiledL _ S128000.size (by sl_kernel_rfl))
  isplitl [H11]; · iexists _; iexact H11
  isplitl [H12]; · iexists _; iexact H12
  iexists _; iexact H13

end Cert.Kernel.Frame

end
-- ==== Proof.K.BodyB.lean ====
import proofs.«420260_j7687991460463_2_alg».proof.Proof.K.FrameDefs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_B (c : Dev nD) (t : Fin cfg0.N) (h0 : ¬t.val % 25 = 0) (h1 : ¬t.val % 25 = 24) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [leaves0_0 m c t, after0_0, leaves0_1 m c t, after0_1, leaves0_2 m c t, after0_2, leaves0_3 m c t, after0_3, leaves0_4 m c t, after0_4, leaves0_5 m c t, after0_5, leaves0_6 m c t, after0_6, leaves0_7 m c t, after0_7, leaves0_8 m c t, after0_8, leaves0_9 m c t, after0_9, leaves0_10 m c t, after0_10]
  rw [Dat.leavesExact_idle (dats m 0 c) 11 t (idleAt0_11 t (fun h => h1 ((hcond0_1 t).mp h))) (noFlush0_11 t (fun h => h1 ((hcond0_1 t).mp h)))]
  rw [Dat.leavesExact_idle (dats m 0 c) 12 t (idleAt0_12 t (fun h => h1 ((hcond0_1 t).mp h))) (noFlush0_12 t (fun h => h1 ((hcond0_1 t).mp h)))]
  rw [Dat.leavesExact_idle (dats m 0 c) 13 t (idleAt0_13 t (fun h => h1 ((hcond0_1 t).mp h))) (noFlush0_13 t (fun h => h1 ((hcond0_1 t).mp h)))]
  rw [outsAt0_B m c t h0 h1, outs0_B]
  dsimp only
  have hz : ¬t.val = 0 := by omega
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_B c (grid0.coords t) (bufsAt t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, H11, H12, H13, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (View.cover_of_tiledL _ S1x1.size (by sl_kernel_rfl))
      isplitl [HS1]
      · unfold owns; iexists _; isplitr
        swap; · iexact HS1
        ipureintro; exact View.read_writes_of_cover _ _ _ _ _ (View.cover_of_tiledL _ S1x1.size (by sl_kernel_rfl))
      unfold owns; iexists _; isplitr
      swap; · iexact HS2
      ipureintro; exact View.read_writes_of_cover _ _ _ _ _ (View.cover_of_tiledL _ S1x1.size (by sl_kernel_rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (View.cover_of_tiledL _ S128000.size (by sl_kernel_rfl))
  isplitl [H9]
  · unfold owns; iexists _; isplitr
    swap; · iexact H9
    ipureintro; exact View.read_writes_of_cover _ _ _ _ _ (View.cover_of_tiledL _ S128000.size (by sl_kernel_rfl))
  isplitl [H10]
  · unfold owns; iexists _; isplitr
    swap; · iexact H10
    ipureintro; exact View.read_writes_of_cover _ _ _ _ _ (View.cover_of_tiledL _ S128000.size (by sl_kernel_rfl))
  isplitl [H11]; · iexists _; iexact H11
  isplitl [H12]; · iexists _; iexact H12
  iexists _; iexact H13

end Cert.Kernel.Frame

end
-- ==== Proof.K.BodyC.lean ====
import proofs.«420260_j7687991460463_2_alg».proof.Proof.K.FrameDefs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem runC_owns (c : Dev nD) (i : grid0.Coords) (bs : Bufs) (hc0 : ¬cond0_0 i) (hc1 : cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32)
    (E : Set ℕ) (K : PUnit → sProp 𝕄) :
    iprop(owns (c : Thread nD τ) bs.arg2 fullShare x0
        ∗ owns (c : Thread nD τ) bs.arg3 fullShare x1
        ∗ owns (c : Thread nD τ) bs.arg4 fullShare x2
        ∗ owns (c : Thread nD τ) bs.arg5 fullShare x3
        ∗ owns (c : Thread nD τ) bs.arg6 fullShare x4
        ∗ owns (c : Thread nD τ) bs.arg7 fullShare x5
        ∗ owns (c : Thread nD τ) bs.arg8 fullShare x6
        ∗ owns (c : Thread nD τ) bs.arg9 fullShare x7
        ∗ (∃ d, owns (c : Thread nD τ) bs.arg10 fullShare d)
        ∗ (∃ d, owns (c : Thread nD τ) bs.arg11 fullShare d)
        ∗ (∃ d, owns (c : Thread nD τ) bs.arg12 fullShare d)
        ∗ (∃ d, owns (c : Thread nD τ) bs.arg13 fullShare d)
        ∗ (∃ d, owns (c : Thread nD τ) bs.arg14 fullShare d)
        ∗ (∃ d, owns (c : Thread nD τ) bs.arg15 fullShare d)
        ∗ owns (c : Thread nD τ) bs.arg16 fullShare xs0
        ∗ owns (c : Thread nD τ) bs.arg17 fullShare xs1
        ∗ owns (c : Thread nD τ) bs.arg18 fullShare xs2
        ∗ (iprop(owns (c : Thread nD τ) bs.arg2 fullShare x0
            ∗ owns (c : Thread nD τ) bs.arg3 fullShare x1
            ∗ owns (c : Thread nD τ) bs.arg4 fullShare x2
            ∗ owns (c : Thread nD τ) bs.arg5 fullShare x3
            ∗ owns (c : Thread nD τ) bs.arg6 fullShare x4
            ∗ owns (c : Thread nD τ) bs.arg7 fullShare x5
            ∗ owns (c : Thread nD τ) bs.arg8 fullShare x6
            ∗ owns (c : Thread nD τ) bs.arg9 fullShare x7
            ∗ owns (c : Thread nD τ) bs.arg10 fullShare ((outs0_C c i bs hc0 hc1 x0 x1 x2 x3 x4 x5 x6 x7 xs0 xs1 xs2).1)
            ∗ owns (c : Thread nD τ) bs.arg11 fullShare ((outs0_C c i bs hc0 hc1 x0 x1 x2 x3 x4 x5 x6 x7 xs0 xs1 xs2).2.1)
            ∗ owns (c : Thread nD τ) bs.arg12 fullShare ((outs0_C c i bs hc0 hc1 x0 x1 x2 x3 x4 x5 x6 x7 xs0 xs1 xs2).2.2.1)
            ∗ owns (c : Thread nD τ) bs.arg13 fullShare ((outs0_C c i bs hc0 hc1 x0 x1 x2 x3 x4 x5 x6 x7 xs0 xs1 xs2).2.2.2.1)
            ∗ owns (c : Thread nD τ) bs.arg14 fullShare ((outs0_C c i bs hc0 hc1 x0 x1 x2 x3 x4 x5 x6 x7 xs0 xs1 xs2).2.2.2.2.1)
            ∗ owns (c : Thread nD τ) bs.arg15 fullShare ((outs0_C c i bs hc0 hc1 x0 x1 x2 x3 x4 x5 x6 x7 xs0 xs1 xs2).2.2.2.2.2.1)
            ∗ owns (c : Thread nD τ) bs.arg16 fullShare ((outs0_C c i bs hc0 hc1 x0 x1 x2 x3 x4 x5 x6 x7 xs0 xs1 xs2).2.2.2.2.2.2.1)
            ∗ owns (c : Thread nD τ) bs.arg17 fullShare ((outs0_C c i bs hc0 hc1 x0 x1 x2 x3 x4 x5 x6 x7 xs0 xs1 xs2).2.2.2.2.2.2.2.1)
            ∗ owns (c : Thread nD τ) bs.arg18 fullShare ((outs0_C c i bs hc0 hc1 x0 x1 x2 x3 x4 x5 x6 x7 xs0 xs1 xs2).2.2.2.2.2.2.2.2)) -∗ K ⟨⟩))
      ⊢ wp frame (wpE (defs₀ (F := F)) Variants.none c none) E (cc0__lj_kernel i bs.arg2 bs.harg2 bs.arg3 bs.harg3 bs.arg4 bs.harg4 bs.arg5 bs.harg5 bs.arg6 bs.harg6 bs.arg7 bs.harg7 bs.arg8 bs.harg8 bs.arg9 bs.harg9 bs.arg10 bs.harg10 bs.arg11 bs.harg11 bs.arg12 bs.harg12 bs.arg13 bs.harg13 bs.arg14 bs.harg14 bs.arg15 bs.harg15 bs.arg16 bs.harg16 bs.arg17 bs.harg17 bs.arg18 bs.harg18) K := by
  iintro ⟨H0, H1, H2, H3, H4, H5, H6, H7, H8, H9, H10, H11, H12, H13, HS0, HS1, HS2, Hk⟩
  iapply ((kernelRun0_C c i bs hc0 hc1 x0 x1 x2 x3 x4 x5 x6 x7 xs0 xs1 xs2).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold outs0_C owns; dsimp only; iexists _; isplitr
    swap; · iexact H8
    ipureintro; exact View.read_writes_of_cover _ _ _ _ _ (View.cover_of_tiledL _ S128000.size (by sl_kernel_rfl))
  isplitl [H9]
  · unfold outs0_C owns; dsimp only; iexists _; isplitr
    swap; · iexact H9
    ipureintro; exact View.read_writes_of_cover _ _ _ _ _ (View.cover_of_tiledL _ S128000.size (by sl_kernel_rfl))
  isplitl [H10]
  · unfold outs0_C owns; dsimp only; iexists _; isplitr
    swap; · iexact H10
    ipureintro; exact View.read_writes_of_cover _ _ _ _ _ (View.cover_of_tiledL _ S128000.size (by sl_kernel_rfl))
  isplitl [H11]
  · unfold outs0_C owns; dsimp only; iexists _; isplitr
    swap; · iexact H11
    ipureintro; exact View.read_writes_of_cover _ _ _ _ _ (View.cover_of_tiledL _ S1x1x1.size (by sl_kernel_rfl))
  isplitl [H12]
  · unfold outs0_C owns; dsimp only; iexists _; isplitr
    swap; · iexact H12
    ipureintro; exact View.read_writes_of_cover _ _ _ _ _ (View.cover_of_tiledL _ S1x1x1.size (by sl_kernel_rfl))
  isplitl [H13]
  · unfold outs0_C owns; dsimp only; iexists _; isplitr
    swap; · iexact H13
    ipureintro; exact View.read_writes_of_cover _ _ _ _ _ (View.cover_of_tiledL _ S1x3x3.size (by sl_kernel_rfl))
  isplitl [HS0]
  · unfold outs0_C owns; dsimp only; iexists _; isplitr
    swap; · iexact HS0
    ipureintro; exact View.read_writes_of_cover _ _ _ _ _ (View.cover_of_tiledL _ S1x1.size (by sl_kernel_rfl))
  isplitl [HS1]
  · unfold outs0_C owns; dsimp only; iexists _; isplitr
    swap; · iexact HS1
    ipureintro; exact View.read_writes_of_cover _ _ _ _ _ (View.cover_of_tiledL _ S1x1.size (by sl_kernel_rfl))
  unfold outs0_C owns; dsimp only; iexists _; isplitr
  swap; · iexact HS2
  ipureintro; exact View.read_writes_of_cover _ _ _ _ _ (View.cover_of_tiledL _ S1x1.size (by sl_kernel_rfl))

set_option maxHeartbeats 16000000 in
theorem sound_C (c : Dev nD) (t : Fin cfg0.N) (h0 : ¬t.val % 25 = 0) (h1 : t.val % 25 = 24) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [leaves0_0 m c t, after0_0, leaves0_1 m c t, after0_1, leaves0_2 m c t, after0_2, leaves0_3 m c t, after0_3, leaves0_4 m c t, after0_4, leaves0_5 m c t, after0_5, leaves0_6 m c t, after0_6, leaves0_7 m c t, after0_7, leaves0_8 m c t, after0_8, leaves0_9 m c t, after0_9, leaves0_10 m c t, after0_10]
  rw [show (dats m 0 c).leavesExact 11 t = owns (c : Thread nD τ) (ms0_11 t) fullShare ((dats m 0 c).after 11 t) from by
    unfold Dat.leavesExact; rw [liveAt0_11_C t ((hcond0_1 t).mpr h1)], after0_11]
  rw [show (dats m 0 c).leavesExact 12 t = owns (c : Thread nD τ) (ms0_12 t) fullShare ((dats m 0 c).after 12 t) from by
    unfold Dat.leavesExact; rw [liveAt0_12_C t ((hcond0_1 t).mpr h1)], after0_12]
  rw [show (dats m 0 c).leavesExact 13 t = owns (c : Thread nD τ) (ms0_13 t) fullShare ((dats m 0 c).after 13 t) from by
    unfold Dat.leavesExact; rw [liveAt0_13_C t ((hcond0_1 t).mpr h1)], after0_13]
  rw [outsAt0_C m c t h0 h1]
  have hz : ¬t.val = 0 := by omega
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runC_owns c (grid0.coords t) (bufsAt t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  iintro ⟨H0, H1, H2, H3, H4, H5, H6, H7, H8, H9, H10, H11, H12, H13, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.Kernel.Frame

end
-- ==== Proof.K.Frame.lean ====
import proofs.«420260_j7687991460463_2_alg».proof.Proof.K.BodyA
import proofs.«420260_j7687991460463_2_alg».proof.Proof.K.BodyB
import proofs.«420260_j7687991460463_2_alg».proof.Proof.K.BodyC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 25 = 0
  · by_cases h1 : t.val % 25 = 24
    · exfalso; omega
    · exact sound_A m c t h0 h1
  · by_cases h1 : t.val % 25 = 24
    · exact sound_C m c t h0 h1
    · exact sound_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_any m c _ _

theorem hout (c : Dev nD) : (dats m 0 c).Φ (Fin.last cfg0.N) ⊢ Pipeline.ΦA spec0 c :=
  Phi_out m c _

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.KI.Setup.lean ====
import proofs.«420260_j7687991460463_2_alg».proof.Proof.Gen.KernelIdeal.Launch
import proofs.«420260_j7687991460463_2_alg».proof.Proof.Gen.KernelIdeal.Skeleton
import proofs.«420260_j7687991460463_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 8000000 in

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 8000000 in

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 8000000 in

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 8000000 in

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 8000000 in

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 8000000 in

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    ((h c).1 6).trans (((dats 0 c).arrAt_in 6 rfl _).trans ((hA c 6).trans (V_main_arg2 m c))),
    ((h c).1 7).trans (((dats 0 c).arrAt_in 7 rfl _).trans ((hA c 7).trans (V_main_arg3 m c)))⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1

theorem hcond0_1 : ∀ t : Fin cfg0.N, cond0_1 (grid0.coords t) ↔ t.val % 25 = 24 :=
  (by decide +kernel : ∀ t : Fin grid0.N, cond0_1 (grid0.coords t) ↔ t.val % 25 = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel

theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel

theorem liveAt0_11_C : ∀ t : Fin cfg0.N, cond0_1 (grid0.coords t) → cfg0.idle 11 (grid0.coords t) = false := by decide +kernel

theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel

theorem liveAt0_12_C : ∀ t : Fin cfg0.N, cond0_1 (grid0.coords t) → cfg0.idle 12 (grid0.coords t) = false := by decide +kernel

theorem idleAt0_13 : ∀ t : Fin cfg0.N, ¬cond0_1 (grid0.coords t) → cfg0.idle 13 (grid0.coords t) = true := by decide +kernel
theorem noFlush0_13 : ∀ t : Fin cfg0.N, ¬cond0_1 (grid0.coords t) → (cfg0.win 13).flush t = false := by decide +kernel

theorem liveAt0_13_C : ∀ t : Fin cfg0.N, cond0_1 (grid0.coords t) → cfg0.idle 13 (grid0.coords t) = false := by decide +kernel

abbrev VO0_8 : View sig .tc .vmem S128000 .f32 := (Memref.whole cc0_stg8_0 : Memref sig .tc .vmem S128000 .f32).view

abbrev VO0_9 : View sig .tc .vmem S128000 .f32 := (Memref.whole cc0_stg9_0 : Memref sig .tc .vmem S128000 .f32).view

abbrev VO0_10 : View sig .tc .vmem S128000 .f32 := (Memref.whole cc0_stg10_0 : Memref sig .tc .vmem S128000 .f32).view

abbrev VO0_11 : View sig .tc .vmem S1x1x1 .f32 := (Memref.whole cc0_stg11_0 : Memref sig .tc .vmem S1x1x1 .f32).view

abbrev VO0_12 : View sig .tc .vmem S1x1x1 .f32 := (Memref.whole cc0_stg12_0 : Memref sig .tc .vmem S1x1x1 .f32).view

abbrev VO0_13 : View sig .tc .vmem S1x3x3 .f32 := (Memref.whole cc0_stg13_0 : Memref sig .tc .vmem S1x3x3 .f32).view
abbrev ms0_0 (t : Fin cfg0.N) : Memref sig .tc .vmem S128000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128000 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128000 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128000 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128000 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x3x3 .f32 := win0_13.stage (cfg0.slots t 13)
abbrev hs0_13 (t : Fin cfg0.N) : (ms0_13 t).IsWhole := hstage0_13 ((cfg0.slots t 13).cast nbuf0_13)

abbrev scM0_0 : Memref sig .tc .vmem S1x1 .f32 := Memref.whole cc0_scratch0
abbrev scM0_1 : Memref sig .tc .vmem S1x1 .f32 := Memref.whole cc0_scratch1
abbrev scM0_2 : Memref sig .tc .vmem S3x3 .f32 := Memref.whole cc0_scratch2
abbrev VS0_0 : View sig .tc .vmem S1x1 .f32 := scM0_0.view
abbrev VS0_1 : View sig .tc .vmem S1x1 .f32 := scM0_1.view
abbrev VS0_2 : View sig .tc .vmem S3x3 .f32 := scM0_2.view

/-- The seventeen whole buffers one step of the body works on: eight inputs, six outputs, three accumulators. -/
structure Bufs where
  arg2 : Memref sig .tc .vmem S128000 .f32
  harg2 : arg2.IsWhole
  arg3 : Memref sig .tc .vmem S128000 .f32
  harg3 : arg3.IsWhole
  arg4 : Memref sig .tc .vmem S128000 .f32
  harg4 : arg4.IsWhole
  arg5 : Memref sig .tc .vmem S128000 .f32
  harg5 : arg5.IsWhole
  arg6 : Memref sig .tc .vmem S128000 .f32
  harg6 : arg6.IsWhole
  arg7 : Memref sig .tc .vmem S128000 .f32
  harg7 : arg7.IsWhole
  arg8 : Memref sig .tc .vmem S128000 .f32
  harg8 : arg8.IsWhole
  arg9 : Memref sig .tc .vmem S128000 .f32
  harg9 : arg9.IsWhole
  arg10 : Memref sig .tc .vmem S128000 .f32
  harg10 : arg10.IsWhole
  arg11 : Memref sig .tc .vmem S128000 .f32
  harg11 : arg11.IsWhole
  arg12 : Memref sig .tc .vmem S128000 .f32
  harg12 : arg12.IsWhole
  arg13 : Memref sig .tc .vmem S1x1x1 .f32
  harg13 : arg13.IsWhole
  arg14 : Memref sig .tc .vmem S1x1x1 .f32
  harg14 : arg14.IsWhole
  arg15 : Memref sig .tc .vmem S1x3x3 .f32
  harg15 : arg15.IsWhole
  arg16 : Memref sig .tc .vmem S1x1 .f32
  harg16 : arg16.IsWhole
  arg17 : Memref sig .tc .vmem S1x1 .f32
  harg17 : arg17.IsWhole
  arg18 : Memref sig .tc .vmem S3x3 .f32
  harg18 : arg18.IsWhole

/-- The launch's own buffers at grid step `t`. -/
abbrev bufsAt (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t,
    scM0_0, Memref.isWhole_whole _, scM0_1, Memref.isWhole_whole _, scM0_2, Memref.isWhole_whole _⟩

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Frame

end
-- ==== Proof.KI.RunA.lean ====
import proofs.«420260_j7687991460463_2_alg».proof.Proof.KI.Setup

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (bs : Bufs) (hc0 : cond0_0 i) (hc1 : ¬cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) :
    Σ' (L8 : List (View.Piece (Elt F) S128000 .f32)) (L9 : List (View.Piece (Elt F) S128000 .f32)) (L10 : List (View.Piece (Elt F) S128000 .f32)) (L11 : List (View.Piece (Elt F) S1x1x1 .f32)) (L12 : List (View.Piece (Elt F) S1x1x1 .f32)) (L13 : List (View.Piece (Elt F) S1x3x3 .f32)) (LS0 : List (View.Piece (Elt F) S1x1 .f32)) (LS1 : List (View.Piece (Elt F) S1x1 .f32)), { LS2 : List (View.Piece (Elt F) S3x3 .f32) //
      ∀ (xi11 : Vec F S1x1x1 .f32) (xi12 : Vec F S1x1x1 .f32) (xi13 : Vec F S1x3x3 .f32) (E : Set ℕ) (K : PUnit → sProp 𝕄),
        iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ d, owns (c : Thread nD τ) bs.arg10 fullShare d) ∗ (∃ d, owns (c : Thread nD τ) bs.arg11 fullShare d) ∗ (∃ d, owns (c : Thread nD τ) bs.arg12 fullShare d) ∗ owns (c : Thread nD τ) bs.arg13 fullShare xi11 ∗ owns (c : Thread nD τ) bs.arg14 fullShare xi12 ∗ owns (c : Thread nD τ) bs.arg15 fullShare xi13 ∗ (∃ d, owns (c : Thread nD τ) bs.arg16 fullShare d) ∗ (∃ d, owns (c : Thread nD τ) bs.arg17 fullShare d) ∗ (∃ d, owns (c : Thread nD τ) bs.arg18 fullShare d)
            ∗ (iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ f, bs.arg10.view.loc (c : Thread nD τ) ↦[bs.arg10.view.set]{fullShare} bs.arg10.view.writes (Elt F) f L8) ∗ (∃ f, bs.arg11.view.loc (c : Thread nD τ) ↦[bs.arg11.view.set]{fullShare} bs.arg11.view.writes (Elt F) f L9) ∗ (∃ f, bs.arg12.view.loc (c : Thread nD τ) ↦[bs.arg12.view.set]{fullShare} bs.arg12.view.writes (Elt F) f L10) ∗ owns (c : Thread nD τ) bs.arg13 fullShare xi11 ∗ owns (c : Thread nD τ) bs.arg14 fullShare xi12 ∗ owns (c : Thread nD τ) bs.arg15 fullShare xi13 ∗ (∃ f, bs.arg16.view.loc (c : Thread nD τ) ↦[bs.arg16.view.set]{fullShare} bs.arg16.view.writes (Elt F) f LS0) ∗ (∃ f, bs.arg17.view.loc (c : Thread nD τ) ↦[bs.arg17.view.set]{fullShare} bs.arg17.view.writes (Elt F) f LS1) ∗ (∃ f, bs.arg18.view.loc (c : Thread nD τ) ↦[bs.arg18.view.set]{fullShare} bs.arg18.view.writes (Elt F) f LS2)) -∗ K ⟨⟩))
          ⊢ wp frame (wpE (defs₀ (F := F)) Variants.none c none) E (cc0__lj_kernel i bs.arg2 bs.harg2 bs.arg3 bs.harg3 bs.arg4 bs.harg4 bs.arg5 bs.harg5 bs.arg6 bs.harg6 bs.arg7 bs.harg7 bs.arg8 bs.harg8 bs.arg9 bs.harg9 bs.arg10 bs.harg10 bs.arg11 bs.harg11 bs.arg12 bs.harg12 bs.arg13 bs.harg13 bs.arg14 bs.harg14 bs.arg15 bs.harg15 bs.arg16 bs.harg16 bs.arg17 bs.harg17 bs.arg18 bs.harg18) K } := by
  refine ⟨?_, ?_, ?_, [], [], [], ?_, ?_, ?_, fun xi11 xi12 xi13 E K => ?run⟩
  case run =>
    simp only [cc0__lj_kernel_eq_skeleton]; unfold cc0__lj_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, Hk⟩
    obtain rfl := bs.harg2.eq_unread hf0; obtain rfl := bs.harg3.eq_unread hf1; obtain rfl := bs.harg4.eq_unread hf2; obtain rfl := bs.harg5.eq_unread hf3; obtain rfl := bs.harg6.eq_unread hf4; obtain rfl := bs.harg7.eq_unread hf5; obtain rfl := bs.harg8.eq_unread hf6; obtain rfl := bs.harg9.eq_unread hf7; obtain rfl := bs.harg13.eq_unread hf11; obtain rfl := bs.harg14.eq_unread hf12; obtain rfl := bs.harg15.eq_unread hf13
    sl_exec (disch := first | exact hc0 | exact hc1)
    sl_step
    iapply Hk
    isplitl [H0]
    · iexists _; isplitr; · ipureintro; exact bs.harg2.read_unread _
      iexact H0
    isplitl [H1]
    · iexists _; isplitr; · ipureintro; exact bs.harg3.read_unread _
      iexact H1
    isplitl [H2]
    · iexists _; isplitr; · ipureintro; exact bs.harg4.read_unread _
      iexact H2
    isplitl [H3]
    · iexists _; isplitr; · ipureintro; exact bs.harg5.read_unread _
      iexact H3
    isplitl [H4]
    · iexists _; isplitr; · ipureintro; exact bs.harg6.read_unread _
      iexact H4
    isplitl [H5]
    · iexists _; isplitr; · ipureintro; exact bs.harg7.read_unread _
      iexact H5
    isplitl [H6]
    · iexists _; isplitr; · ipureintro; exact bs.harg8.read_unread _
      iexact H6
    isplitl [H7]
    · iexists _; isplitr; · ipureintro; exact bs.harg9.read_unread _
      iexact H7
    isplitl [H8]; · iexists _; iexact H8
    isplitl [H9]; · iexists _; iexact H9
    isplitl [H10]; · iexists _; iexact H10
    isplitl [H11]
    · iexists _; isplitr; · ipureintro; exact bs.harg13.read_unread _
      iexact H11
    isplitl [H12]
    · iexists _; isplitr; · ipureintro; exact bs.harg14.read_unread _
      iexact H12
    isplitl [H13]
    · iexists _; isplitr; · ipureintro; exact bs.harg15.read_unread _
      iexact H13
    isplitl [HS0]; · iexists _; iexact HS0
    isplitl [HS1]; · iexists _; iexact HS1
    iexists _; iexact HS2

end Cert.KernelIdeal.Frame

end
-- ==== Proof.KI.RunB.lean ====
import proofs.«420260_j7687991460463_2_alg».proof.Proof.KI.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (bs : Bufs) (hc0 : ¬cond0_0 i) (hc1 : ¬cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32) :
    Σ' (L8 : List (View.Piece (Elt F) S128000 .f32)) (L9 : List (View.Piece (Elt F) S128000 .f32)) (L10 : List (View.Piece (Elt F) S128000 .f32)) (L11 : List (View.Piece (Elt F) S1x1x1 .f32)) (L12 : List (View.Piece (Elt F) S1x1x1 .f32)) (L13 : List (View.Piece (Elt F) S1x3x3 .f32)) (LS0 : List (View.Piece (Elt F) S1x1 .f32)) (LS1 : List (View.Piece (Elt F) S1x1 .f32)), { LS2 : List (View.Piece (Elt F) S3x3 .f32) //
      ∀ (xi11 : Vec F S1x1x1 .f32) (xi12 : Vec F S1x1x1 .f32) (xi13 : Vec F S1x3x3 .f32) (E : Set ℕ) (K : PUnit → sProp 𝕄),
        iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ d, owns (c : Thread nD τ) bs.arg10 fullShare d) ∗ (∃ d, owns (c : Thread nD τ) bs.arg11 fullShare d) ∗ (∃ d, owns (c : Thread nD τ) bs.arg12 fullShare d) ∗ owns (c : Thread nD τ) bs.arg13 fullShare xi11 ∗ owns (c : Thread nD τ) bs.arg14 fullShare xi12 ∗ owns (c : Thread nD τ) bs.arg15 fullShare xi13 ∗ owns (c : Thread nD τ) bs.arg16 fullShare xs0 ∗ owns (c : Thread nD τ) bs.arg17 fullShare xs1 ∗ owns (c : Thread nD τ) bs.arg18 fullShare xs2
            ∗ (iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ f, bs.arg10.view.loc (c : Thread nD τ) ↦[bs.arg10.view.set]{fullShare} bs.arg10.view.writes (Elt F) f L8) ∗ (∃ f, bs.arg11.view.loc (c : Thread nD τ) ↦[bs.arg11.view.set]{fullShare} bs.arg11.view.writes (Elt F) f L9) ∗ (∃ f, bs.arg12.view.loc (c : Thread nD τ) ↦[bs.arg12.view.set]{fullShare} bs.arg12.view.writes (Elt F) f L10) ∗ owns (c : Thread nD τ) bs.arg13 fullShare xi11 ∗ owns (c : Thread nD τ) bs.arg14 fullShare xi12 ∗ owns (c : Thread nD τ) bs.arg15 fullShare xi13 ∗ (∃ f, bs.arg16.view.loc (c : Thread nD τ) ↦[bs.arg16.view.set]{fullShare} bs.arg16.view.writes (Elt F) f LS0) ∗ (∃ f, bs.arg17.view.loc (c : Thread nD τ) ↦[bs.arg17.view.set]{fullShare} bs.arg17.view.writes (Elt F) f LS1) ∗ (∃ f, bs.arg18.view.loc (c : Thread nD τ) ↦[bs.arg18.view.set]{fullShare} bs.arg18.view.writes (Elt F) f LS2)) -∗ K ⟨⟩))
          ⊢ wp frame (wpE (defs₀ (F := F)) Variants.none c none) E (cc0__lj_kernel i bs.arg2 bs.harg2 bs.arg3 bs.harg3 bs.arg4 bs.harg4 bs.arg5 bs.harg5 bs.arg6 bs.harg6 bs.arg7 bs.harg7 bs.arg8 bs.harg8 bs.arg9 bs.harg9 bs.arg10 bs.harg10 bs.arg11 bs.harg11 bs.arg12 bs.harg12 bs.arg13 bs.harg13 bs.arg14 bs.harg14 bs.arg15 bs.harg15 bs.arg16 bs.harg16 bs.arg17 bs.harg17 bs.arg18 bs.harg18) K } := by
  refine ⟨?_, ?_, ?_, [], [], [], ?_, ?_, ?_, fun xi11 xi12 xi13 E K => ?run⟩
  case run =>
    simp only [cc0__lj_kernel_eq_skeleton]; unfold cc0__lj_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%fs0, %hfs0, HS0⟩, ⟨%fs1, %hfs1, HS1⟩, ⟨%fs2, %hfs2, HS2⟩, Hk⟩
    obtain rfl := bs.harg2.eq_unread hf0; obtain rfl := bs.harg3.eq_unread hf1; obtain rfl := bs.harg4.eq_unread hf2; obtain rfl := bs.harg5.eq_unread hf3; obtain rfl := bs.harg6.eq_unread hf4; obtain rfl := bs.harg7.eq_unread hf5; obtain rfl := bs.harg8.eq_unread hf6; obtain rfl := bs.harg9.eq_unread hf7; obtain rfl := bs.harg13.eq_unread hf11; obtain rfl := bs.harg14.eq_unread hf12; obtain rfl := bs.harg15.eq_unread hf13; obtain rfl := bs.harg16.eq_unread hfs0; obtain rfl := bs.harg17.eq_unread hfs1; obtain rfl := bs.harg18.eq_unread hfs2
    sl_exec (disch := first | exact hc0 | exact hc1)
    sl_step
    iapply Hk
    isplitl [H0]
    · iexists _; isplitr; · ipureintro; exact bs.harg2.read_unread _
      iexact H0
    isplitl [H1]
    · iexists _; isplitr; · ipureintro; exact bs.harg3.read_unread _
      iexact H1
    isplitl [H2]
    · iexists _; isplitr; · ipureintro; exact bs.harg4.read_unread _
      iexact H2
    isplitl [H3]
    · iexists _; isplitr; · ipureintro; exact bs.harg5.read_unread _
      iexact H3
    isplitl [H4]
    · iexists _; isplitr; · ipureintro; exact bs.harg6.read_unread _
      iexact H4
    isplitl [H5]
    · iexists _; isplitr; · ipureintro; exact bs.harg7.read_unread _
      iexact H5
    isplitl [H6]
    · iexists _; isplitr; · ipureintro; exact bs.harg8.read_unread _
      iexact H6
    isplitl [H7]
    · iexists _; isplitr; · ipureintro; exact bs.harg9.read_unread _
      iexact H7
    isplitl [H8]; · iexists _; iexact H8
    isplitl [H9]; · iexists _; iexact H9
    isplitl [H10]; · iexists _; iexact H10
    isplitl [H11]
    · iexists _; isplitr; · ipureintro; exact bs.harg13.read_unread _
      iexact H11
    isplitl [H12]
    · iexists _; isplitr; · ipureintro; exact bs.harg14.read_unread _
      iexact H12
    isplitl [H13]
    · iexists _; isplitr; · ipureintro; exact bs.harg15.read_unread _
      iexact H13
    isplitl [HS0]; · iexists _; iexact HS0
    isplitl [HS1]; · iexists _; iexact HS1
    iexists _; iexact HS2

end Cert.KernelIdeal.Frame

end
-- ==== Proof.KI.RunC.lean ====
import proofs.«420260_j7687991460463_2_alg».proof.Proof.KI.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_C (c : Dev nD) (i : grid0.Coords) (bs : Bufs) (hc0 : ¬cond0_0 i) (hc1 : cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32) :
    Σ' (L8 : List (View.Piece (Elt F) S128000 .f32)) (L9 : List (View.Piece (Elt F) S128000 .f32)) (L10 : List (View.Piece (Elt F) S128000 .f32)) (L11 : List (View.Piece (Elt F) S1x1x1 .f32)) (L12 : List (View.Piece (Elt F) S1x1x1 .f32)) (L13 : List (View.Piece (Elt F) S1x3x3 .f32)) (LS0 : List (View.Piece (Elt F) S1x1 .f32)) (LS1 : List (View.Piece (Elt F) S1x1 .f32)), { LS2 : List (View.Piece (Elt F) S3x3 .f32) //
      ∀ (E : Set ℕ) (K : PUnit → sProp 𝕄),
        iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ d, owns (c : Thread nD τ) bs.arg10 fullShare d) ∗ (∃ d, owns (c : Thread nD τ) bs.arg11 fullShare d) ∗ (∃ d, owns (c : Thread nD τ) bs.arg12 fullShare d) ∗ (∃ d, owns (c : Thread nD τ) bs.arg13 fullShare d) ∗ (∃ d, owns (c : Thread nD τ) bs.arg14 fullShare d) ∗ (∃ d, owns (c : Thread nD τ) bs.arg15 fullShare d) ∗ owns (c : Thread nD τ) bs.arg16 fullShare xs0 ∗ owns (c : Thread nD τ) bs.arg17 fullShare xs1 ∗ owns (c : Thread nD τ) bs.arg18 fullShare xs2
            ∗ (iprop(owns (c : Thread nD τ) bs.arg2 fullShare x0 ∗ owns (c : Thread nD τ) bs.arg3 fullShare x1 ∗ owns (c : Thread nD τ) bs.arg4 fullShare x2 ∗ owns (c : Thread nD τ) bs.arg5 fullShare x3 ∗ owns (c : Thread nD τ) bs.arg6 fullShare x4 ∗ owns (c : Thread nD τ) bs.arg7 fullShare x5 ∗ owns (c : Thread nD τ) bs.arg8 fullShare x6 ∗ owns (c : Thread nD τ) bs.arg9 fullShare x7 ∗ (∃ f, bs.arg10.view.loc (c : Thread nD τ) ↦[bs.arg10.view.set]{fullShare} bs.arg10.view.writes (Elt F) f L8) ∗ (∃ f, bs.arg11.view.loc (c : Thread nD τ) ↦[bs.arg11.view.set]{fullShare} bs.arg11.view.writes (Elt F) f L9) ∗ (∃ f, bs.arg12.view.loc (c : Thread nD τ) ↦[bs.arg12.view.set]{fullShare} bs.arg12.view.writes (Elt F) f L10) ∗ (∃ f, bs.arg13.view.loc (c : Thread nD τ) ↦[bs.arg13.view.set]{fullShare} bs.arg13.view.writes (Elt F) f L11) ∗ (∃ f, bs.arg14.view.loc (c : Thread nD τ) ↦[bs.arg14.view.set]{fullShare} bs.arg14.view.writes (Elt F) f L12) ∗ (∃ f, bs.arg15.view.loc (c : Thread nD τ) ↦[bs.arg15.view.set]{fullShare} bs.arg15.view.writes (Elt F) f L13) ∗ (∃ f, bs.arg16.view.loc (c : Thread nD τ) ↦[bs.arg16.view.set]{fullShare} bs.arg16.view.writes (Elt F) f LS0) ∗ (∃ f, bs.arg17.view.loc (c : Thread nD τ) ↦[bs.arg17.view.set]{fullShare} bs.arg17.view.writes (Elt F) f LS1) ∗ (∃ f, bs.arg18.view.loc (c : Thread nD τ) ↦[bs.arg18.view.set]{fullShare} bs.arg18.view.writes (Elt F) f LS2)) -∗ K ⟨⟩))
          ⊢ wp frame (wpE (defs₀ (F := F)) Variants.none c none) E (cc0__lj_kernel i bs.arg2 bs.harg2 bs.arg3 bs.harg3 bs.arg4 bs.harg4 bs.arg5 bs.harg5 bs.arg6 bs.harg6 bs.arg7 bs.harg7 bs.arg8 bs.harg8 bs.arg9 bs.harg9 bs.arg10 bs.harg10 bs.arg11 bs.harg11 bs.arg12 bs.harg12 bs.arg13 bs.harg13 bs.arg14 bs.harg14 bs.arg15 bs.harg15 bs.arg16 bs.harg16 bs.arg17 bs.harg17 bs.arg18 bs.harg18) K } := by
  refine ⟨?_, ?_, ?_, ?_, ?_, ?_, ?_, ?_, ?_, fun E K => ?run⟩
  case run =>
    simp only [cc0__lj_kernel_eq_skeleton]; unfold cc0__lj_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%fs2, %hfs2, HS2⟩, Hk⟩
    obtain rfl := bs.harg2.eq_unread hf0; obtain rfl := bs.harg3.eq_unread hf1; obtain rfl := bs.harg4.eq_unread hf2; obtain rfl := bs.harg5.eq_unread hf3; obtain rfl := bs.harg6.eq_unread hf4; obtain rfl := bs.harg7.eq_unread hf5; obtain rfl := bs.harg8.eq_unread hf6; obtain rfl := bs.harg9.eq_unread hf7; obtain rfl := bs.harg16.eq_unread hfs0; obtain rfl := bs.harg17.eq_unread hfs1; obtain rfl := bs.harg18.eq_unread hfs2
    sl_exec (disch := first | exact hc0 | exact hc1)
    sl_step
    iapply Hk
    isplitl [H0]
    · iexists _; isplitr; · ipureintro; exact bs.harg2.read_unread _
      iexact H0
    isplitl [H1]
    · iexists _; isplitr; · ipureintro; exact bs.harg3.read_unread _
      iexact H1
    isplitl [H2]
    · iexists _; isplitr; · ipureintro; exact bs.harg4.read_unread _
      iexact H2
    isplitl [H3]
    · iexists _; isplitr; · ipureintro; exact bs.harg5.read_unread _
      iexact H3
    isplitl [H4]
    · iexists _; isplitr; · ipureintro; exact bs.harg6.read_unread _
      iexact H4
    isplitl [H5]
    · iexists _; isplitr; · ipureintro; exact bs.harg7.read_unread _
      iexact H5
    isplitl [H6]
    · iexists _; isplitr; · ipureintro; exact bs.harg8.read_unread _
      iexact H6
    isplitl [H7]
    · iexists _; isplitr; · ipureintro; exact bs.harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    isplitl [HS1]; · iexists _; iexact HS1
    iexists _; iexact HS2

end Cert.KernelIdeal.Frame

end
-- ==== Proof.KI.FrameDefs.lean ====
import proofs.«420260_j7687991460463_2_alg».proof.Proof.KI.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Step
variable (c : Dev nD) (i : grid0.Coords) (bs : Bufs)

section A
variable (hc0 : cond0_0 i) (hc1 : ¬cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32)

/-- What a core's first step leaves in the nine buffers it stores into: the six outputs in window order, then the three accumulators. -/
def outs0_A : Vec F S128000 .f32 × Vec F S128000 .f32 × Vec F S128000 .f32 × Vec F S1x1x1 .f32 × Vec F S1x1x1 .f32 × Vec F S1x3x3 .f32 × Vec F S1x1 .f32 × Vec F S1x1 .f32 × Vec F S3x3 .f32 :=
  let r := kernelRun0_A c i bs hc0 hc1 x0 x1 x2 x3 x4 x5 x6 x7
  (VO0_8.read (Elt F) (VO0_8.writes (Elt F) VO0_8.junk r.1),
    VO0_9.read (Elt F) (VO0_9.writes (Elt F) VO0_9.junk r.2.1),
    VO0_10.read (Elt F) (VO0_10.writes (Elt F) VO0_10.junk r.2.2.1),
    VO0_11.read (Elt F) (VO0_11.writes (Elt F) VO0_11.junk r.2.2.2.1),
    VO0_12.read (Elt F) (VO0_12.writes (Elt F) VO0_12.junk r.2.2.2.2.1),
    VO0_13.read (Elt F) (VO0_13.writes (Elt F) VO0_13.junk r.2.2.2.2.2.1),
    VS0_0.read (Elt F) (VS0_0.writes (Elt F) VS0_0.junk r.2.2.2.2.2.2.1),
    VS0_1.read (Elt F) (VS0_1.writes (Elt F) VS0_1.junk r.2.2.2.2.2.2.2.1),
    VS0_2.read (Elt F) (VS0_2.writes (Elt F) VS0_2.junk r.2.2.2.2.2.2.2.2.1))

end A

section B
variable (hc0 : ¬cond0_0 i) (hc1 : ¬cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32)

/-- The same for a middle step, which starts from the accumulators `xs0 xs1 xs2` the step before left. -/
def outs0_B : Vec F S128000 .f32 × Vec F S128000 .f32 × Vec F S128000 .f32 × Vec F S1x1x1 .f32 × Vec F S1x1x1 .f32 × Vec F S1x3x3 .f32 × Vec F S1x1 .f32 × Vec F S1x1 .f32 × Vec F S3x3 .f32 :=
  let r := kernelRun0_B c i bs hc0 hc1 x0 x1 x2 x3 x4 x5 x6 x7 xs0 xs1 xs2
  (VO0_8.read (Elt F) (VO0_8.writes (Elt F) VO0_8.junk r.1),
    VO0_9.read (Elt F) (VO0_9.writes (Elt F) VO0_9.junk r.2.1),
    VO0_10.read (Elt F) (VO0_10.writes (Elt F) VO0_10.junk r.2.2.1),
    VO0_11.read (Elt F) (VO0_11.writes (Elt F) VO0_11.junk r.2.2.2.1),
    VO0_12.read (Elt F) (VO0_12.writes (Elt F) VO0_12.junk r.2.2.2.2.1),
    VO0_13.read (Elt F) (VO0_13.writes (Elt F) VO0_13.junk r.2.2.2.2.2.1),
    VS0_0.read (Elt F) (VS0_0.writes (Elt F) VS0_0.junk r.2.2.2.2.2.2.1),
    VS0_1.read (Elt F) (VS0_1.writes (Elt F) VS0_1.junk r.2.2.2.2.2.2.2.1),
    VS0_2.read (Elt F) (VS0_2.writes (Elt F) VS0_2.junk r.2.2.2.2.2.2.2.2.1))

end B

section C
variable (hc0 : ¬cond0_0 i) (hc1 : cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32)

/-- The same for a core's last step, which also copies the accumulators to the three reduction outputs. -/
def outs0_C : Vec F S128000 .f32 × Vec F S128000 .f32 × Vec F S128000 .f32 × Vec F S1x1x1 .f32 × Vec F S1x1x1 .f32 × Vec F S1x3x3 .f32 × Vec F S1x1 .f32 × Vec F S1x1 .f32 × Vec F S3x3 .f32 :=
  let r := kernelRun0_C c i bs hc0 hc1 x0 x1 x2 x3 x4 x5 x6 x7 xs0 xs1 xs2
  (VO0_8.read (Elt F) (VO0_8.writes (Elt F) VO0_8.junk r.1),
    VO0_9.read (Elt F) (VO0_9.writes (Elt F) VO0_9.junk r.2.1),
    VO0_10.read (Elt F) (VO0_10.writes (Elt F) VO0_10.junk r.2.2.1),
    VO0_11.read (Elt F) (VO0_11.writes (Elt F) VO0_11.junk r.2.2.2.1),
    VO0_12.read (Elt F) (VO0_12.writes (Elt F) VO0_12.junk r.2.2.2.2.1),
    VO0_13.read (Elt F) (VO0_13.writes (Elt F) VO0_13.junk r.2.2.2.2.2.1),
    VS0_0.read (Elt F) (VS0_0.writes (Elt F) VS0_0.junk r.2.2.2.2.2.2.1),
    VS0_1.read (Elt F) (VS0_1.writes (Elt F) VS0_1.junk r.2.2.2.2.2.2.2.1),
    VS0_2.read (Elt F) (VS0_2.writes (Elt F) VS0_2.junk r.2.2.2.2.2.2.2.2.1))

end C

end Step

/-- The nine buffers after step `n`, by recursion: the kind of step is `n` modulo 25, and only a core's first step forgets the step before. -/
def outsAt0 (c : Dev nD) : (n : ℕ) → n < cfg0.N → Vec F S128000 .f32 × Vec F S128000 .f32 × Vec F S128000 .f32 × Vec F S1x1x1 .f32 × Vec F S1x1x1 .f32 × Vec F S1x3x3 .f32 × Vec F S1x1 .f32 × Vec F S1x1 .f32 × Vec F S3x3 .f32
  | 0, hn => outs0_A c (grid0.coords ⟨0, hn⟩) (bufsAt ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 25 = 0 then
      if h1 : (n + 1) % 25 = 24 then
        False.elim (by omega)
      else
        outs0_A c (grid0.coords ⟨n + 1, hn⟩) (bufsAt ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      if h1 : (n + 1) % 25 = 24 then
        outs0_C c (grid0.coords ⟨n + 1, hn⟩) (bufsAt ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2
      else
        outs0_B c (grid0.coords ⟨n + 1, hn⟩) (bufsAt ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2

theorem outsAt0_A (c : Dev nD) (t : Fin cfg0.N) (h0 : t.val % 25 = 0) (h1 : ¬t.val % 25 = 24) :
    outsAt0 m c t.val t.isLt = outs0_A c (grid0.coords t) (bufsAt t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 m c t.val t.isLt = outs0_B c (grid0.coords t) (bufsAt t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 m c t.val t.isLt = outs0_C c (grid0.coords t) (bufsAt t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_pos h1).trans rfl)

/-- Between steps the accumulators hold what the last step left (anything before the very first). -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2)) ∗ (∃ r, prngReg c r)) := by
  cases n with
  | zero => exact absurd rfl hz
  | succ n => rfl

/-- Whatever the accumulators hold between steps, they hold something. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-- The launch's proof data: every input at its block, every output at the recursion's component. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]

/-- An input's or a force output's buffer is handed back whole at every step, holding what the proof data says. -/
theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0_2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0_3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0_4 t]
theorem leaves0_5 (c : Dev nD) (t : Fin cfg0.N) :
    (dats m 0 c).leavesExact 5 t = owns (c : Thread nD τ) (ms0_5 t) fullShare ((dats m 0 c).after 5 t) := by
  unfold Dat.leavesExact; rw [liveAt0_5 t]
theorem leaves0_6 (c : Dev nD) (t : Fin cfg0.N) :
    (dats m 0 c).leavesExact 6 t = owns (c : Thread nD τ) (ms0_6 t) fullShare ((dats m 0 c).after 6 t) := by
  unfold Dat.leavesExact; rw [liveAt0_6 t]
theorem leaves0_7 (c : Dev nD) (t : Fin cfg0.N) :
    (dats m 0 c).leavesExact 7 t = owns (c : Thread nD τ) (ms0_7 t) fullShare ((dats m 0 c).after 7 t) := by
  unfold Dat.leavesExact; rw [liveAt0_7 t]
theorem leaves0_8 (c : Dev nD) (t : Fin cfg0.N) :
    (dats m 0 c).leavesExact 8 t = owns (c : Thread nD τ) (ms0_8 t) fullShare ((dats m 0 c).after 8 t) := by
  unfold Dat.leavesExact; rw [liveAt0_8 t]
theorem leaves0_9 (c : Dev nD) (t : Fin cfg0.N) :
    (dats m 0 c).leavesExact 9 t = owns (c : Thread nD τ) (ms0_9 t) fullShare ((dats m 0 c).after 9 t) := by
  unfold Dat.leavesExact; rw [liveAt0_9 t]
theorem leaves0_10 (c : Dev nD) (t : Fin cfg0.N) :
    (dats m 0 c).leavesExact 10 t = owns (c : Thread nD τ) (ms0_10 t) fullShare ((dats m 0 c).after 10 t) := by
  unfold Dat.leavesExact; rw [liveAt0_10 t]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

end Cert.KernelIdeal.Frame

end
-- ==== Proof.KI.BodyA.lean ====
import proofs.«420260_j7687991460463_2_alg».proof.Proof.KI.FrameDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
/-- A core's first step: the accumulators are zeroed before anything reads them, so it is enough that they hold something. -/
theorem sound_A (c : Dev nD) (t : Fin cfg0.N) (h0 : t.val % 25 = 0) (h1 : ¬t.val % 25 = 24) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [leaves0_0 m c t, after0_0, leaves0_1 m c t, after0_1, leaves0_2 m c t, after0_2, leaves0_3 m c t, after0_3, leaves0_4 m c t, after0_4, leaves0_5 m c t, after0_5, leaves0_6 m c t, after0_6, leaves0_7 m c t, after0_7, leaves0_8 m c t, after0_8, leaves0_9 m c t, after0_9, leaves0_10 m c t, after0_10]
  rw [Dat.leavesExact_idle (dats m 0 c) 11 t (idleAt0_11 t (fun h => h1 ((hcond0_1 t).mp h))) (noFlush0_11 t (fun h => h1 ((hcond0_1 t).mp h)))]
  rw [Dat.leavesExact_idle (dats m 0 c) 12 t (idleAt0_12 t (fun h => h1 ((hcond0_1 t).mp h))) (noFlush0_12 t (fun h => h1 ((hcond0_1 t).mp h)))]
  rw [Dat.leavesExact_idle (dats m 0 c) 13 t (idleAt0_13 t (fun h => h1 ((hcond0_1 t).mp h))) (noFlush0_13 t (fun h => h1 ((hcond0_1 t).mp h)))]
  rw [outsAt0_A m c t h0 h1, outs0_A]
  dsimp only
  rw [PhiS_castSucc m c t]
  refine (sep_mono_left (PhiS_any m c _ _)).trans ?_
  rw [PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) (bufsAt t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, H11, H12, H13, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (View.cover_of_tiledL _ S1x1.size (by sl_kernel_rfl))
      isplitl [HS1]
      · unfold owns; iexists _; isplitr
        swap; · iexact HS1
        ipureintro; exact View.read_writes_of_cover _ _ _ _ _ (View.cover_of_tiledL _ S1x1.size (by sl_kernel_rfl))
      unfold owns; iexists _; isplitr
      swap; · iexact HS2
      ipureintro; exact View.read_writes_of_cover _ _ _ _ _ (View.cover_of_tiledL _ S1x1.size (by sl_kernel_rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (View.cover_of_tiledL _ S128000.size (by sl_kernel_rfl))
  isplitl [H9]
  · unfold owns; iexists _; isplitr
    swap; · iexact H9
    ipureintro; exact View.read_writes_of_cover _ _ _ _ _ (View.cover_of_tiledL _ S128000.size (by sl_kernel_rfl))
  isplitl [H10]
  · unfold owns; iexists _; isplitr
    swap; · iexact H10
    ipureintro; exact View.read_writes_of_cover _ _ _ _ _ (View.cover_of_tiledL _ S128000.size (by sl_kernel_rfl))
  isplitl [H11]; · iexists _; iexact H11
  isplitl [H12]; · iexists _; iexact H12
  iexists _; iexact H13

end Cert.KernelIdeal.Frame

end
-- ==== Proof.KI.BodyB.lean ====
import proofs.«420260_j7687991460463_2_alg».proof.Proof.KI.FrameDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_B (c : Dev nD) (t : Fin cfg0.N) (h0 : ¬t.val % 25 = 0) (h1 : ¬t.val % 25 = 24) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [leaves0_0 m c t, after0_0, leaves0_1 m c t, after0_1, leaves0_2 m c t, after0_2, leaves0_3 m c t, after0_3, leaves0_4 m c t, after0_4, leaves0_5 m c t, after0_5, leaves0_6 m c t, after0_6, leaves0_7 m c t, after0_7, leaves0_8 m c t, after0_8, leaves0_9 m c t, after0_9, leaves0_10 m c t, after0_10]
  rw [Dat.leavesExact_idle (dats m 0 c) 11 t (idleAt0_11 t (fun h => h1 ((hcond0_1 t).mp h))) (noFlush0_11 t (fun h => h1 ((hcond0_1 t).mp h)))]
  rw [Dat.leavesExact_idle (dats m 0 c) 12 t (idleAt0_12 t (fun h => h1 ((hcond0_1 t).mp h))) (noFlush0_12 t (fun h => h1 ((hcond0_1 t).mp h)))]
  rw [Dat.leavesExact_idle (dats m 0 c) 13 t (idleAt0_13 t (fun h => h1 ((hcond0_1 t).mp h))) (noFlush0_13 t (fun h => h1 ((hcond0_1 t).mp h)))]
  rw [outsAt0_B m c t h0 h1, outs0_B]
  dsimp only
  have hz : ¬t.val = 0 := by omega
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_B c (grid0.coords t) (bufsAt t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, H11, H12, H13, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (View.cover_of_tiledL _ S1x1.size (by sl_kernel_rfl))
      isplitl [HS1]
      · unfold owns; iexists _; isplitr
        swap; · iexact HS1
        ipureintro; exact View.read_writes_of_cover _ _ _ _ _ (View.cover_of_tiledL _ S1x1.size (by sl_kernel_rfl))
      unfold owns; iexists _; isplitr
      swap; · iexact HS2
      ipureintro; exact View.read_writes_of_cover _ _ _ _ _ (View.cover_of_tiledL _ S1x1.size (by sl_kernel_rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (View.cover_of_tiledL _ S128000.size (by sl_kernel_rfl))
  isplitl [H9]
  · unfold owns; iexists _; isplitr
    swap; · iexact H9
    ipureintro; exact View.read_writes_of_cover _ _ _ _ _ (View.cover_of_tiledL _ S128000.size (by sl_kernel_rfl))
  isplitl [H10]
  · unfold owns; iexists _; isplitr
    swap; · iexact H10
    ipureintro; exact View.read_writes_of_cover _ _ _ _ _ (View.cover_of_tiledL _ S128000.size (by sl_kernel_rfl))
  isplitl [H11]; · iexists _; iexact H11
  isplitl [H12]; · iexists _; iexact H12
  iexists _; iexact H13

end Cert.KernelIdeal.Frame

end
-- ==== Proof.KI.BodyC.lean ====
import proofs.«420260_j7687991460463_2_alg».proof.Proof.KI.FrameDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem runC_owns (c : Dev nD) (i : grid0.Coords) (bs : Bufs) (hc0 : ¬cond0_0 i) (hc1 : cond0_1 i)
    (x0 : Vec F S128000 .f32) (x1 : Vec F S128000 .f32) (x2 : Vec F S128000 .f32) (x3 : Vec F S128000 .f32) (x4 : Vec F S128000 .f32) (x5 : Vec F S128000 .f32) (x6 : Vec F S128000 .f32) (x7 : Vec F S128000 .f32) (xs0 : Vec F S1x1 .f32) (xs1 : Vec F S1x1 .f32) (xs2 : Vec F S3x3 .f32)
    (E : Set ℕ) (K : PUnit → sProp 𝕄) :
    iprop(owns (c : Thread nD τ) bs.arg2 fullShare x0
        ∗ owns (c : Thread nD τ) bs.arg3 fullShare x1
        ∗ owns (c : Thread nD τ) bs.arg4 fullShare x2
        ∗ owns (c : Thread nD τ) bs.arg5 fullShare x3
        ∗ owns (c : Thread nD τ) bs.arg6 fullShare x4
        ∗ owns (c : Thread nD τ) bs.arg7 fullShare x5
        ∗ owns (c : Thread nD τ) bs.arg8 fullShare x6
        ∗ owns (c : Thread nD τ) bs.arg9 fullShare x7
        ∗ (∃ d, owns (c : Thread nD τ) bs.arg10 fullShare d)
        ∗ (∃ d, owns (c : Thread nD τ) bs.arg11 fullShare d)
        ∗ (∃ d, owns (c : Thread nD τ) bs.arg12 fullShare d)
        ∗ (∃ d, owns (c : Thread nD τ) bs.arg13 fullShare d)
        ∗ (∃ d, owns (c : Thread nD τ) bs.arg14 fullShare d)
        ∗ (∃ d, owns (c : Thread nD τ) bs.arg15 fullShare d)
        ∗ owns (c : Thread nD τ) bs.arg16 fullShare xs0
        ∗ owns (c : Thread nD τ) bs.arg17 fullShare xs1
        ∗ owns (c : Thread nD τ) bs.arg18 fullShare xs2
        ∗ (iprop(owns (c : Thread nD τ) bs.arg2 fullShare x0
            ∗ owns (c : Thread nD τ) bs.arg3 fullShare x1
            ∗ owns (c : Thread nD τ) bs.arg4 fullShare x2
            ∗ owns (c : Thread nD τ) bs.arg5 fullShare x3
            ∗ owns (c : Thread nD τ) bs.arg6 fullShare x4
            ∗ owns (c : Thread nD τ) bs.arg7 fullShare x5
            ∗ owns (c : Thread nD τ) bs.arg8 fullShare x6
            ∗ owns (c : Thread nD τ) bs.arg9 fullShare x7
            ∗ owns (c : Thread nD τ) bs.arg10 fullShare ((outs0_C c i bs hc0 hc1 x0 x1 x2 x3 x4 x5 x6 x7 xs0 xs1 xs2).1)
            ∗ owns (c : Thread nD τ) bs.arg11 fullShare ((outs0_C c i bs hc0 hc1 x0 x1 x2 x3 x4 x5 x6 x7 xs0 xs1 xs2).2.1)
            ∗ owns (c : Thread nD τ) bs.arg12 fullShare ((outs0_C c i bs hc0 hc1 x0 x1 x2 x3 x4 x5 x6 x7 xs0 xs1 xs2).2.2.1)
            ∗ owns (c : Thread nD τ) bs.arg13 fullShare ((outs0_C c i bs hc0 hc1 x0 x1 x2 x3 x4 x5 x6 x7 xs0 xs1 xs2).2.2.2.1)
            ∗ owns (c : Thread nD τ) bs.arg14 fullShare ((outs0_C c i bs hc0 hc1 x0 x1 x2 x3 x4 x5 x6 x7 xs0 xs1 xs2).2.2.2.2.1)
            ∗ owns (c : Thread nD τ) bs.arg15 fullShare ((outs0_C c i bs hc0 hc1 x0 x1 x2 x3 x4 x5 x6 x7 xs0 xs1 xs2).2.2.2.2.2.1)
            ∗ owns (c : Thread nD τ) bs.arg16 fullShare ((outs0_C c i bs hc0 hc1 x0 x1 x2 x3 x4 x5 x6 x7 xs0 xs1 xs2).2.2.2.2.2.2.1)
            ∗ owns (c : Thread nD τ) bs.arg17 fullShare ((outs0_C c i bs hc0 hc1 x0 x1 x2 x3 x4 x5 x6 x7 xs0 xs1 xs2).2.2.2.2.2.2.2.1)
            ∗ owns (c : Thread nD τ) bs.arg18 fullShare ((outs0_C c i bs hc0 hc1 x0 x1 x2 x3 x4 x5 x6 x7 xs0 xs1 xs2).2.2.2.2.2.2.2.2)) -∗ K ⟨⟩))
      ⊢ wp frame (wpE (defs₀ (F := F)) Variants.none c none) E (cc0__lj_kernel i bs.arg2 bs.harg2 bs.arg3 bs.harg3 bs.arg4 bs.harg4 bs.arg5 bs.harg5 bs.arg6 bs.harg6 bs.arg7 bs.harg7 bs.arg8 bs.harg8 bs.arg9 bs.harg9 bs.arg10 bs.harg10 bs.arg11 bs.harg11 bs.arg12 bs.harg12 bs.arg13 bs.harg13 bs.arg14 bs.harg14 bs.arg15 bs.harg15 bs.arg16 bs.harg16 bs.arg17 bs.harg17 bs.arg18 bs.harg18) K := by
  iintro ⟨H0, H1, H2, H3, H4, H5, H6, H7, H8, H9, H10, H11, H12, H13, HS0, HS1, HS2, Hk⟩
  iapply ((kernelRun0_C c i bs hc0 hc1 x0 x1 x2 x3 x4 x5 x6 x7 xs0 xs1 xs2).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold outs0_C owns; dsimp only; iexists _; isplitr
    swap; · iexact H8
    ipureintro; exact View.read_writes_of_cover _ _ _ _ _ (View.cover_of_tiledL _ S128000.size (by sl_kernel_rfl))
  isplitl [H9]
  · unfold outs0_C owns; dsimp only; iexists _; isplitr
    swap; · iexact H9
    ipureintro; exact View.read_writes_of_cover _ _ _ _ _ (View.cover_of_tiledL _ S128000.size (by sl_kernel_rfl))
  isplitl [H10]
  · unfold outs0_C owns; dsimp only; iexists _; isplitr
    swap; · iexact H10
    ipureintro; exact View.read_writes_of_cover _ _ _ _ _ (View.cover_of_tiledL _ S128000.size (by sl_kernel_rfl))
  isplitl [H11]
  · unfold outs0_C owns; dsimp only; iexists _; isplitr
    swap; · iexact H11
    ipureintro; exact View.read_writes_of_cover _ _ _ _ _ (View.cover_of_tiledL _ S1x1x1.size (by sl_kernel_rfl))
  isplitl [H12]
  · unfold outs0_C owns; dsimp only; iexists _; isplitr
    swap; · iexact H12
    ipureintro; exact View.read_writes_of_cover _ _ _ _ _ (View.cover_of_tiledL _ S1x1x1.size (by sl_kernel_rfl))
  isplitl [H13]
  · unfold outs0_C owns; dsimp only; iexists _; isplitr
    swap; · iexact H13
    ipureintro; exact View.read_writes_of_cover _ _ _ _ _ (View.cover_of_tiledL _ S1x3x3.size (by sl_kernel_rfl))
  isplitl [HS0]
  · unfold outs0_C owns; dsimp only; iexists _; isplitr
    swap; · iexact HS0
    ipureintro; exact View.read_writes_of_cover _ _ _ _ _ (View.cover_of_tiledL _ S1x1.size (by sl_kernel_rfl))
  isplitl [HS1]
  · unfold outs0_C owns; dsimp only; iexists _; isplitr
    swap; · iexact HS1
    ipureintro; exact View.read_writes_of_cover _ _ _ _ _ (View.cover_of_tiledL _ S1x1.size (by sl_kernel_rfl))
  unfold outs0_C owns; dsimp only; iexists _; isplitr
  swap; · iexact HS2
  ipureintro; exact View.read_writes_of_cover _ _ _ _ _ (View.cover_of_tiledL _ S1x1.size (by sl_kernel_rfl))

set_option maxHeartbeats 16000000 in
theorem sound_C (c : Dev nD) (t : Fin cfg0.N) (h0 : ¬t.val % 25 = 0) (h1 : t.val % 25 = 24) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [leaves0_0 m c t, after0_0, leaves0_1 m c t, after0_1, leaves0_2 m c t, after0_2, leaves0_3 m c t, after0_3, leaves0_4 m c t, after0_4, leaves0_5 m c t, after0_5, leaves0_6 m c t, after0_6, leaves0_7 m c t, after0_7, leaves0_8 m c t, after0_8, leaves0_9 m c t, after0_9, leaves0_10 m c t, after0_10]
  rw [show (dats m 0 c).leavesExact 11 t = owns (c : Thread nD τ) (ms0_11 t) fullShare ((dats m 0 c).after 11 t) from by
    unfold Dat.leavesExact; rw [liveAt0_11_C t ((hcond0_1 t).mpr h1)], after0_11]
  rw [show (dats m 0 c).leavesExact 12 t = owns (c : Thread nD τ) (ms0_12 t) fullShare ((dats m 0 c).after 12 t) from by
    unfold Dat.leavesExact; rw [liveAt0_12_C t ((hcond0_1 t).mpr h1)], after0_12]
  rw [show (dats m 0 c).leavesExact 13 t = owns (c : Thread nD τ) (ms0_13 t) fullShare ((dats m 0 c).after 13 t) from by
    unfold Dat.leavesExact; rw [liveAt0_13_C t ((hcond0_1 t).mpr h1)], after0_13]
  rw [outsAt0_C m c t h0 h1]
  have hz : ¬t.val = 0 := by omega
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runC_owns c (grid0.coords t) (bufsAt t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  iintro ⟨H0, H1, H2, H3, H4, H5, H6, H7, H8, H9, H10, H11, H12, H13, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Frame

end
-- ==== Proof.KI.Frame.lean ====
import proofs.«420260_j7687991460463_2_alg».proof.Proof.KI.BodyA
import proofs.«420260_j7687991460463_2_alg».proof.Proof.KI.BodyB
import proofs.«420260_j7687991460463_2_alg».proof.Proof.KI.BodyC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 25 = 0
  · by_cases h1 : t.val % 25 = 24
    · exfalso; omega
    · exact sound_A m c t h0 h1
  · by_cases h1 : t.val % 25 = 24
    · exact sound_C m c t h0 h1
    · exact sound_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_any m c _ _

theorem hout (c : Dev nD) : (dats m 0 c).Φ (Fin.last cfg0.N) ⊢ Pipeline.ΦA spec0 c :=
  Phi_out m c _

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev nAtoms : Nat := 100000
abbrev nEdges : Nat := 6400000

structure Edge where
  u : EReal
  w : EReal
  f : Fin 3 → EReal
  r : Fin 3 → EReal

def wrap (i : BitVec 32) : BitVec 32 := if i.toInt < 0 then i + 100000#32 else i

def rowOf (i : BitVec 32) : Fin nAtoms := ⟨min i.toInt.toNat (nAtoms - 1), by
  have : min i.toInt.toNat (nAtoms - 1) ≤ nAtoms - 1 := Nat.min_le_right _ _
  show min i.toInt.toNat (nAtoms - 1) < 100000
  have h : nAtoms - 1 = 99999 := rfl
  omega⟩

def energy (edge : Fin nEdges → Edge) : EReal := ∑ e : Fin nEdges, (edge e).u

def virial (edge : Fin nEdges → Edge) : EReal := ∑ e : Fin nEdges, (edge e).w

def vtensor (edge : Fin nEdges → Edge) (a b : Fin 3) : EReal := ∑ e : Fin nEdges, (edge e).f a * (edge e).r b

def force (edge : Fin nEdges → Edge) (src dst : Fin nEdges → BitVec 32) (n : Fin nAtoms) (q : Fin 3) : EReal :=
  (∑ e : Fin nEdges, if (src e).toInt = (n.val : Int) then (edge e).f q else 0)
    + (∑ e : Fin nEdges, if (dst e).toInt = (n.val : Int) then -(edge e).f q else 0)

abbrev SPos : Shape := ⟨2, ![100000, 3]⟩
abbrev SEdges : Shape := ⟨2, ![2, 6400000]⟩
abbrev SPar : Shape := ⟨1, ![6400000]⟩

def endWord (ei : SEdges.Idx → BitVec 32) (row : Fin 2) (e : Fin nEdges) : BitVec 32 := wrap (ei (ix2 row e))

def endPos (pos : SPos.Idx → EReal) (ei : SEdges.Idx → BitVec 32) (row : Fin 2) (e : Fin nEdges) (q : Fin 3) : EReal :=
  pos (ix2 (rowOf (endWord ei row e)) q)

def edgesOf (fn : (Fin 3 → EReal) → (Fin 3 → EReal) → EReal → EReal → Edge)
    (pos : SPos.Idx → EReal) (ei : SEdges.Idx → BitVec 32) (eps sig : SPar.Idx → EReal) : Fin nEdges → Edge :=
  fun e => fn (endPos pos ei 0 e) (endPos pos ei 1 e) (eps (ix1 e)) (sig (ix1 e))

end Cert.Spec

end
-- ==== Proof.KI.Head.lean ====
import proofs.«420260_j7687991460463_2_alg».proof.Proof.KI.Setup
import proofs.«420260_j7687991460463_2_alg».proof.Proof.Spec
import Idealize.ShloMosaic.PureOps.Ideal
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

set_option maxRecDepth 16384

noncomputable section

namespace Cert.KernelIdeal.Head

open Cert.KernelIdeal Cert.KernelIdeal.Gen Cert.KernelIdeal.Frame
open Idealize.ShloMosaic Idealize.ShloMosaic.TcCoe Idealize.ShloMosaic.ValueIdx Idealize.ShloMosaic.StableHlo

section VecGather
variable {α : Type}

abbrev vecGatherDims (n e : Nat)
    (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

def clampIdx {n w : Nat} (hn : 0 < n) (i : BitVec w) : Fin n := ⟨min i.toInt.toNat (n - 1), by omega⟩

theorem vecGather_apply {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (p : Fin e) :
    Host.gather (vecGatherDims n e wf) x idx (ix1 p) = x (ix1 (clampIdx hn (idx (ix2 p (0 : Fin 1))))) := by
  unfold Host.gather
  congr 1
  funext a
  obtain rfl : a = 0 := Subsingleton.elim _ _
  refine Fin.ext ?_

  show (vecGatherDims n e wf).start (ix1 p) idx 0 + (vecGatherDims n e wf).batchCoord (ix1 p) 0
      + (vecGatherDims n e wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n e wf).startIndexMap from List.mem_singleton.mpr rfl)]
  have hsi : (vecGatherDims n e wf).siIdx (ix1 p) ⟨List.idxOf (0 : Fin 1) (vecGatherDims n e wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end VecGather

section Pieces
variable {α : Type}

theorem rowOf2_apply {r e : Nat} (o : Nat) (X : (⟨2, ![r, e]⟩ : Shape).Idx → α)
    (hs : (⟨2, ![r, e]⟩ : Shape).Slices ![o, 0] ⟨2, ![1, e]⟩)
    (hc : (⟨2, ![1, e]⟩ : Shape).ShapeCasts ⟨1, ![e]⟩) (row : Fin r) (hrow : row.val = o) (p : Fin e) :
    shapeCast ⟨1, ![e]⟩ (extractStridedSlice ⟨2, ![1, e]⟩ ![o, 0] X hs) hc (ix1 p) = X (ix2 row p) := by
  rw [shapeCast_1a_a_apply]
  exact slice2_axis0_apply o X hs (0 : Fin 1) p row (by rw [hrow]; rfl)

theorem colOf2_apply {n k : Nat} (o : Nat) (X : (⟨2, ![n, k]⟩ : Shape).Idx → α)
    (hs : (⟨2, ![n, k]⟩ : Shape).Slices ![0, o] ⟨2, ![n, 1]⟩)
    (hc : (⟨2, ![n, 1]⟩ : Shape).ShapeCasts ⟨1, ![n]⟩) (col : Fin k) (hcol : col.val = o) (a : Fin n) :
    shapeCast ⟨1, ![n]⟩ (extractStridedSlice ⟨2, ![n, 1]⟩ ![0, o] X hs) hc (ix1 a) = X (ix2 a col) := by
  rw [shapeCast_apply _ hc (ix1 a) (ix2 a (0 : Fin 1)) (by
    rw [Shape.rowMajor_val_two, Shape.rowMajor_val_one]
    show a.val * 1 + 0 = a.val
    omega)]
  exact slice2_axis1_apply o X hs a (0 : Fin 1) col (by rw [hcol]; rfl)

theorem colBroadcast_apply {e : Nat} (W : (⟨1, ![e]⟩ : Shape).Idx → α)
    (hb : (⟨1, ![e]⟩ : Shape).BroadcastsInDim ⟨2, ![e, 1]⟩ (![0] : Fin 1 → Fin 2)) (p : Fin e) :
    broadcastInDim ⟨2, ![e, 1]⟩ (![0] : Fin 1 → Fin 2) hb W (ix2 p (0 : Fin 1)) = W (ix1 p) := by
  refine broadcastInDim_apply _ hb W (ix2 p (0 : Fin 1)) (ix1 p) fun a => ?_
  obtain rfl : a = 0 := Subsingleton.elim _ _
  show p.val = if e = 1 then 0 else p.val
  split
  · have := p.isLt; omega
  · rfl

theorem slt_zero_eq_one_iff (x : BitVec 32) : IntOp.cmpi .slt x 0#32 = 1 ↔ x.toInt < 0 := by
  show BitVec.ofBool (x.slt 0#32) = 1#1 ↔ _
  rw [StableHlo.Predicate.ofBool_eq_one_iff]
  unfold BitVec.slt
  rw [decide_eq_true_eq]
  exact Iff.rfl

theorem wrapWord_eq (x : BitVec 32) :
    Scalar.select (IntOp.cmpi .slt x 0#32) (IntOp.addi x 100000#32) x = (if x.toInt < 0 then x + 100000#32 else x) := by
  unfold Scalar.select
  by_cases h : x.toInt < 0
  · rw [if_pos ((slt_zero_eq_one_iff x).mpr h), if_pos h]; rfl
  · rw [if_neg (fun h' => h ((slt_zero_eq_one_iff x).mp h')), if_neg h]

end Pieces

def wrapVec (X : IVec S6400000 32) : IVec S6400000 32 :=
  select (cmpi .slt X (broadcastInDim S6400000 ![] bcast_S_S6400000 (constantI S_ 32 0#32)))
    (addi X (broadcastInDim S6400000 ![] bcast_S_S6400000 (constantI S_ 32 100000#32))) X

def rowVec (ei : IVec S2x6400000 32) (o : Nat) (hs : S2x6400000.Slices ![o, 0] S1x6400000) : IVec S6400000 32 :=
  shapeCast S6400000 (extractStridedSlice S1x6400000 ![o, 0] ei hs) shapeCasts_S1x6400000_S6400000

def colVec (pos : S100000x3.Idx → EReal) (k : Nat) (hs : S100000x3.Slices ![0, k] S100000x1) : S100000.Idx → EReal :=
  shapeCast S100000 (extractStridedSlice S100000x1 ![0, k] pos hs) shapeCasts_S100000x1_S100000

def endCoord (pos : S100000x3.Idx → EReal) (ei : IVec S2x6400000 32) (o k : Nat)
    (hso : S2x6400000.Slices ![o, 0] S1x6400000) (hsk : S100000x3.Slices ![0, k] S100000x1) : S6400000.Idx → EReal :=
  Host.gather gather_S100000_S6400000x1_S6400000_n_0_n_n_0_1_1 (colVec pos k hsk)
    (broadcastInDim S6400000x1 ![0] bcast_S6400000_S6400000x1_0 (wrapVec (rowVec ei o hso)))

theorem wrapVec_apply (X : IVec S6400000 32) (j : S6400000.Idx) : wrapVec X j = Cert.Spec.wrap (X j) := by
  show Scalar.select (IntOp.cmpi .slt (X j) 0#32) (IntOp.addi (X j) 100000#32) (X j) = _
  rw [wrapWord_eq]
  rfl

theorem rowVec_apply (ei : IVec S2x6400000 32) (o : Nat) (hs : S2x6400000.Slices ![o, 0] S1x6400000)
    (row : Fin 2) (hrow : row.val = o) (e : Fin 6400000) : rowVec ei o hs (ix1 e) = ei (ix2 row e) :=
  rowOf2_apply o ei hs shapeCasts_S1x6400000_S6400000 row hrow e

theorem colVec_apply (pos : S100000x3.Idx → EReal) (k : Nat) (hs : S100000x3.Slices ![0, k] S100000x1)
    (col : Fin 3) (hcol : col.val = k) (a : Fin 100000) : colVec pos k hs (ix1 a) = pos (ix2 a col) :=
  colOf2_apply k pos hs shapeCasts_S100000x1_S100000 col hcol a

theorem gatherDims_eq : gather_S100000_S6400000x1_S6400000_n_0_n_n_0_1_1
    = vecGatherDims 100000 6400000 gather_S100000_S6400000x1_S6400000_n_0_n_n_0_1_1_wf := rfl

theorem endCoord_apply (pos : S100000x3.Idx → EReal) (ei : IVec S2x6400000 32) (o k : Nat)
    (hso : S2x6400000.Slices ![o, 0] S1x6400000) (hsk : S100000x3.Slices ![0, k] S100000x1)
    (row : Fin 2) (hrow : row.val = o) (col : Fin 3) (hcol : col.val = k) (e : Fin 6400000) :
    endCoord pos ei o k hso hsk (ix1 e) = Cert.Spec.endPos pos ei row e col := by
  unfold endCoord
  rw [gatherDims_eq, vecGather_apply (show 0 < 100000 by decide), colVec_apply pos k hsk col hcol, colBroadcast_apply, wrapVec_apply,
    rowVec_apply ei o hso row hrow]
  rfl

variable (m : (ℓ : Loc nD τ sig) → Buf (Elt Ideal) ℓ)

set_option maxHeartbeats 4000000 in

theorem V_v1_eq (c : Dev nD) :
    (V m c main_v1 : S6400000.Idx → BitVec 32)
      = rowVec (m ((c : Thread nD τ).loc main_arg1)) 0 slices_S2x6400000_S1x6400000_0_0 := by
  dsimp only [V, V0]
  simp only [hostOps0, List.flatten_cons, List.flatten_nil, List.append_nil]
  after_results
  rfl

set_option maxHeartbeats 4000000 in

theorem V_v3_eq (c : Dev nD) :
    (V m c main_v3 : S6400000.Idx → BitVec 32)
      = rowVec (m ((c : Thread nD τ).loc main_arg1)) 1 slices_S2x6400000_S1x6400000_1_0 := by
  dsimp only [V, V0]
  simp only [hostOps0, List.flatten_cons, List.flatten_nil, List.append_nil]
  after_results
  rfl

set_option maxHeartbeats 4000000 in

theorem V_v16_eq (c : Dev nD) :
    (V m c main_v16 : S6400000.Idx → EReal)
      = endCoord (m ((c : Thread nD τ).loc main_arg0)) (m ((c : Thread nD τ).loc main_arg1)) 0 0
          slices_S2x6400000_S1x6400000_0_0 slices_S100000x3_S100000x1_0_0 := by
  dsimp only [V, V0]
  simp only [hostOps0, List.flatten_cons, List.flatten_nil, List.append_nil]
  after_results
  rfl

set_option maxHeartbeats 4000000 in

theorem V_v23_eq (c : Dev nD) :
    (V m c main_v23 : S6400000.Idx → EReal)
      = endCoord (m ((c : Thread nD τ).loc main_arg0)) (m ((c : Thread nD τ).loc main_arg1)) 0 1
          slices_S2x6400000_S1x6400000_0_0 slices_S100000x3_S100000x1_0_1 := by
  dsimp only [V, V0]
  simp only [hostOps0, List.flatten_cons, List.flatten_nil, List.append_nil]
  after_results
  rfl

set_option maxHeartbeats 4000000 in

theorem V_v30_eq (c : Dev nD) :
    (V m c main_v30 : S6400000.Idx → EReal)
      = endCoord (m ((c : Thread nD τ).loc main_arg0)) (m ((c : Thread nD τ).loc main_arg1)) 0 2
          slices_S2x6400000_S1x6400000_0_0 slices_S100000x3_S100000x1_0_2 := by
  dsimp only [V, V0]
  simp only [hostOps0, List.flatten_cons, List.flatten_nil, List.append_nil]
  after_results
  rfl

set_option maxHeartbeats 4000000 in

theorem V_v37_eq (c : Dev nD) :
    (V m c main_v37 : S6400000.Idx → EReal)
      = endCoord (m ((c : Thread nD τ).loc main_arg0)) (m ((c : Thread nD τ).loc main_arg1)) 1 0
          slices_S2x6400000_S1x6400000_1_0 slices_S100000x3_S100000x1_0_0 := by
  dsimp only [V, V0]
  simp only [hostOps0, List.flatten_cons, List.flatten_nil, List.append_nil]
  after_results
  rfl

set_option maxHeartbeats 4000000 in

theorem V_v44_eq (c : Dev nD) :
    (V m c main_v44 : S6400000.Idx → EReal)
      = endCoord (m ((c : Thread nD τ).loc main_arg0)) (m ((c : Thread nD τ).loc main_arg1)) 1 1
          slices_S2x6400000_S1x6400000_1_0 slices_S100000x3_S100000x1_0_1 := by
  dsimp only [V, V0]
  simp only [hostOps0, List.flatten_cons, List.flatten_nil, List.append_nil]
  after_results
  rfl

set_option maxHeartbeats 4000000 in

theorem V_v51_eq (c : Dev nD) :
    (V m c main_v51 : S6400000.Idx → EReal)
      = endCoord (m ((c : Thread nD τ).loc main_arg0)) (m ((c : Thread nD τ).loc main_arg1)) 1 2
          slices_S2x6400000_S1x6400000_1_0 slices_S100000x3_S100000x1_0_2 := by
  dsimp only [V, V0]
  simp only [hostOps0, List.flatten_cons, List.flatten_nil, List.append_nil]
  after_results
  rfl

theorem V_v1 (c : Dev nD) (e : Fin 6400000) :
    (V m c main_v1 : S6400000.Idx → BitVec 32) (ix1 e)
      = (m ((c : Thread nD τ).loc main_arg1) : S2x6400000.Idx → BitVec 32) (ix2 0 e) := by
  rw [V_v1_eq]; exact rowVec_apply _ 0 _ 0 rfl e

theorem V_v3 (c : Dev nD) (e : Fin 6400000) :
    (V m c main_v3 : S6400000.Idx → BitVec 32) (ix1 e)
      = (m ((c : Thread nD τ).loc main_arg1) : S2x6400000.Idx → BitVec 32) (ix2 1 e) := by
  rw [V_v3_eq]; exact rowVec_apply _ 1 _ 1 rfl e

theorem V_v16 (c : Dev nD) (e : Fin 6400000) :
    (V m c main_v16 : S6400000.Idx → EReal) (ix1 e)
      = Cert.Spec.endPos (m ((c : Thread nD τ).loc main_arg0)) (m ((c : Thread nD τ).loc main_arg1)) 0 e 0 := by
  rw [V_v16_eq]; exact endCoord_apply _ _ 0 0 _ _ 0 rfl 0 rfl e

theorem V_v23 (c : Dev nD) (e : Fin 6400000) :
    (V m c main_v23 : S6400000.Idx → EReal) (ix1 e)
      = Cert.Spec.endPos (m ((c : Thread nD τ).loc main_arg0)) (m ((c : Thread nD τ).loc main_arg1)) 0 e 1 := by
  rw [V_v23_eq]; exact endCoord_apply _ _ 0 1 _ _ 0 rfl 1 rfl e

theorem V_v30 (c : Dev nD) (e : Fin 6400000) :
    (V m c main_v30 : S6400000.Idx → EReal) (ix1 e)
      = Cert.Spec.endPos (m ((c : Thread nD τ).loc main_arg0)) (m ((c : Thread nD τ).loc main_arg1)) 0 e 2 := by
  rw [V_v30_eq]; exact endCoord_apply _ _ 0 2 _ _ 0 rfl 2 rfl e

theorem V_v37 (c : Dev nD) (e : Fin 6400000) :
    (V m c main_v37 : S6400000.Idx → EReal) (ix1 e)
      = Cert.Spec.endPos (m ((c : Thread nD τ).loc main_arg0)) (m ((c : Thread nD τ).loc main_arg1)) 1 e 0 := by
  rw [V_v37_eq]; exact endCoord_apply _ _ 1 0 _ _ 1 rfl 0 rfl e

theorem V_v44 (c : Dev nD) (e : Fin 6400000) :
    (V m c main_v44 : S6400000.Idx → EReal) (ix1 e)
      = Cert.Spec.endPos (m ((c : Thread nD τ).loc main_arg0)) (m ((c : Thread nD τ).loc main_arg1)) 1 e 1 := by
  rw [V_v44_eq]; exact endCoord_apply _ _ 1 1 _ _ 1 rfl 1 rfl e

theorem V_v51 (c : Dev nD) (e : Fin 6400000) :
    (V m c main_v51 : S6400000.Idx → EReal) (ix1 e)
      = Cert.Spec.endPos (m ((c : Thread nD τ).loc main_arg0)) (m ((c : Thread nD τ).loc main_arg1)) 1 e 2 := by
  rw [V_v51_eq]; exact endCoord_apply _ _ 1 2 _ _ 1 rfl 2 rfl e

end Cert.KernelIdeal.Head

end
-- ==== Proof.LibNary3.lean ====
import Idealize.ShloMosaic.Lib.StableHlo.Run

namespace Idealize.ShloMosaic.StableHlo

variable {nD : Nat} {τ : Topo} {sig : RefSig} {Val : EltTy → Type}

section

variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end

macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.LibRows.lean ====
import Idealize.ShloMosaic.PureOps.Ideal
import Idealize.ShloMosaic.Lib.ValueIdx

noncomputable section

open scoped BigOperators

namespace Cert.LibRows

open Idealize.ShloMosaic Idealize.ShloMosaic.ValueIdx

section RowGather
variable {α : Type}

abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>

    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>

    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

section RowScatter

abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

section VecScatter

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end VecScatter

end Cert.LibRows

end
-- ==== Proof.SumBlocks.lean ====
import Mathlib.Algebra.BigOperators.Fin
import Mathlib.Logic.Equiv.Fin.Basic

open scoped BigOperators

namespace Cert.Bridge

theorem digits_lt {a b p q : ℕ} (hp : p < a) (hq : q < b) : p * b + q < a * b :=
  calc p * b + q < p * b + b := Nat.add_lt_add_left hq _
    _ = (p + 1) * b := (Nat.succ_mul p b).symm
    _ ≤ a * b := Nat.mul_le_mul_right b hp

theorem sum_fin_mul {M : Type*} [AddCommMonoid M] (a b : ℕ) (f : Fin (a * b) → M) :
    ∑ i : Fin (a * b), f i
      = ∑ p : Fin a, ∑ q : Fin b, f ⟨p.val * b + q.val, digits_lt p.isLt q.isLt⟩ := by
  have h : ∀ x : Fin a × Fin b,
      f (finProdFinEquiv x) = f ⟨x.1.val * b + x.2.val, digits_lt x.1.isLt x.2.isLt⟩ := by
    intro x
    congr 1
    apply Fin.ext
    show x.2.val + b * x.1.val = x.1.val * b + x.2.val
    rw [Nat.mul_comm, Nat.add_comm]
  calc ∑ i : Fin (a * b), f i
      = ∑ x : Fin a × Fin b, f (finProdFinEquiv x) :=
        (Fintype.sum_equiv finProdFinEquiv _ _ (fun _ => rfl)).symm
    _ = ∑ x : Fin a × Fin b, f ⟨x.1.val * b + x.2.val, digits_lt x.1.isLt x.2.isLt⟩ :=
        Finset.sum_congr rfl (fun x _ => h x)
    _ = ∑ p : Fin a, ∑ q : Fin b, f ⟨p.val * b + q.val, digits_lt p.isLt q.isLt⟩ :=
        Fintype.sum_prod_type _

theorem sum_fin_eq_mul {M : Type*} [AddCommMonoid M] {n : ℕ} (a b : ℕ) (hn : a * b = n) (f : Fin n → M) :
    ∑ i : Fin n, f i
      = ∑ p : Fin a, ∑ q : Fin b, f ⟨p.val * b + q.val, hn ▸ digits_lt p.isLt q.isLt⟩ := by
  subst hn
  exact sum_fin_mul a b f

theorem sum_fin_eq_add {M : Type*} [AddCommMonoid M] {n : ℕ} (a b : ℕ) (hn : a + b = n) (f : Fin n → M) :
    ∑ i : Fin n, f i
      = (∑ p : Fin a, f ⟨p.val, hn ▸ Nat.lt_add_right b p.isLt⟩)
        + ∑ q : Fin b, f ⟨a + q.val, hn ▸ Nat.add_lt_add_left q.isLt a⟩ := by
  subst hn
  exact Fin.sum_univ_add f

theorem sum_edges_by_block {M : Type*} [AddCommMonoid M] (f : Fin 6400000 → M) :
    ∑ e : Fin 6400000, f e
      = ∑ t : Fin 50, ∑ l : Fin 128000,
          f ⟨t.val * 128000 + l.val, by have := t.isLt; have := l.isLt; omega⟩ :=
  sum_fin_eq_mul (n := 6400000) 50 128000 rfl f

theorem sum_steps_by_core {M : Type*} [AddCommMonoid M] (g : Fin 50 → M) :
    ∑ t : Fin 50, g t
      = ∑ c : Fin 2, ∑ s : Fin 25, g ⟨c.val * 25 + s.val, by have := c.isLt; have := s.isLt; omega⟩ :=
  sum_fin_eq_mul (n := 50) 2 25 rfl g

theorem sum_two_halves {M : Type*} [AddCommMonoid M] (f : Fin 12800000 → M) :
    ∑ p : Fin 12800000, f p
      = (∑ e : Fin 6400000, f ⟨e.val, by have := e.isLt; omega⟩)
        + ∑ e : Fin 6400000, f ⟨6400000 + e.val, by have := e.isLt; omega⟩ :=
  sum_fin_eq_add (n := 12800000) 6400000 6400000 rfl f

end Cert.Bridge
-- ==== Proof.LibAfter.lean ====
import Idealize.ShloMosaic.Lib.StableHlo.Run

noncomputable section

namespace Cert.Lib

open Idealize.ShloMosaic Idealize.ShloMosaic.StableHlo

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.Lib

end
-- ==== Proof.KI.Tail.lean ====
import proofs.«420260_j7687991460463_2_alg».proof.Proof.KI.Setup
import proofs.«420260_j7687991460463_2_alg».proof.Proof.Spec
import proofs.«420260_j7687991460463_2_alg».proof.Proof.LibNary3
import proofs.«420260_j7687991460463_2_alg».proof.Proof.LibRows
import proofs.«420260_j7687991460463_2_alg».proof.Proof.SumBlocks
import proofs.«420260_j7687991460463_2_alg».proof.Proof.LibAfter
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws
import Idealize.ShloMosaic.Lib.Pipeline.FrameSuffix

noncomputable section
open scoped BigOperators

namespace Cert.KernelIdeal.Tail

open Cert.KernelIdeal Cert.KernelIdeal.Gen Cert.KernelIdeal.Frame
open Idealize.ShloMosaic Idealize.ShloMosaic.TcCoe Idealize.ShloMosaic.ValueIdx Idealize.ShloMosaic.StableHlo

def idxEquiv311 {n : Nat} : (⟨3, ![n, 1, 1]⟩ : Shape).Idx ≃ Fin n where
  toFun i := i 0
  invFun k := ix3 k 0 0
  left_inv i := by
    funext d
    match d with
    | ⟨0, _⟩ => rfl
    | ⟨1, _⟩ => exact Fin.ext (by have h := (i 1).isLt; change (i 1).val < 1 at h; change 0 = (i 1).val; omega)
    | ⟨2, _⟩ => exact Fin.ext (by have h := (i 2).isLt; change (i 2).val < 1 at h; change 0 = (i 2).val; omega)
  right_inv _ := rfl

theorem sum_idx311 {M : Type*} [AddCommMonoid M] {n : Nat} (f : (⟨3, ![n, 1, 1]⟩ : Shape).Idx → M) :
    ∑ i, f i = ∑ k : Fin n, f (ix3 k 0 0) := by
  rw [← Equiv.sum_comp (idxEquiv311 (n := n)).symm f]
  rfl

theorem reduceAll_zero {n : Nat} (x : FVec Ideal ⟨3, ![n, 1, 1]⟩ .f32)
    (h : (⟨3, ![n, 1, 1]⟩ : Shape).ReducesTo [0, 1, 2] ⟨0, ![]⟩) (hu : 0 < (⟨0, ![]⟩ : Shape).numel) (j : (⟨0, ![]⟩ : Shape).Idx) :
    Host.reduceAdd (F := Ideal) x (constant (F := Ideal) ⟨0, ![]⟩ .f32 0x00000000#32) h hu j = ∑ k : Fin n, x (ix3 k 0 0) := by
  unfold Host.reduceAdd
  rw [Ideal.hostReduceAdd_def, Ideal.hostReduceAdd_total h (fun b => b.elim0), constant_apply, Ideal.ofBits_zero_f32, zero_add,
    sum_idx311]

theorem reduceFirst_zero (x : FVec Ideal ⟨3, ![2, 3, 3]⟩ .f32)
    (h : (⟨3, ![2, 3, 3]⟩ : Shape).ReducesTo [0] ⟨2, ![3, 3]⟩) (hu : 0 < (⟨0, ![]⟩ : Shape).numel) (a b : Fin 3) :
    Host.reduceAdd (F := Ideal) x (constant (F := Ideal) ⟨0, ![]⟩ .f32 0x00000000#32) h hu (ix2 a b) = ∑ k : Fin 2, x (ix3 k a b) := by
  unfold Host.reduceAdd
  have hr : (⟨3, ![2, 3, 3]⟩ : Shape).Reduces [0] ⟨2, ![3, 3]⟩ := by decide
  rw [Ideal.hostReduceAdd_def, Ideal.hostReduceAdd_single h hr, constant_apply, Ideal.ofBits_zero_f32, zero_add]
  refine Finset.sum_congr rfl fun k _ => ?_
  congr 1
  funext d
  match d with
  | ⟨0, _⟩ => rfl
  | ⟨1, _⟩ => rfl
  | ⟨2, _⟩ => rfl

section Layout
variable {α : Type}

theorem col_apply {e : Nat} (x : (⟨1, ![e]⟩ : Shape).Idx → α)
    (hb : (⟨1, ![e]⟩ : Shape).BroadcastsInDim ⟨2, ![e, 1]⟩ (![0] : Fin 1 → Fin 2)) (p : Fin e) (z : Fin 1) :
    broadcastInDim ⟨2, ![e, 1]⟩ ![0] hb x (ix2 p z) = x (ix1 p) := by
  unfold broadcastInDim
  congr 1
  funext a
  match a with
  | ⟨0, _⟩ =>
    apply Fin.ext
    dsimp only
    split
    · rename_i h1
      have he : e = 1 := h1
      have := p.isLt
      show 0 = p.val
      omega
    · rfl

theorem splat_apply {t : Shape} (x : (⟨0, ![]⟩ : Shape).Idx → α)
    (hb : (⟨0, ![]⟩ : Shape).BroadcastsInDim t (![] : Fin 0 → Fin t.rank)) (j : t.Idx) :
    broadcastInDim t ![] hb x j = x ix0 := by
  unfold broadcastInDim
  congr 1
  funext a
  exact a.elim0

theorem stack3_apply {e : Nat} (u0 u1 u2 : (⟨2, ![e, 1]⟩ : Shape).Idx → α)
    (hc : Shape.Concatenates [(⟨2, ![e, 1]⟩ : Shape), ⟨2, ![e, 1]⟩, ⟨2, ![e, 1]⟩] ⟨2, ![e, 3]⟩ 1)
    (p : Fin e) (q : Fin 3) :
    concatenate ⟨2, ![e, 3]⟩ 1 [⟨⟨2, ![e, 1]⟩, u0⟩, ⟨⟨2, ![e, 1]⟩, u1⟩, ⟨⟨2, ![e, 1]⟩, u2⟩] hc (ix2 p q)
      = (![u0, u1, u2] q) (ix2 p 0) := by
  have key : ∀ (k : Nat) (hk : k < 3) (uk : (⟨2, ![e, 1]⟩ : Shape).Idx → α),
      ([(⟨⟨2, ![e, 1]⟩, u0⟩ : (s : Shape) × (s.Idx → α)), ⟨⟨2, ![e, 1]⟩, u1⟩, ⟨⟨2, ![e, 1]⟩, u2⟩])[k]'hk = ⟨⟨2, ![e, 1]⟩, uk⟩ →
      q.val = k →
      concatenate ⟨2, ![e, 3]⟩ 1 [⟨⟨2, ![e, 1]⟩, u0⟩, ⟨⟨2, ![e, 1]⟩, u1⟩, ⟨⟨2, ![e, 1]⟩, u2⟩] hc (ix2 p q) = uk (ix2 p 0) := by
    intro k hk uk hxk hq
    refine concatenate_apply_piece (t := ⟨2, ![e, 3]⟩) (1 : Fin 2)
      [⟨⟨2, ![e, 1]⟩, u0⟩, ⟨⟨2, ![e, 1]⟩, u1⟩, ⟨⟨2, ![e, 1]⟩, u2⟩]
      hc (ix2 p q) k hk ⟨2, ![e, 1]⟩ _ hxk rfl k ?_ (ix2 p 0) ?_ ?_
    · interval_cases k <;> rfl
    · intro b hb'
      match b with
      | ⟨0, _⟩ => rfl
      | ⟨1, _⟩ => exact absurd rfl hb'
    · show k + 0 = q.val
      omega
  match q with
  | ⟨0, _⟩ => exact key 0 (by decide) u0 rfl rfl
  | ⟨1, _⟩ => exact key 1 (by decide) u1 rfl rfl
  | ⟨2, _⟩ => exact key 2 (by decide) u2 rfl rfl

theorem pick3 {β γ : Type} (u0 u1 u2 : β → α) (x0 x1 x2 : γ → α) (b : β) (g : γ)
    (h0 : u0 b = x0 g) (h1 : u1 b = x1 g) (h2 : u2 b = x2 g) (q : Fin 3) :
    (![u0, u1, u2] q) b = (![x0, x1, x2] q) g := by
  match q with
  | ⟨0, _⟩ => exact h0
  | ⟨1, _⟩ => exact h1
  | ⟨2, _⟩ => exact h2

theorem join1_left {a b n : Nat} (x : (⟨1, ![a]⟩ : Shape).Idx → α) (y : (⟨1, ![b]⟩ : Shape).Idx → α)
    (h : Shape.Concatenates [(⟨1, ![a]⟩ : Shape), ⟨1, ![b]⟩] ⟨1, ![n]⟩ 0) (k : Fin n) (p : Fin a) (hk : k.val = p.val) :
    concatenate ⟨1, ![n]⟩ 0 [⟨⟨1, ![a]⟩, x⟩, ⟨⟨1, ![b]⟩, y⟩] h (ix1 k) = x (ix1 p) :=
  concatenate_pair_apply_left (0 : Fin 1) x y h (ix1 k) rfl (ix1 p) (fun d => by
    match d with
    | ⟨0, _⟩ => exact hk.symm)

theorem join1_right {a b n : Nat} (x : (⟨1, ![a]⟩ : Shape).Idx → α) (y : (⟨1, ![b]⟩ : Shape).Idx → α)
    (h : Shape.Concatenates [(⟨1, ![a]⟩ : Shape), ⟨1, ![b]⟩] ⟨1, ![n]⟩ 0) (k : Fin n) (p : Fin b) (hk : k.val = a + p.val) :
    concatenate ⟨1, ![n]⟩ 0 [⟨⟨1, ![a]⟩, x⟩, ⟨⟨1, ![b]⟩, y⟩] h (ix1 k) = y (ix1 p) :=
  concatenate_pair_apply_right (0 : Fin 1) x y h (ix1 k) rfl rfl (ix1 p) (fun d hd => by
    match d with
    | ⟨0, _⟩ => exact absurd rfl hd) (by show p.val + a = k.val; omega)

theorem join2_left {a b n w : Nat} (x : (⟨2, ![a, w]⟩ : Shape).Idx → α) (y : (⟨2, ![b, w]⟩ : Shape).Idx → α)
    (h : Shape.Concatenates [(⟨2, ![a, w]⟩ : Shape), ⟨2, ![b, w]⟩] ⟨2, ![n, w]⟩ 0) (k : Fin n) (p : Fin a) (hk : k.val = p.val)
    (q : Fin w) :
    concatenate ⟨2, ![n, w]⟩ 0 [⟨⟨2, ![a, w]⟩, x⟩, ⟨⟨2, ![b, w]⟩, y⟩] h (ix2 k q) = x (ix2 p q) :=
  concatenate_pair_apply_left (0 : Fin 2) x y h (ix2 k q) rfl (ix2 p q) (fun d => by
    match d with
    | ⟨0, _⟩ => exact hk.symm
    | ⟨1, _⟩ => rfl)

theorem join2_right {a b n w : Nat} (x : (⟨2, ![a, w]⟩ : Shape).Idx → α) (y : (⟨2, ![b, w]⟩ : Shape).Idx → α)
    (h : Shape.Concatenates [(⟨2, ![a, w]⟩ : Shape), ⟨2, ![b, w]⟩] ⟨2, ![n, w]⟩ 0) (k : Fin n) (p : Fin b) (hk : k.val = a + p.val)
    (q : Fin w) :
    concatenate ⟨2, ![n, w]⟩ 0 [⟨⟨2, ![a, w]⟩, x⟩, ⟨⟨2, ![b, w]⟩, y⟩] h (ix2 k q) = y (ix2 p q) :=
  concatenate_pair_apply_right (0 : Fin 2) x y h (ix2 k q) rfl rfl (ix2 p q) (fun d hd => by
    match d with
    | ⟨0, _⟩ => exact absurd rfl hd
    | ⟨1, _⟩ => rfl) (by show p.val + a = k.val; omega)

end Layout

theorem wrap_apply {s : Shape} (x : IVec s 32)
    (hb : (⟨0, ![]⟩ : Shape).BroadcastsInDim s (![] : Fin 0 → Fin s.rank)) (j : s.Idx) :
    select (cmpi .slt x (broadcastInDim s ![] hb (constantI ⟨0, ![]⟩ 32 0#32)))
        (addi x (broadcastInDim s ![] hb (constantI ⟨0, ![]⟩ 32 100000#32))) x j
      = Cert.Spec.wrap (x j) := by
  show Scalar.select (IntOp.cmpi .slt (x j) 0#32) (IntOp.addi (x j) 100000#32) (x j) = _
  unfold Scalar.select IntOp.cmpi IntOp.addi Cert.Spec.wrap
  have h0 : (0#32 : BitVec 32).toInt = 0 := by decide
  by_cases h : (x j).toInt < 0
  · have hs : (x j).slt 0#32 = true := by rw [BitVec.slt, h0]; exact decide_eq_true h
    rw [if_pos h]
    show (if BitVec.ofBool ((x j).slt 0#32) = 1 then _ else _) = _
    rw [hs]
    rfl
  · have hs : (x j).slt 0#32 = false := by rw [BitVec.slt, h0]; exact decide_eq_false h
    rw [if_neg h]
    show (if BitVec.ofBool ((x j).slt 0#32) = 1 then _ else _) = _
    rw [hs]
    rfl

theorem hostNegf_apply {s : Shape} (x : FVec Ideal s .f32) (j : s.Idx) : Host.negf (F := Ideal) (φ := .f32) x j = -(x j) := rfl

open Cert.LibRows in

theorem scatter_rows
    (wf : ScatterDims.WF ⟨2, ![100000, 3]⟩ ⟨2, ![12800000, 1]⟩ ⟨2, ![12800000, 3]⟩ [1] [0] [0] 1)
    (hbz : (⟨0, ![]⟩ : Shape).BroadcastsInDim ⟨2, ![100000, 3]⟩ (![] : Fin 0 → Fin 2))
    (hbi : (⟨1, ![12800000]⟩ : Shape).BroadcastsInDim ⟨2, ![12800000, 1]⟩ (![0] : Fin 1 → Fin 2))
    (hb0 : (⟨0, ![]⟩ : Shape).BroadcastsInDim ⟨1, ![12800000]⟩ (![] : Fin 0 → Fin 1))
    (hcI : Shape.Concatenates [(⟨1, ![6400000]⟩ : Shape), ⟨1, ![6400000]⟩] ⟨1, ![12800000]⟩ 0)
    (hc3 : Shape.Concatenates [(⟨2, ![6400000, 1]⟩ : Shape), ⟨2, ![6400000, 1]⟩, ⟨2, ![6400000, 1]⟩] ⟨2, ![6400000, 3]⟩ 1)
    (hcU : Shape.Concatenates [(⟨2, ![6400000, 3]⟩ : Shape), ⟨2, ![6400000, 3]⟩] ⟨2, ![12800000, 3]⟩ 0)
    (w1 w3 : (⟨1, ![6400000]⟩ : Shape).Idx → BitVec 32) (u0 u1 u2 : (⟨2, ![6400000, 1]⟩ : Shape).Idx → EReal)
    (n : Fin 100000) (q : Fin 3) :
    Host.scatterAdd (F := Ideal) (φ := .f32) (rowScatterDims 100000 12800000 3 wf)
        (broadcastInDim ⟨2, ![100000, 3]⟩ ![] hbz (constant (F := Ideal) ⟨0, ![]⟩ .f32 0x00000000#32))
        (broadcastInDim ⟨2, ![12800000, 1]⟩ ![0] hbi
          (select
            (cmpi .slt (concatenate ⟨1, ![12800000]⟩ 0 [⟨⟨1, ![6400000]⟩, w1⟩, ⟨⟨1, ![6400000]⟩, w3⟩] hcI)
              (broadcastInDim ⟨1, ![12800000]⟩ ![] hb0 (constantI ⟨0, ![]⟩ 32 0#32)))
            (addi (concatenate ⟨1, ![12800000]⟩ 0 [⟨⟨1, ![6400000]⟩, w1⟩, ⟨⟨1, ![6400000]⟩, w3⟩] hcI)
              (broadcastInDim ⟨1, ![12800000]⟩ ![] hb0 (constantI ⟨0, ![]⟩ 32 100000#32)))
            (concatenate ⟨1, ![12800000]⟩ 0 [⟨⟨1, ![6400000]⟩, w1⟩, ⟨⟨1, ![6400000]⟩, w3⟩] hcI)))
        (concatenate ⟨2, ![12800000, 3]⟩ 0
          [⟨⟨2, ![6400000, 3]⟩,
              concatenate ⟨2, ![6400000, 3]⟩ 1 [⟨⟨2, ![6400000, 1]⟩, u0⟩, ⟨⟨2, ![6400000, 1]⟩, u1⟩, ⟨⟨2, ![6400000, 1]⟩, u2⟩] hc3⟩,
            ⟨⟨2, ![6400000, 3]⟩,
              Host.negf (F := Ideal) (φ := .f32)
                (concatenate ⟨2, ![6400000, 3]⟩ 1 [⟨⟨2, ![6400000, 1]⟩, u0⟩, ⟨⟨2, ![6400000, 1]⟩, u1⟩, ⟨⟨2, ![6400000, 1]⟩, u2⟩] hc3)⟩]
          hcU)
        (ix2 n q)
      = (∑ e : Fin 6400000, if (Cert.Spec.wrap (w1 (ix1 e))).toInt = (n.val : Int) then (![u0, u1, u2] q) (ix2 e 0) else 0)
        + ∑ e : Fin 6400000, if (Cert.Spec.wrap (w3 (ix1 e))).toInt = (n.val : Int) then -((![u0, u1, u2] q) (ix2 e 0)) else 0 := by
  refine (rowScatterAdd_apply wf _ _ _ n q).trans ?_
  rw [splat_apply, constant_apply, Ideal.ofBits_zero_f32, zero_add, Cert.Bridge.sum_two_halves]
  refine congrArg₂ (· + ·) (Finset.sum_congr rfl fun e _ => ?_) (Finset.sum_congr rfl fun e _ => ?_)
  ·
    rw [col_apply, wrap_apply, join1_left w1 w3 hcI _ e rfl, join2_left _ _ hcU _ e rfl q, stack3_apply]
  ·
    rw [col_apply, wrap_apply, join1_right w1 w3 hcI _ e rfl, join2_right _ _ hcU _ e rfl q]
    rw [hostNegf_apply, stack3_apply]

abbrev opsA : List (HloOp τ sig (Elt Ideal)) := (hostOps1 (F := Ideal)).take 9

abbrev opsB : List (HloOp τ sig (Elt Ideal)) := (hostOps1 (F := Ideal)).drop 9

theorem after_split (G : Valuation τ sig (Elt Ideal)) :
    StableHlo.after hostOps1 G = StableHlo.after opsB (StableHlo.after opsA G) := by
  rw [← Cert.Lib.after_append, List.take_append_drop]

theorem opsA_v1 (G : Valuation τ sig (Elt Ideal)) :
    StableHlo.after opsA G (Proc.devRef .tc main_v1) = G (Proc.devRef .tc main_v1) := by
  simp only [opsA, hostOps1, List.take_succ_cons, List.take_zero]
  after_results
theorem opsA_v3 (G : Valuation τ sig (Elt Ideal)) :
    StableHlo.after opsA G (Proc.devRef .tc main_v3) = G (Proc.devRef .tc main_v3) := by
  simp only [opsA, hostOps1, List.take_succ_cons, List.take_zero]
  after_results

theorem opsA_v56 (G : Valuation τ sig (Elt Ideal)) :
    StableHlo.after opsA G (Proc.devRef .tc main_v56)
      = broadcastInDim S6400000x1 ![0] bcast_S6400000_S6400000x1_0 (G (Proc.devRef .tc main_v52_0)) := by
  simp only [opsA, hostOps1, List.take_succ_cons, List.take_zero]
  after_results
theorem opsA_v57 (G : Valuation τ sig (Elt Ideal)) :
    StableHlo.after opsA G (Proc.devRef .tc main_v57)
      = broadcastInDim S6400000x1 ![0] bcast_S6400000_S6400000x1_0 (G (Proc.devRef .tc main_v52_1)) := by
  simp only [opsA, hostOps1, List.take_succ_cons, List.take_zero]
  after_results
theorem opsA_v58 (G : Valuation τ sig (Elt Ideal)) :
    StableHlo.after opsA G (Proc.devRef .tc main_v58)
      = broadcastInDim S6400000x1 ![0] bcast_S6400000_S6400000x1_0 (G (Proc.devRef .tc main_v52_2)) := by
  simp only [opsA, hostOps1, List.take_succ_cons, List.take_zero]
  after_results

abbrev rd1 (G : Valuation τ sig (Elt Ideal)) : S6400000.Idx → BitVec 32 := G (Proc.devRef .tc main_v1)
abbrev rd3 (G : Valuation τ sig (Elt Ideal)) : S6400000.Idx → BitVec 32 := G (Proc.devRef .tc main_v3)
abbrev rd56 (G : Valuation τ sig (Elt Ideal)) : S6400000x1.Idx → EReal := G (Proc.devRef .tc main_v56)
abbrev rd57 (G : Valuation τ sig (Elt Ideal)) : S6400000x1.Idx → EReal := G (Proc.devRef .tc main_v57)
abbrev rd58 (G : Valuation τ sig (Elt Ideal)) : S6400000x1.Idx → EReal := G (Proc.devRef .tc main_v58)

set_option maxHeartbeats 4000000 in

theorem opsB_v70 (G : Valuation τ sig (Elt Ideal)) (n : Fin 100000) (q : Fin 3) :
    StableHlo.after opsB G (Proc.devRef .tc main_v70) (ix2 n q)
      = (∑ e : Fin 6400000, if (Cert.Spec.wrap (rd1 G (ix1 e))).toInt = (n.val : Int) then (![rd56 G, rd57 G, rd58 G] q) (ix2 e 0) else 0)
        + ∑ e : Fin 6400000, if (Cert.Spec.wrap (rd3 G (ix1 e))).toInt = (n.val : Int) then -((![rd56 G, rd57 G, rd58 G] q) (ix2 e 0)) else 0 := by
  simp only [opsB, hostOps1, List.drop_succ_cons, List.drop_zero, after_cons, after_nil]
  repeat (first
    | rw [nullary_result] | rw [unary_result] | rw [binary_result] | rw [ternary_result]
    | rw [nary3_result]
    | (rw [nullary_result_ne]; rotate_left; decide)
    | (rw [unary_result_ne]; rotate_left; decide)
    | (rw [binary_result_ne]; rotate_left; decide)
    | (rw [ternary_result_ne]; rotate_left; decide)
    | (rw [nary_result_ne]; rotate_left; decide))
  refine (scatter_rows scatter_S100000x3_S12800000x1_S12800000x3_1_0_0_1_wf _ _ _ _ _ _
    (rd1 G) (rd3 G) _ _ _ n q).trans ?_
  refine congrArg₂ (· + ·) (Finset.sum_congr rfl fun e _ => ?_) (Finset.sum_congr rfl fun e _ => ?_)
  · refine ite_congr rfl (fun _ => ?_) (fun _ => rfl)
    match q with
    | ⟨0, _⟩ => rfl
    | ⟨1, _⟩ => rfl
    | ⟨2, _⟩ => rfl
  · refine ite_congr rfl (fun _ => congrArg Neg.neg ?_) (fun _ => rfl)
    match q with
    | ⟨0, _⟩ => rfl
    | ⟨1, _⟩ => rfl
    | ⟨2, _⟩ => rfl

variable (m : (ℓ : Loc nD τ sig) → Buf (Elt Ideal) ℓ)
variable (dats : (p : Fin 1) → (c : Dev nD) → Pipeline.Dat τ (Elt Ideal) Unit ℕ (UR sig nD τ) ℕ (cfgs p) c)

abbrev arr8 (c : Dev nD) : S6400000.Idx → EReal := (dats 0 c).arrAt 8 cfg0.N
abbrev arr9 (c : Dev nD) : S6400000.Idx → EReal := (dats 0 c).arrAt 9 cfg0.N
abbrev arr10 (c : Dev nD) : S6400000.Idx → EReal := (dats 0 c).arrAt 10 cfg0.N
abbrev arr11 (c : Dev nD) : S2x1x1.Idx → EReal := (dats 0 c).arrAt 11 cfg0.N
abbrev arr12 (c : Dev nD) : S2x1x1.Idx → EReal := (dats 0 c).arrAt 12 cfg0.N
abbrev arr13 (c : Dev nD) : S2x3x3.Idx → EReal := (dats 0 c).arrAt 13 cfg0.N

theorem tail_v53 (c : Dev nD) :
    Pipeline.afterTail₀ cfgs dats 0 (V0 m) [hostOps1] c main_v53 = fun _ => ∑ k : Fin 2, arr11 dats c (ix3 k 0 0) := by
  unfold Pipeline.afterTail₀
  show StableHlo.after hostOps1 _ (Proc.devRef .tc main_v53) = _
  after_results
  rw [show Pipeline.withArrays (cfgs 0).spec c (V0 m c) (fun w => (dats 0 c).arrAt w (cfgs 0).N) (Proc.devRef .tc main_v52_3) = arr11 dats c
    from Pipeline.withArrays_arr spec0 launch0.win.arr_inj c _ _ 11]
  funext j
  exact reduceAll_zero (arr11 dats c) _ _ j

theorem tail_v54 (c : Dev nD) :
    Pipeline.afterTail₀ cfgs dats 0 (V0 m) [hostOps1] c main_v54 = fun _ => ∑ k : Fin 2, arr12 dats c (ix3 k 0 0) := by
  unfold Pipeline.afterTail₀
  show StableHlo.after hostOps1 _ (Proc.devRef .tc main_v54) = _
  after_results
  rw [show Pipeline.withArrays (cfgs 0).spec c (V0 m c) (fun w => (dats 0 c).arrAt w (cfgs 0).N) (Proc.devRef .tc main_v52_4) = arr12 dats c
    from Pipeline.withArrays_arr spec0 launch0.win.arr_inj c _ _ 12]
  funext j
  exact reduceAll_zero (arr12 dats c) _ _ j

theorem tail_v55 (c : Dev nD) (a b : Fin 3) :
    Pipeline.afterTail₀ cfgs dats 0 (V0 m) [hostOps1] c main_v55 (ix2 a b) = ∑ k : Fin 2, arr13 dats c (ix3 k a b) := by
  unfold Pipeline.afterTail₀
  show StableHlo.after hostOps1 _ (Proc.devRef .tc main_v55) (ix2 a b) = _
  after_results
  rw [show Pipeline.withArrays (cfgs 0).spec c (V0 m c) (fun w => (dats 0 c).arrAt w (cfgs 0).N) (Proc.devRef .tc main_v52_5) = arr13 dats c
    from Pipeline.withArrays_arr spec0 launch0.win.arr_inj c _ _ 13]
  exact reduceFirst_zero (arr13 dats c) _ _ a b

abbrev W0 (c : Dev nD) : Valuation τ sig (Elt Ideal) :=
  Pipeline.withArrays (cfgs 0).spec c (V0 m c) fun w => (dats 0 c).arrAt w (cfgs 0).N

theorem W0_v52_0 (c : Dev nD) : W0 m dats c (Proc.devRef .tc main_v52_0) = arr8 dats c :=
  Pipeline.withArrays_arr spec0 launch0.win.arr_inj c _ _ 8
theorem W0_v52_1 (c : Dev nD) : W0 m dats c (Proc.devRef .tc main_v52_1) = arr9 dats c :=
  Pipeline.withArrays_arr spec0 launch0.win.arr_inj c _ _ 9
theorem W0_v52_2 (c : Dev nD) : W0 m dats c (Proc.devRef .tc main_v52_2) = arr10 dats c :=
  Pipeline.withArrays_arr spec0 launch0.win.arr_inj c _ _ 10
theorem W0_v1 (c : Dev nD) : W0 m dats c (Proc.devRef .tc main_v1) = V m c main_v1 :=
  Pipeline.withArrays_of_ne _ c (V0 m c) _ main_v1 (by exact (by decide : ∀ w, Pipeline.arrRef spec0 w ≠ main_v1))
theorem W0_v3 (c : Dev nD) : W0 m dats c (Proc.devRef .tc main_v3) = V m c main_v3 :=
  Pipeline.withArrays_of_ne _ c (V0 m c) _ main_v3 (by exact (by decide : ∀ w, Pipeline.arrRef spec0 w ≠ main_v3))

theorem tail_v70 (c : Dev nD) {ei : Cert.Spec.SEdges.Idx → BitVec 32}
    (hv1 : ∀ e : Fin 6400000, (V m c main_v1 : S6400000.Idx → BitVec 32) (ix1 e) = ei (ix2 0 e))
    (hv3 : ∀ e : Fin 6400000, (V m c main_v3 : S6400000.Idx → BitVec 32) (ix1 e) = ei (ix2 1 e))
    (n : Fin 100000) (q : Fin 3) :
    Pipeline.afterTail₀ cfgs dats 0 (V0 m) [hostOps1] c main_v70 (ix2 n q)
      = (∑ e : Fin 6400000, if (Cert.Spec.endWord ei 0 e).toInt = (n.val : Int) then (![arr8 dats c, arr9 dats c, arr10 dats c] q) (ix1 e) else 0)
        + ∑ e : Fin 6400000, if (Cert.Spec.endWord ei 1 e).toInt = (n.val : Int) then -((![arr8 dats c, arr9 dats c, arr10 dats c] q) (ix1 e)) else 0 := by
  unfold Pipeline.afterTail₀
  show StableHlo.after hostOps1 (W0 m dats c) (Proc.devRef .tc main_v70) (ix2 n q) = _
  rw [after_split, opsB_v70]
  have hF : ∀ e : Fin 6400000,
      (![rd56 (StableHlo.after opsA (W0 m dats c)), rd57 (StableHlo.after opsA (W0 m dats c)), rd58 (StableHlo.after opsA (W0 m dats c))] q) (ix2 e 0)
        = (![arr8 dats c, arr9 dats c, arr10 dats c] q) (ix1 e) := fun e =>
    pick3 _ _ _ (arr8 dats c) (arr9 dats c) (arr10 dats c) (ix2 e 0) (ix1 e)
      (by show StableHlo.after opsA (W0 m dats c) (Proc.devRef .tc main_v56) (ix2 e 0) = _; rw [opsA_v56, W0_v52_0]; exact col_apply (arr8 dats c) _ e 0)
      (by show StableHlo.after opsA (W0 m dats c) (Proc.devRef .tc main_v57) (ix2 e 0) = _; rw [opsA_v57, W0_v52_1]; exact col_apply (arr9 dats c) _ e 0)
      (by show StableHlo.after opsA (W0 m dats c) (Proc.devRef .tc main_v58) (ix2 e 0) = _; rw [opsA_v58, W0_v52_2]; exact col_apply (arr10 dats c) _ e 0) q
  refine congrArg₂ (· + ·) (Finset.sum_congr rfl fun e _ => ?_) (Finset.sum_congr rfl fun e _ => ?_)
  · rw [hF e]
    show (if (Cert.Spec.wrap (StableHlo.after opsA (W0 m dats c) (Proc.devRef .tc main_v1) (ix1 e))).toInt = (n.val : Int) then _ else _) = _
    rw [opsA_v1, W0_v1, hv1 e]; rfl
  · rw [hF e]
    show (if (Cert.Spec.wrap (StableHlo.after opsA (W0 m dats c) (Proc.devRef .tc main_v3) (ix1 e))).toInt = (n.val : Int) then _ else _) = _
    rw [opsA_v3, W0_v3, hv3 e]; rfl

end Cert.KernelIdeal.Tail
end
-- ==== Proof.KI.Payload.lean ====
import proofs.«420260_j7687991460463_2_alg».proof.Proof.Gen.KernelIdeal.Skeleton
import proofs.«420260_j7687991460463_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

def invDenom : EReal := Named.named (F := Ideal) Cert.KernelIdeal.κ "inv_denom" (φ := .f32) 0x41A00000#32

def disp (a b : EReal) : EReal :=
  (a - b) - Ideal.ofBits .f32 0x3F800000#32
    * Ideal.liftRound Ideal.roundHalfEven ((a - b) * Ideal.ofBits .f32 0x3F800000#32)

def dist (rx ry rz : EReal) : EReal :=
  Ideal.sqrt (max ((rx * rx + ry * ry) + rz * rz) (Ideal.ofBits .f32 0x179ABE15#32))

def invr (d : EReal) : EReal := Ideal.div (Ideal.ofBits .f32 0x3F800000#32) d

def s6 (sig ir : EReal) : EReal :=
  (((sig * ir) * (sig * ir)) * (sig * ir)) * (((sig * ir) * (sig * ir)) * (sig * ir))

def s12 (sig ir : EReal) : EReal := s6 sig ir * s6 sig ir

def uraw (eps sig ir : EReal) : EReal :=
  (Ideal.ofBits .f32 0x40800000#32 * eps) * (s12 sig ir - s6 sig ir)

def fraw (eps sig ir : EReal) : EReal :=
  ((Ideal.ofBits .f32 0x41C00000#32 * eps) * ir) * (Ideal.ofBits .f32 0x40000000#32 * s12 sig ir - s6 sig ir)

def xc (d : EReal) : EReal :=
  min (Ideal.ofBits .f32 0x3F800000#32)
    (max (Ideal.ofBits .f32 0x00000000#32) ((d - Ideal.ofBits .f32 0x3EE66666#32) * invDenom))

def spoly (x : EReal) : EReal :=
  ((Ideal.ofBits .f32 0x3F800000#32 - Ideal.ofBits .f32 0x41200000#32 * ((x * x) * x))
      + Ideal.ofBits .f32 0x41700000#32 * (((x * x) * x) * x))
    - Ideal.ofBits .f32 0x40C00000#32 * ((((x * x) * x) * x) * x)

def dspoly (x : EReal) : EReal :=
  ((Ideal.ofBits .f32 0xC1F00000#32 * (x * x) + Ideal.ofBits .f32 0x42700000#32 * ((x * x) * x))
      - Ideal.ofBits .f32 0x41F00000#32 * (((x * x) * x) * x)) * invDenom

def inband (d : EReal) : BitVec 1 :=
  IntOp.andi (Ideal.cmp .ogt d (Ideal.ofBits .f32 0x3EE66666#32)) (Ideal.cmp .olt d (Ideal.ofBits .f32 0x3F000000#32))

def sw (d : EReal) : EReal :=
  if Ideal.cmp .ole d (Ideal.ofBits .f32 0x3EE66666#32) = 1 then Ideal.ofBits .f32 0x3F800000#32
  else if inband d = 1 then spoly (xc d) else Ideal.ofBits .f32 0x00000000#32

def dsw (d : EReal) : EReal :=
  if inband d = 1 then dspoly (xc d) else Ideal.ofBits .f32 0x00000000#32

def mask (d : EReal) : EReal :=
  if Ideal.cmp .olt d (Ideal.ofBits .f32 0x3F000000#32) = 1 then 1 else 0

def fmag (eps sig d : EReal) : EReal :=
  (fraw eps sig (invr d) * sw d - uraw eps sig (invr d) * dsw d) * mask d

def rvec (pi pj : Fin 3 → EReal) : Fin 3 → EReal := fun q => disp (pi q) (pj q)

def dOf (pi pj : Fin 3 → EReal) : EReal := dist (rvec pi pj 0) (rvec pi pj 1) (rvec pi pj 2)

def kedge (pi pj : Fin 3 → EReal) (eps sig : EReal) : Cert.Spec.Edge where
  u := (uraw eps sig (invr (dOf pi pj)) * sw (dOf pi pj)) * mask (dOf pi pj)
  w := (fmag eps sig (dOf pi pj) * dOf pi pj) * mask (dOf pi pj)
  f := fun q => fmag eps sig (dOf pi pj) * (rvec pi pj q * invr (dOf pi pj))
  r := rvec pi pj

section Lane

variable (j : S128000.Idx)

theorem pay8_apply (a b : Vec Ideal S128000 .f32) : k0_pay8 a b j = disp (a j) (b j) := by
  unfold k0_pay8
  simp only [shapeCast_self]
  rfl

theorem pay9_apply (a b : Vec Ideal S128000 .f32) : k0_pay9 a b j = disp (a j) (b j) := by
  unfold k0_pay9
  simp only [shapeCast_self]
  rfl

theorem pay10_apply (a b : Vec Ideal S128000 .f32) : k0_pay10 a b j = disp (a j) (b j) := by
  unfold k0_pay10
  simp only [shapeCast_self]
  rfl

theorem pay11_apply (a0 a1 b0 b1 : Vec Ideal S128000 .f32) :
    k0_pay11 a0 a1 b0 b1 j = disp (a0 j) (b0 j) * disp (a0 j) (b0 j) + disp (a1 j) (b1 j) * disp (a1 j) (b1 j) := by
  unfold k0_pay11
  simp only [mulf_apply, addf_apply, pay8_apply, pay9_apply]

theorem pay12_apply (rz r2 : FVec Ideal S128000 .f32) :
    k0_pay12 rz r2 j = Ideal.sqrt (max (r2 j + rz j * rz j) (Ideal.ofBits .f32 0x179ABE15#32)) := rfl

theorem pay13_apply (rz r2 : FVec Ideal S128000 .f32) : k0_pay13 rz r2 j = invr (k0_pay12 rz r2 j) := rfl

theorem pay16_apply (eps sig : Vec Ideal S128000 .f32) (rz r2 : FVec Ideal S128000 .f32) :
    k0_pay16 eps sig rz r2 j = uraw (eps j) (sig j) (k0_pay13 rz r2 j) := rfl

theorem pay17_apply (eps sig : Vec Ideal S128000 .f32) (rz r2 : FVec Ideal S128000 .f32) :
    k0_pay17 eps sig rz r2 j = fraw (eps j) (sig j) (k0_pay13 rz r2 j) := rfl

theorem pay19_apply (rz r2 : FVec Ideal S128000 .f32) :
    k0_pay19 rz r2 j = xc (k0_pay12 rz r2 j) * xc (k0_pay12 rz r2 j) := rfl
theorem pay20_apply (rz r2 : FVec Ideal S128000 .f32) :
    k0_pay20 rz r2 j = (xc (k0_pay12 rz r2 j) * xc (k0_pay12 rz r2 j)) * xc (k0_pay12 rz r2 j) := rfl
theorem pay21_apply (rz r2 : FVec Ideal S128000 .f32) :
    k0_pay21 rz r2 j
      = ((xc (k0_pay12 rz r2 j) * xc (k0_pay12 rz r2 j)) * xc (k0_pay12 rz r2 j)) * xc (k0_pay12 rz r2 j) := rfl

theorem pay22_apply (rz r2 : FVec Ideal S128000 .f32) : k0_pay22 rz r2 j = spoly (xc (k0_pay12 rz r2 j)) := rfl

theorem pay23_apply : (k0_pay23 (F := Ideal)) j = Ideal.ofBits .f32 0xC1F00000#32 := rfl

theorem pay25_apply (d s : FVec Ideal S128000 .f32) :
    k0_pay25 d s j
      = if Ideal.cmp .ole (d j) (Ideal.ofBits .f32 0x3EE66666#32) = 1 then Ideal.ofBits .f32 0x3F800000#32
        else if inband (d j) = 1 then s j else Ideal.ofBits .f32 0x00000000#32 := rfl

theorem bit_to_real (b : BitVec 1) : (((b.setWidth 32).toInt : ℝ) : EReal) = if b = 1 then 1 else 0 := by
  rcases BitVec.eq_zero_or_eq_one b with h | h <;> subst h <;> simp

theorem pay26_apply (d : FVec Ideal S128000 .f32) : k0_pay26 d j = mask (d j) := by
  exact bit_to_real (Ideal.cmp .olt (d j) (Ideal.ofBits .f32 0x3F000000#32))

end Lane

section Lane2

variable (j : S128000.Idx)

theorem pay27_apply (d u f x2 x3 x4 s m30 : FVec Ideal S128000 .f32) :
    k0_pay27 d u f x2 x3 x4 s m30 j
      = (f j * k0_pay25 d s j
          - u j * (if inband (d j) = 1 then
              ((m30 j * x2 j + Ideal.ofBits .f32 0x42700000#32 * x3 j) - Ideal.ofBits .f32 0x41F00000#32 * x4 j) * invDenom
            else Ideal.ofBits .f32 0x00000000#32))
        * k0_pay26 d j := rfl

theorem pay28_apply (r d ir u f x2 x3 x4 s m30 : FVec Ideal S128000 .f32) :
    k0_pay28 r d ir u f x2 x3 x4 s m30 j = k0_pay27 d u f x2 x3 x4 s m30 j * (r j * ir j) := rfl
theorem pay29_apply (r d ir u f x2 x3 x4 s m30 : FVec Ideal S128000 .f32) :
    k0_pay29 r d ir u f x2 x3 x4 s m30 j = k0_pay27 d u f x2 x3 x4 s m30 j * (r j * ir j) := rfl
theorem pay30_apply (r d ir u f x2 x3 x4 s m30 : FVec Ideal S128000 .f32) :
    k0_pay30 r d ir u f x2 x3 x4 s m30 j = k0_pay27 d u f x2 x3 x4 s m30 j * (r j * ir j) := rfl

end Lane2

abbrev rxBlk (x0 x3 : Vec Ideal S128000 .f32) : FVec Ideal S128000 .f32 := k0_pay8 x0 x3
abbrev ryBlk (x1 x4 : Vec Ideal S128000 .f32) : FVec Ideal S128000 .f32 := k0_pay9 x1 x4
abbrev rzBlk (x2 x5 : Vec Ideal S128000 .f32) : FVec Ideal S128000 .f32 := k0_pay10 x2 x5

abbrev r2Blk (x0 x1 x3 x4 : Vec Ideal S128000 .f32) : FVec Ideal S128000 .f32 := k0_pay11 x0 x1 x3 x4

abbrev dBlk (x0 x1 x2 x3 x4 x5 : Vec Ideal S128000 .f32) : FVec Ideal S128000 .f32 :=
  k0_pay12 (rzBlk x2 x5) (r2Blk x0 x1 x3 x4)
abbrev irBlk (x0 x1 x2 x3 x4 x5 : Vec Ideal S128000 .f32) : FVec Ideal S128000 .f32 :=
  k0_pay13 (rzBlk x2 x5) (r2Blk x0 x1 x3 x4)

abbrev uBlk (x0 x1 x2 x3 x4 x5 x6 x7 : Vec Ideal S128000 .f32) : FVec Ideal S128000 .f32 :=
  k0_pay16 x6 x7 (rzBlk x2 x5) (r2Blk x0 x1 x3 x4)
abbrev fBlk (x0 x1 x2 x3 x4 x5 x6 x7 : Vec Ideal S128000 .f32) : FVec Ideal S128000 .f32 :=
  k0_pay17 x6 x7 (rzBlk x2 x5) (r2Blk x0 x1 x3 x4)

abbrev x2Blk (x0 x1 x2 x3 x4 x5 : Vec Ideal S128000 .f32) : FVec Ideal S128000 .f32 :=
  k0_pay19 (rzBlk x2 x5) (r2Blk x0 x1 x3 x4)
abbrev x3Blk (x0 x1 x2 x3 x4 x5 : Vec Ideal S128000 .f32) : FVec Ideal S128000 .f32 :=
  k0_pay20 (rzBlk x2 x5) (r2Blk x0 x1 x3 x4)
abbrev x4Blk (x0 x1 x2 x3 x4 x5 : Vec Ideal S128000 .f32) : FVec Ideal S128000 .f32 :=
  k0_pay21 (rzBlk x2 x5) (r2Blk x0 x1 x3 x4)
abbrev sBlk (x0 x1 x2 x3 x4 x5 : Vec Ideal S128000 .f32) : FVec Ideal S128000 .f32 :=
  k0_pay22 (rzBlk x2 x5) (r2Blk x0 x1 x3 x4)
abbrev m30Blk : FVec Ideal S128000 .f32 := k0_pay23 (F := Ideal)

abbrev maskBlk (x0 x1 x2 x3 x4 x5 : Vec Ideal S128000 .f32) : FVec Ideal S128000 .f32 := k0_pay26 (dBlk x0 x1 x2 x3 x4 x5)

abbrev fmagBlk (x0 x1 x2 x3 x4 x5 x6 x7 : Vec Ideal S128000 .f32) : FVec Ideal S128000 .f32 :=
  k0_pay27 (dBlk x0 x1 x2 x3 x4 x5) (uBlk x0 x1 x2 x3 x4 x5 x6 x7) (fBlk x0 x1 x2 x3 x4 x5 x6 x7) (x2Blk x0 x1 x2 x3 x4 x5) (x3Blk x0 x1 x2 x3 x4 x5) (x4Blk x0 x1 x2 x3 x4 x5) (sBlk x0 x1 x2 x3 x4 x5) m30Blk

abbrev fxBlk (x0 x1 x2 x3 x4 x5 x6 x7 : Vec Ideal S128000 .f32) : FVec Ideal S128000 .f32 :=
  k0_pay28 (rxBlk x0 x3) (dBlk x0 x1 x2 x3 x4 x5) (irBlk x0 x1 x2 x3 x4 x5) (uBlk x0 x1 x2 x3 x4 x5 x6 x7) (fBlk x0 x1 x2 x3 x4 x5 x6 x7) (x2Blk x0 x1 x2 x3 x4 x5) (x3Blk x0 x1 x2 x3 x4 x5) (x4Blk x0 x1 x2 x3 x4 x5)
    (sBlk x0 x1 x2 x3 x4 x5) m30Blk
abbrev fyBlk (x0 x1 x2 x3 x4 x5 x6 x7 : Vec Ideal S128000 .f32) : FVec Ideal S128000 .f32 :=
  k0_pay29 (ryBlk x1 x4) (dBlk x0 x1 x2 x3 x4 x5) (irBlk x0 x1 x2 x3 x4 x5) (uBlk x0 x1 x2 x3 x4 x5 x6 x7) (fBlk x0 x1 x2 x3 x4 x5 x6 x7) (x2Blk x0 x1 x2 x3 x4 x5) (x3Blk x0 x1 x2 x3 x4 x5) (x4Blk x0 x1 x2 x3 x4 x5)
    (sBlk x0 x1 x2 x3 x4 x5) m30Blk
abbrev fzBlk (x0 x1 x2 x3 x4 x5 x6 x7 : Vec Ideal S128000 .f32) : FVec Ideal S128000 .f32 :=
  k0_pay30 (rzBlk x2 x5) (dBlk x0 x1 x2 x3 x4 x5) (irBlk x0 x1 x2 x3 x4 x5) (uBlk x0 x1 x2 x3 x4 x5 x6 x7) (fBlk x0 x1 x2 x3 x4 x5 x6 x7) (x2Blk x0 x1 x2 x3 x4 x5) (x3Blk x0 x1 x2 x3 x4 x5) (x4Blk x0 x1 x2 x3 x4 x5)
    (sBlk x0 x1 x2 x3 x4 x5) m30Blk

abbrev uSumBlk (x0 x1 x2 x3 x4 x5 x6 x7 : Vec Ideal S128000 .f32) : FVec Ideal S1 .f32 :=
  k0_pay31 (dBlk x0 x1 x2 x3 x4 x5) (uBlk x0 x1 x2 x3 x4 x5 x6 x7) (sBlk x0 x1 x2 x3 x4 x5)

abbrev E (x0 x1 x2 x3 x4 x5 x6 x7 : Vec Ideal S128000 .f32) (l : Fin 128000) : Cert.Spec.Edge :=
  kedge ![x0 (ix1 l), x1 (ix1 l), x2 (ix1 l)] ![x3 (ix1 l), x4 (ix1 l), x5 (ix1 l)] (x6 (ix1 l)) (x7 (ix1 l))

abbrev dAt (x0 x1 x2 x3 x4 x5 : Vec Ideal S128000 .f32) (l : Fin 128000) : EReal :=
  dOf ![x0 (ix1 l), x1 (ix1 l), x2 (ix1 l)] ![x3 (ix1 l), x4 (ix1 l), x5 (ix1 l)]

section AtLane

variable (x0 x1 x2 x3 x4 x5 x6 x7 : Vec Ideal S128000 .f32) (l : Fin 128000)

theorem rxBlk_apply : rxBlk x0 x3 (ix1 l) = (E x0 x1 x2 x3 x4 x5 x6 x7 l).r 0 := pay8_apply _ _ _
theorem ryBlk_apply : ryBlk x1 x4 (ix1 l) = (E x0 x1 x2 x3 x4 x5 x6 x7 l).r 1 := pay9_apply _ _ _
theorem rzBlk_apply : rzBlk x2 x5 (ix1 l) = (E x0 x1 x2 x3 x4 x5 x6 x7 l).r 2 := pay10_apply _ _ _

theorem dBlk_apply : dBlk x0 x1 x2 x3 x4 x5 (ix1 l) = dAt x0 x1 x2 x3 x4 x5 l := by
  refine (pay12_apply _ _ _).trans ?_
  rw [show r2Blk x0 x1 x3 x4 (ix1 l) = _ from pay11_apply _ _ _ _ _, show rzBlk x2 x5 (ix1 l) = _ from pay10_apply _ _ _]
  rfl

theorem irBlk_apply : irBlk x0 x1 x2 x3 x4 x5 (ix1 l) = invr (dAt x0 x1 x2 x3 x4 x5 l) :=
  (pay13_apply _ _ _).trans (congrArg invr (dBlk_apply x0 x1 x2 x3 x4 x5 l))

theorem uBlk_apply : uBlk x0 x1 x2 x3 x4 x5 x6 x7 (ix1 l) = uraw (x6 (ix1 l)) (x7 (ix1 l)) (invr (dAt x0 x1 x2 x3 x4 x5 l)) :=
  (pay16_apply _ _ _ _ _).trans (congrArg (uraw (x6 (ix1 l)) (x7 (ix1 l))) (irBlk_apply x0 x1 x2 x3 x4 x5 l))
theorem fBlk_apply : fBlk x0 x1 x2 x3 x4 x5 x6 x7 (ix1 l) = fraw (x6 (ix1 l)) (x7 (ix1 l)) (invr (dAt x0 x1 x2 x3 x4 x5 l)) :=
  (pay17_apply _ _ _ _ _).trans (congrArg (fraw (x6 (ix1 l)) (x7 (ix1 l))) (irBlk_apply x0 x1 x2 x3 x4 x5 l))

theorem x2Blk_apply : x2Blk x0 x1 x2 x3 x4 x5 (ix1 l) = xc (dAt x0 x1 x2 x3 x4 x5 l) * xc (dAt x0 x1 x2 x3 x4 x5 l) :=
  (pay19_apply _ _ _).trans (congrArg (fun d => xc d * xc d) (dBlk_apply x0 x1 x2 x3 x4 x5 l))
theorem x3Blk_apply : x3Blk x0 x1 x2 x3 x4 x5 (ix1 l) = (xc (dAt x0 x1 x2 x3 x4 x5 l) * xc (dAt x0 x1 x2 x3 x4 x5 l)) * xc (dAt x0 x1 x2 x3 x4 x5 l) :=
  (pay20_apply _ _ _).trans (congrArg (fun d => (xc d * xc d) * xc d) (dBlk_apply x0 x1 x2 x3 x4 x5 l))
theorem x4Blk_apply :
    x4Blk x0 x1 x2 x3 x4 x5 (ix1 l) = ((xc (dAt x0 x1 x2 x3 x4 x5 l) * xc (dAt x0 x1 x2 x3 x4 x5 l)) * xc (dAt x0 x1 x2 x3 x4 x5 l)) * xc (dAt x0 x1 x2 x3 x4 x5 l) :=
  (pay21_apply _ _ _).trans (congrArg (fun d => ((xc d * xc d) * xc d) * xc d) (dBlk_apply x0 x1 x2 x3 x4 x5 l))
theorem sBlk_apply : sBlk x0 x1 x2 x3 x4 x5 (ix1 l) = spoly (xc (dAt x0 x1 x2 x3 x4 x5 l)) :=
  (pay22_apply _ _ _).trans (congrArg (fun d => spoly (xc d)) (dBlk_apply x0 x1 x2 x3 x4 x5 l))

theorem sw_apply : k0_pay25 (dBlk x0 x1 x2 x3 x4 x5) (sBlk x0 x1 x2 x3 x4 x5) (ix1 l) = sw (dAt x0 x1 x2 x3 x4 x5 l) := by
  refine (pay25_apply _ _ _).trans ?_
  rw [sBlk_apply, dBlk_apply]
  rfl

theorem maskBlk_apply : maskBlk x0 x1 x2 x3 x4 x5 (ix1 l) = mask (dAt x0 x1 x2 x3 x4 x5 l) :=
  (pay26_apply _ _).trans (congrArg mask (dBlk_apply x0 x1 x2 x3 x4 x5 l))

theorem fmagBlk_apply : fmagBlk x0 x1 x2 x3 x4 x5 x6 x7 (ix1 l) = fmag (x6 (ix1 l)) (x7 (ix1 l)) (dAt x0 x1 x2 x3 x4 x5 l) := by
  refine (pay27_apply _ _ _ _ _ _ _ _ _).trans ?_
  rw [sw_apply, fBlk_apply, uBlk_apply, x2Blk_apply, x3Blk_apply, x4Blk_apply, dBlk_apply,
    show k0_pay26 (dBlk x0 x1 x2 x3 x4 x5) (ix1 l) = _ from maskBlk_apply x0 x1 x2 x3 x4 x5 l,
    show m30Blk (ix1 l) = _ from pay23_apply _]
  rfl

theorem fxBlk_apply : fxBlk x0 x1 x2 x3 x4 x5 x6 x7 (ix1 l) = (E x0 x1 x2 x3 x4 x5 x6 x7 l).f 0 := by
  refine (pay28_apply _ _ _ _ _ _ _ _ _ _ _).trans ?_
  rw [show k0_pay27 (dBlk x0 x1 x2 x3 x4 x5) (uBlk x0 x1 x2 x3 x4 x5 x6 x7) (fBlk x0 x1 x2 x3 x4 x5 x6 x7) (x2Blk x0 x1 x2 x3 x4 x5) (x3Blk x0 x1 x2 x3 x4 x5) (x4Blk x0 x1 x2 x3 x4 x5) (sBlk x0 x1 x2 x3 x4 x5) m30Blk (ix1 l) = _
        from fmagBlk_apply x0 x1 x2 x3 x4 x5 x6 x7 l, irBlk_apply, show rxBlk x0 x3 (ix1 l) = _ from pay8_apply _ _ _]
  rfl
theorem fyBlk_apply : fyBlk x0 x1 x2 x3 x4 x5 x6 x7 (ix1 l) = (E x0 x1 x2 x3 x4 x5 x6 x7 l).f 1 := by
  refine (pay29_apply _ _ _ _ _ _ _ _ _ _ _).trans ?_
  rw [show k0_pay27 (dBlk x0 x1 x2 x3 x4 x5) (uBlk x0 x1 x2 x3 x4 x5 x6 x7) (fBlk x0 x1 x2 x3 x4 x5 x6 x7) (x2Blk x0 x1 x2 x3 x4 x5) (x3Blk x0 x1 x2 x3 x4 x5) (x4Blk x0 x1 x2 x3 x4 x5) (sBlk x0 x1 x2 x3 x4 x5) m30Blk (ix1 l) = _
        from fmagBlk_apply x0 x1 x2 x3 x4 x5 x6 x7 l, irBlk_apply, show ryBlk x1 x4 (ix1 l) = _ from pay9_apply _ _ _]
  rfl
theorem fzBlk_apply : fzBlk x0 x1 x2 x3 x4 x5 x6 x7 (ix1 l) = (E x0 x1 x2 x3 x4 x5 x6 x7 l).f 2 := by
  refine (pay30_apply _ _ _ _ _ _ _ _ _ _ _).trans ?_
  rw [show k0_pay27 (dBlk x0 x1 x2 x3 x4 x5) (uBlk x0 x1 x2 x3 x4 x5 x6 x7) (fBlk x0 x1 x2 x3 x4 x5 x6 x7) (x2Blk x0 x1 x2 x3 x4 x5) (x3Blk x0 x1 x2 x3 x4 x5) (x4Blk x0 x1 x2 x3 x4 x5) (sBlk x0 x1 x2 x3 x4 x5) m30Blk (ix1 l) = _
        from fmagBlk_apply x0 x1 x2 x3 x4 x5 x6 x7 l, irBlk_apply, show rzBlk x2 x5 (ix1 l) = _ from pay10_apply _ _ _]
  rfl

end AtLane

theorem idx11 (i : S1x1.Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

theorem laneSum (v : FVec Ideal S128000 .f32) :
    extractAt ![0, 0]
        (shapeCast S1x1
          (multiReduction .add [1] S1 (shapeCast S1x128000 v shapeCasts_S128000_S1x128000) 0x00000000#32
            reduces_S1x128000_S1 (.inl rfl) rfl)
          shapeCasts_S1_S1x1)
        inpos_S1x1_p0_0
      = ∑ l : Fin 128000, v (ix1 l) := by
  unfold extractAt
  refine (shapeCast_apply _ shapeCasts_S1_S1x1 _ (ix1 (0 : Fin 1)) ?_).trans ?_
  · rw [Shape.rowMajor_val_one, Shape.rowMajor_val_two]
    rfl
  · refine (Ideal.multiReduction_add_single _ 0x00000000#32 reduces_S1x128000_S1 (.inl rfl) rfl (ix1 (0 : Fin 1))).trans ?_
    refine Finset.sum_congr rfl fun k _ => ?_
    refine shapeCast_apply v shapeCasts_S128000_S1x128000 _ (ix1 k) ?_
    rw [Shape.rowMajor_val_one, Shape.rowMajor_val_two]
    show k.val = 0 * 128000 + k.val
    omega

theorem accSum (v : FVec Ideal S128000 .f32) (a : Vec Ideal S1x1 .f32) :
    shapeCast S1x1
        (addf a (broadcast S1x1 (extractAt ![0, 0]
          (shapeCast S1x1
            (multiReduction .add [1] S1 (shapeCast S1x128000 v shapeCasts_S128000_S1x128000) 0x00000000#32
              reduces_S1x128000_S1 (.inl rfl) rfl)
            shapeCasts_S1_S1x1)
          inpos_S1x1_p0_0)))
        shapeCasts_S1x1_S1x1
      = fun _ => a (ix2 0 0) + ∑ l : Fin 128000, v (ix1 l) := by
  rw [shapeCast_self]
  funext i
  rw [addf_apply, broadcast_apply, laneSum, idx11 i]

section Acc

variable (x0 x1 x2 x3 x4 x5 x6 x7 : Vec Ideal S128000 .f32) (a : Vec Ideal S1x1 .f32)

theorem eAcc_eq :
    k0_pay32 (uSumBlk x0 x1 x2 x3 x4 x5 x6 x7) a = fun _ => a (ix2 0 0) + ∑ l : Fin 128000, (E x0 x1 x2 x3 x4 x5 x6 x7 l).u := by
  refine (accSum (mulf (mulf (uBlk x0 x1 x2 x3 x4 x5 x6 x7) (k0_pay25 (dBlk x0 x1 x2 x3 x4 x5) (sBlk x0 x1 x2 x3 x4 x5))) (k0_pay26 (dBlk x0 x1 x2 x3 x4 x5))) a).trans ?_
  funext _
  refine congrArg (a (ix2 0 0) + ·) (Finset.sum_congr rfl fun l _ => ?_)
  rw [mulf_apply, mulf_apply, uBlk_apply, sw_apply, show k0_pay26 (dBlk x0 x1 x2 x3 x4 x5) (ix1 l) = _ from maskBlk_apply x0 x1 x2 x3 x4 x5 l]
  rfl

theorem wAcc_eq :
    k0_pay33 (dBlk x0 x1 x2 x3 x4 x5) (maskBlk x0 x1 x2 x3 x4 x5) (fmagBlk x0 x1 x2 x3 x4 x5 x6 x7) a
      = fun _ => a (ix2 0 0) + ∑ l : Fin 128000, (E x0 x1 x2 x3 x4 x5 x6 x7 l).w := by
  refine (accSum (mulf (mulf (fmagBlk x0 x1 x2 x3 x4 x5 x6 x7) (dBlk x0 x1 x2 x3 x4 x5)) (maskBlk x0 x1 x2 x3 x4 x5)) a).trans ?_
  funext _
  refine congrArg (a (ix2 0 0) + ·) (Finset.sum_congr rfl fun l _ => ?_)
  rw [mulf_apply, mulf_apply, fmagBlk_apply, dBlk_apply, maskBlk_apply]
  rfl

end Acc

section Tensor

variable (x0 x1 x2 x3 x4 x5 x6 x7 : Vec Ideal S128000 .f32) (a : Vec Ideal S1x1 .f32)

theorem t00_eq :
    k0_pay34 (rxBlk x0 x3) (fxBlk x0 x1 x2 x3 x4 x5 x6 x7) a
      = fun _ => a (ix2 0 0) + ∑ l : Fin 128000, (E x0 x1 x2 x3 x4 x5 x6 x7 l).f 0 * (E x0 x1 x2 x3 x4 x5 x6 x7 l).r 0 := by
  refine (accSum (mulf (fxBlk x0 x1 x2 x3 x4 x5 x6 x7) (rxBlk x0 x3)) a).trans ?_
  funext _
  refine congrArg (a (ix2 0 0) + ·) (Finset.sum_congr rfl fun l _ => ?_)
  rw [mulf_apply, fxBlk_apply, show rxBlk x0 x3 (ix1 l) = _ from rxBlk_apply x0 x1 x2 x3 x4 x5 x6 x7 l]
theorem t01_eq :
    k0_pay36 (k0_pay35 (ryBlk x1 x4) (fxBlk x0 x1 x2 x3 x4 x5 x6 x7) a)
      = fun _ => a (ix2 0 0) + ∑ l : Fin 128000, (E x0 x1 x2 x3 x4 x5 x6 x7 l).f 0 * (E x0 x1 x2 x3 x4 x5 x6 x7 l).r 1 := by
  refine (accSum (mulf (fxBlk x0 x1 x2 x3 x4 x5 x6 x7) (ryBlk x1 x4)) a).trans ?_
  funext _
  refine congrArg (a (ix2 0 0) + ·) (Finset.sum_congr rfl fun l _ => ?_)
  rw [mulf_apply, fxBlk_apply, show ryBlk x1 x4 (ix1 l) = _ from ryBlk_apply x0 x1 x2 x3 x4 x5 x6 x7 l]
theorem t02_eq :
    k0_pay37 (rzBlk x2 x5) (fxBlk x0 x1 x2 x3 x4 x5 x6 x7) a
      = fun _ => a (ix2 0 0) + ∑ l : Fin 128000, (E x0 x1 x2 x3 x4 x5 x6 x7 l).f 0 * (E x0 x1 x2 x3 x4 x5 x6 x7 l).r 2 := by
  refine (accSum (mulf (fxBlk x0 x1 x2 x3 x4 x5 x6 x7) (rzBlk x2 x5)) a).trans ?_
  funext _
  refine congrArg (a (ix2 0 0) + ·) (Finset.sum_congr rfl fun l _ => ?_)
  rw [mulf_apply, fxBlk_apply, show rzBlk x2 x5 (ix1 l) = _ from rzBlk_apply x0 x1 x2 x3 x4 x5 x6 x7 l]
theorem t10_eq :
    k0_pay38 (rxBlk x0 x3) (fyBlk x0 x1 x2 x3 x4 x5 x6 x7) a
      = fun _ => a (ix2 0 0) + ∑ l : Fin 128000, (E x0 x1 x2 x3 x4 x5 x6 x7 l).f 1 * (E x0 x1 x2 x3 x4 x5 x6 x7 l).r 0 := by
  refine (accSum (mulf (fyBlk x0 x1 x2 x3 x4 x5 x6 x7) (rxBlk x0 x3)) a).trans ?_
  funext _
  refine congrArg (a (ix2 0 0) + ·) (Finset.sum_congr rfl fun l _ => ?_)
  rw [mulf_apply, fyBlk_apply, show rxBlk x0 x3 (ix1 l) = _ from rxBlk_apply x0 x1 x2 x3 x4 x5 x6 x7 l]
theorem t11_eq :
    k0_pay39 (ryBlk x1 x4) (fyBlk x0 x1 x2 x3 x4 x5 x6 x7) a
      = fun _ => a (ix2 0 0) + ∑ l : Fin 128000, (E x0 x1 x2 x3 x4 x5 x6 x7 l).f 1 * (E x0 x1 x2 x3 x4 x5 x6 x7 l).r 1 := by
  refine (accSum (mulf (fyBlk x0 x1 x2 x3 x4 x5 x6 x7) (ryBlk x1 x4)) a).trans ?_
  funext _
  refine congrArg (a (ix2 0 0) + ·) (Finset.sum_congr rfl fun l _ => ?_)
  rw [mulf_apply, fyBlk_apply, show ryBlk x1 x4 (ix1 l) = _ from ryBlk_apply x0 x1 x2 x3 x4 x5 x6 x7 l]
theorem t12_eq :
    k0_pay41 (k0_pay40 (rzBlk x2 x5) (fyBlk x0 x1 x2 x3 x4 x5 x6 x7)) a
      = fun _ => a (ix2 0 0) + ∑ l : Fin 128000, (E x0 x1 x2 x3 x4 x5 x6 x7 l).f 1 * (E x0 x1 x2 x3 x4 x5 x6 x7 l).r 2 := by
  refine (accSum (mulf (fyBlk x0 x1 x2 x3 x4 x5 x6 x7) (rzBlk x2 x5)) a).trans ?_
  funext _
  refine congrArg (a (ix2 0 0) + ·) (Finset.sum_congr rfl fun l _ => ?_)
  rw [mulf_apply, fyBlk_apply, show rzBlk x2 x5 (ix1 l) = _ from rzBlk_apply x0 x1 x2 x3 x4 x5 x6 x7 l]
theorem t20_eq :
    k0_pay42 (rxBlk x0 x3) (fzBlk x0 x1 x2 x3 x4 x5 x6 x7) a
      = fun _ => a (ix2 0 0) + ∑ l : Fin 128000, (E x0 x1 x2 x3 x4 x5 x6 x7 l).f 2 * (E x0 x1 x2 x3 x4 x5 x6 x7 l).r 0 := by
  refine (accSum (mulf (fzBlk x0 x1 x2 x3 x4 x5 x6 x7) (rxBlk x0 x3)) a).trans ?_
  funext _
  refine congrArg (a (ix2 0 0) + ·) (Finset.sum_congr rfl fun l _ => ?_)
  rw [mulf_apply, fzBlk_apply, show rxBlk x0 x3 (ix1 l) = _ from rxBlk_apply x0 x1 x2 x3 x4 x5 x6 x7 l]
theorem t21_eq :
    k0_pay43 (ryBlk x1 x4) (fzBlk x0 x1 x2 x3 x4 x5 x6 x7) a
      = fun _ => a (ix2 0 0) + ∑ l : Fin 128000, (E x0 x1 x2 x3 x4 x5 x6 x7 l).f 2 * (E x0 x1 x2 x3 x4 x5 x6 x7 l).r 1 := by
  refine (accSum (mulf (fzBlk x0 x1 x2 x3 x4 x5 x6 x7) (ryBlk x1 x4)) a).trans ?_
  funext _
  refine congrArg (a (ix2 0 0) + ·) (Finset.sum_congr rfl fun l _ => ?_)
  rw [mulf_apply, fzBlk_apply, show ryBlk x1 x4 (ix1 l) = _ from ryBlk_apply x0 x1 x2 x3 x4 x5 x6 x7 l]
theorem t22_eq :
    k0_pay1 (k0_pay44 (rzBlk x2 x5) (fzBlk x0 x1 x2 x3 x4 x5 x6 x7) a)
      = fun _ => a (ix2 0 0) + ∑ l : Fin 128000, (E x0 x1 x2 x3 x4 x5 x6 x7 l).f 2 * (E x0 x1 x2 x3 x4 x5 x6 x7 l).r 2 := by
  refine (accSum (mulf (fzBlk x0 x1 x2 x3 x4 x5 x6 x7) (rzBlk x2 x5)) a).trans ?_
  funext _
  refine congrArg (a (ix2 0 0) + ·) (Finset.sum_congr rfl fun l _ => ?_)
  rw [mulf_apply, fzBlk_apply, show rzBlk x2 x5 (ix1 l) = _ from rzBlk_apply x0 x1 x2 x3 x4 x5 x6 x7 l]

end Tensor

theorem pay5_eq : (k0_pay5 (F := Ideal)) = fun _ => 0 := by
  unfold k0_pay5
  simp only [shapeCast_self]
  funext i
  exact Ideal.ofBits_zero_f32
theorem pay6_eq : (k0_pay6 (F := Ideal)) = fun _ => 0 := by
  unfold k0_pay6
  simp only [shapeCast_self]
  funext i
  exact Ideal.ofBits_zero_f32
theorem pay7_eq : (k0_pay7 (F := Ideal)) = fun _ => 0 := by
  unfold k0_pay7
  simp only [shapeCast_self]
  funext i
  exact Ideal.ofBits_zero_f32

theorem pay2_apply (a : Vec Ideal S1x1 .f32) : k0_pay2 a (ix3 (0 : Fin 1) (0 : Fin 1) (0 : Fin 1)) = a (ix2 0 0) := by
  unfold k0_pay2
  refine shapeCast_apply _ shapeCasts_S1x1_S1x1x1 _ (ix2 (0 : Fin 1) (0 : Fin 1)) ?_
  rw [Shape.rowMajor_val_two, Shape.rowMajor_val_three]
  rfl
theorem pay3_apply (a : Vec Ideal S1x1 .f32) : k0_pay3 a (ix3 (0 : Fin 1) (0 : Fin 1) (0 : Fin 1)) = a (ix2 0 0) := by
  unfold k0_pay3
  refine shapeCast_apply _ shapeCasts_S1x1_S1x1x1 _ (ix2 (0 : Fin 1) (0 : Fin 1)) ?_
  rw [Shape.rowMajor_val_two, Shape.rowMajor_val_three]
  rfl

theorem pay4_apply (b : Vec Ideal S3x3 .f32) (i j : Fin 3) : k0_pay4 b (ix3 (0 : Fin 1) i j) = b (ix2 i j) := by
  unfold k0_pay4
  refine shapeCast_apply _ shapeCasts_S3x3_S1x3x3 _ (ix2 i j) ?_
  rw [Shape.rowMajor_val_two, Shape.rowMajor_val_three]
  show i.val * 3 + j.val = (0 * 3 + i.val) * 3 + j.val
  omega

end Cert.KernelIdeal.Pay

end
-- ==== Proof.KI.Pieces.lean ====
import proofs.«420260_j7687991460463_2_alg».proof.Proof.KI.FrameDefs
import proofs.«420260_j7687991460463_2_alg».proof.Proof.KI.Payload
import proofs.«420260_j7687991460463_2_alg».proof.Proof.Spec
import Idealize.ShloMosaic.Lib.Ring
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem nm33 (a b : Fin 3) (a' b' : Nat) (inb) (h : (a : Nat) ≠ a' ∨ (b : Nat) ≠ b') :
    (ix2 a b : S3x3.Idx) ∉ (Rect.unit (s := S3x3) ![a', b'] S1x1.size inb).set := by
  rw [Rect.mem_set_unit]
  intro hm
  have h0 := hm 0
  have h1 := hm 1
  change a' ≤ (a : Nat) ∧ (a : Nat) < a' + 1 at h0
  change b' ≤ (b : Nat) ∧ (b : Nat) < b' + 1 at h1
  omega

theorem emb33 (a b : Fin 3) (inb) :
    (Rect.unit (s := S3x3) ![(a : Nat), (b : Nat)] S1x1.size inb).emb (ix2 (0 : Fin 1) (0 : Fin 1)) = ix2 a b := by
  funext d
  match d with
  | ⟨0, _⟩ => exact Fin.ext (by show (a : Nat) + 1 * 0 = a; omega)
  | ⟨1, _⟩ => exact Fin.ext (by show (b : Nat) + 1 * 0 = b; omega)

theorem ld33 (X : Vec Ideal S3x3 .f32) (a b : Fin 3) (inb) :
    View.ld X (Rect.unit (s := S3x3) ![(a : Nat), (b : Nat)] S1x1.size inb) (ix2 (0 : Fin 1) (0 : Fin 1)) = X (ix2 a b) := by
  show X ((Rect.unit (s := S3x3) ![(a : Nat), (b : Nat)] S1x1.size inb).emb (ix2 0 0)) = _
  rw [emb33]

theorem canon_skip33 (a b : Fin 3) (a' b' : Nat) (inb) (h : (a : Nat) ≠ a' ∨ (b : Nat) ≠ b')
    (w : (Rect.unit (s := S3x3) ![a', b'] S1x1.size inb).shape.Idx → Elt Ideal .f32) (L : List (View.Piece (Elt Ideal) S3x3 .f32)) :
    View.canon ((⟨Rect.unit (s := S3x3) ![a', b'] S1x1.size inb, w⟩ : View.Piece (Elt Ideal) S3x3 .f32) :: L) (ix2 a b)
      = View.canon L (ix2 a b) :=
  View.canon_cons_of_not_mem _ _ (nm33 a b a' b' inb h)

theorem canon_hit33 (a b : Fin 3) (a' b' : Nat) (ha : (a : Nat) = a') (hb : (b : Nat) = b') (inb)
    (w : (Rect.unit (s := S3x3) ![a', b'] S1x1.size inb).shape.Idx → Elt Ideal .f32) (L : List (View.Piece (Elt Ideal) S3x3 .f32)) :
    View.canon ((⟨Rect.unit (s := S3x3) ![a', b'] S1x1.size inb, w⟩ : View.Piece (Elt Ideal) S3x3 .f32) :: L) (ix2 a b)
      = w (ix2 (0 : Fin 1) (0 : Fin 1)) := by
  subst ha hb
  refine (congrArg _ (emb33 a b inb).symm).trans ?_
  exact View.canon_cons_emb _ _ _ _

theorem readCov33 {sig' : RefSig} {κ' : Kind} {sp' : Space} (v : View sig' κ' sp' S3x3 .f32) (L : List (View.Piece (Elt Ideal) S3x3 .f32))
    (a b : Fin 3) (a' b' : Nat) (ha : (a : Nat) = a') (hb : (b : Nat) = b') (inb) :
    v.readCov L (Rect.unit (s := S3x3) ![a', b'] S1x1.size inb).toLoadRect (ix2 (0 : Fin 1) (0 : Fin 1)) = View.canon L (ix2 a b) := by
  subst ha hb
  rw [View.readCov_eq_canon']
  exact congrArg (View.canon L) (emb33 a b inb)

theorem readCovWhole33 {sig' : RefSig} {κ' : Kind} {sp' : Space} (v : View sig' κ' sp' S3x3 .f32) (L : List (View.Piece (Elt Ideal) S3x3 .f32))
    (inb) (y : S3x3.Idx) :
    v.readCov L (Rect.unit (s := S3x3) ![0, 0] S3x3.size inb).toLoadRect y = View.canon L y := by
  rw [View.readCov_eq_canon']
  refine congrArg (View.canon L) ?_
  funext d
  match d with
  | ⟨0, _⟩ => exact Fin.ext (by show 0 + 1 * (y 0 : Nat) = (y 0 : Nat); omega)
  | ⟨1, _⟩ => exact Fin.ext (by show 0 + 1 * (y 1 : Nat) = (y 1 : Nat); omega)

def sel9 {α : Type} (w00 w01 w02 w10 w11 w12 w20 w21 w22 : α) : Fin 3 → Fin 3 → α
  | 0, 0 => w00 | 0, 1 => w01 | 0, 2 => w02
  | 1, 0 => w10 | 1, 1 => w11 | 1, 2 => w12
  | 2, 0 => w20 | 2, 1 => w21 | 2, 2 => w22

theorem canon9 (w00 w01 w02 w10 w11 w12 w20 w21 w22 : S1x1.Idx → Elt Ideal .f32) (L : List (View.Piece (Elt Ideal) S3x3 .f32)) (a b : Fin 3) :
    View.canon ((⟨(Rect.unit (s := S3x3) ![2, 2] S1x1.size inb_S3x3_S1x1_2_2), w22⟩ : View.Piece (Elt Ideal) S3x3 .f32)
        :: (⟨(Rect.unit (s := S3x3) ![2, 1] S1x1.size inb_S3x3_S1x1_2_1), w21⟩ : View.Piece (Elt Ideal) S3x3 .f32)
        :: (⟨(Rect.unit (s := S3x3) ![2, 0] S1x1.size inb_S3x3_S1x1_2_0), w20⟩ : View.Piece (Elt Ideal) S3x3 .f32)
        :: (⟨(Rect.unit (s := S3x3) ![1, 2] S1x1.size inb_S3x3_S1x1_1_2), w12⟩ : View.Piece (Elt Ideal) S3x3 .f32)
        :: (⟨(Rect.unit (s := S3x3) ![1, 1] S1x1.size inb_S3x3_S1x1_1_1), w11⟩ : View.Piece (Elt Ideal) S3x3 .f32)
        :: (⟨(Rect.unit (s := S3x3) ![1, 0] S1x1.size inb_S3x3_S1x1_1_0), w10⟩ : View.Piece (Elt Ideal) S3x3 .f32)
        :: (⟨(Rect.unit (s := S3x3) ![0, 2] S1x1.size inb_S3x3_S1x1_0_2), w02⟩ : View.Piece (Elt Ideal) S3x3 .f32)
        :: (⟨(Rect.unit (s := S3x3) ![0, 1] S1x1.size inb_S3x3_S1x1_0_1), w01⟩ : View.Piece (Elt Ideal) S3x3 .f32)
        :: (⟨(Rect.unit (s := S3x3) ![0, 0] S1x1.size inb_S3x3_S1x1_0_0), w00⟩ : View.Piece (Elt Ideal) S3x3 .f32)
        :: L) (ix2 a b)
      = sel9 w00 w01 w02 w10 w11 w12 w20 w21 w22 a b (ix2 (0 : Fin 1) (0 : Fin 1)) := by
  fin_cases a <;> fin_cases b
  · rw [canon_skip33 _ _ 2 2 _ (by decide), canon_skip33 _ _ 2 1 _ (by decide), canon_skip33 _ _ 2 0 _ (by decide), canon_skip33 _ _ 1 2 _ (by decide), canon_skip33 _ _ 1 1 _ (by decide), canon_skip33 _ _ 1 0 _ (by decide), canon_skip33 _ _ 0 2 _ (by decide), canon_skip33 _ _ 0 1 _ (by decide), canon_hit33 _ _ 0 0 rfl rfl]; rfl
  · rw [canon_skip33 _ _ 2 2 _ (by decide), canon_skip33 _ _ 2 1 _ (by decide), canon_skip33 _ _ 2 0 _ (by decide), canon_skip33 _ _ 1 2 _ (by decide), canon_skip33 _ _ 1 1 _ (by decide), canon_skip33 _ _ 1 0 _ (by decide), canon_skip33 _ _ 0 2 _ (by decide), canon_hit33 _ _ 0 1 rfl rfl]; rfl
  · rw [canon_skip33 _ _ 2 2 _ (by decide), canon_skip33 _ _ 2 1 _ (by decide), canon_skip33 _ _ 2 0 _ (by decide), canon_skip33 _ _ 1 2 _ (by decide), canon_skip33 _ _ 1 1 _ (by decide), canon_skip33 _ _ 1 0 _ (by decide), canon_hit33 _ _ 0 2 rfl rfl]; rfl
  · rw [canon_skip33 _ _ 2 2 _ (by decide), canon_skip33 _ _ 2 1 _ (by decide), canon_skip33 _ _ 2 0 _ (by decide), canon_skip33 _ _ 1 2 _ (by decide), canon_skip33 _ _ 1 1 _ (by decide), canon_hit33 _ _ 1 0 rfl rfl]; rfl
  · rw [canon_skip33 _ _ 2 2 _ (by decide), canon_skip33 _ _ 2 1 _ (by decide), canon_skip33 _ _ 2 0 _ (by decide), canon_skip33 _ _ 1 2 _ (by decide), canon_hit33 _ _ 1 1 rfl rfl]; rfl
  · rw [canon_skip33 _ _ 2 2 _ (by decide), canon_skip33 _ _ 2 1 _ (by decide), canon_skip33 _ _ 2 0 _ (by decide), canon_hit33 _ _ 1 2 rfl rfl]; rfl
  · rw [canon_skip33 _ _ 2 2 _ (by decide), canon_skip33 _ _ 2 1 _ (by decide), canon_hit33 _ _ 2 0 rfl rfl]; rfl
  · rw [canon_skip33 _ _ 2 2 _ (by decide), canon_hit33 _ _ 2 1 rfl rfl]; rfl
  · rw [canon_hit33 _ _ 2 2 rfl rfl]; rfl

theorem ld33' (X : Vec Ideal S3x3 .f32) (a b : Fin 3) (a' b' : Nat) (ha : (a : Nat) = a') (hb : (b : Nat) = b') (inb) :
    View.ld X (Rect.unit (s := S3x3) ![a', b'] S1x1.size inb) (ix2 (0 : Fin 1) (0 : Fin 1)) = X (ix2 a b) := by
  subst ha hb
  exact ld33 X a b inb

theorem tab9 (x0 x1 x2 x3 x4 x5 x6 x7 : Vec Ideal S128000 .f32) (A00 A01 A02 A10 A11 A12 A20 A21 A22 : Vec Ideal S1x1 .f32)
    (L : List (View.Piece (Elt Ideal) S3x3 .f32)) (a b : Fin 3) :
    View.canon ((⟨(Rect.unit (s := S3x3) ![2, 2] S1x1.size inb_S3x3_S1x1_2_2), k0_pay1 (k0_pay44 (Pay.rzBlk x2 x5) (Pay.fzBlk x0 x1 x2 x3 x4 x5 x6 x7) A22)⟩ : View.Piece (Elt Ideal) S3x3 .f32)
        :: (⟨(Rect.unit (s := S3x3) ![2, 1] S1x1.size inb_S3x3_S1x1_2_1), k0_pay43 (Pay.ryBlk x1 x4) (Pay.fzBlk x0 x1 x2 x3 x4 x5 x6 x7) A21⟩ : View.Piece (Elt Ideal) S3x3 .f32)
        :: (⟨(Rect.unit (s := S3x3) ![2, 0] S1x1.size inb_S3x3_S1x1_2_0), k0_pay42 (Pay.rxBlk x0 x3) (Pay.fzBlk x0 x1 x2 x3 x4 x5 x6 x7) A20⟩ : View.Piece (Elt Ideal) S3x3 .f32)
        :: (⟨(Rect.unit (s := S3x3) ![1, 2] S1x1.size inb_S3x3_S1x1_1_2), k0_pay41 (k0_pay40 (Pay.rzBlk x2 x5) (Pay.fyBlk x0 x1 x2 x3 x4 x5 x6 x7)) A12⟩ : View.Piece (Elt Ideal) S3x3 .f32)
        :: (⟨(Rect.unit (s := S3x3) ![1, 1] S1x1.size inb_S3x3_S1x1_1_1), k0_pay39 (Pay.ryBlk x1 x4) (Pay.fyBlk x0 x1 x2 x3 x4 x5 x6 x7) A11⟩ : View.Piece (Elt Ideal) S3x3 .f32)
        :: (⟨(Rect.unit (s := S3x3) ![1, 0] S1x1.size inb_S3x3_S1x1_1_0), k0_pay38 (Pay.rxBlk x0 x3) (Pay.fyBlk x0 x1 x2 x3 x4 x5 x6 x7) A10⟩ : View.Piece (Elt Ideal) S3x3 .f32)
        :: (⟨(Rect.unit (s := S3x3) ![0, 2] S1x1.size inb_S3x3_S1x1_0_2), k0_pay37 (Pay.rzBlk x2 x5) (Pay.fxBlk x0 x1 x2 x3 x4 x5 x6 x7) A02⟩ : View.Piece (Elt Ideal) S3x3 .f32)
        :: (⟨(Rect.unit (s := S3x3) ![0, 1] S1x1.size inb_S3x3_S1x1_0_1), k0_pay36 (k0_pay35 (Pay.ryBlk x1 x4) (Pay.fxBlk x0 x1 x2 x3 x4 x5 x6 x7) A01)⟩ : View.Piece (Elt Ideal) S3x3 .f32)
        :: (⟨(Rect.unit (s := S3x3) ![0, 0] S1x1.size inb_S3x3_S1x1_0_0), k0_pay34 (Pay.rxBlk x0 x3) (Pay.fxBlk x0 x1 x2 x3 x4 x5 x6 x7) A00⟩ : View.Piece (Elt Ideal) S3x3 .f32)
        :: L) (ix2 a b)
      = sel9 A00 A01 A02 A10 A11 A12 A20 A21 A22 a b (ix2 (0 : Fin 1) (0 : Fin 1))
        + ∑ l : Fin 128000, (Pay.E x0 x1 x2 x3 x4 x5 x6 x7 l).f a * (Pay.E x0 x1 x2 x3 x4 x5 x6 x7 l).r b := by
  refine (canon9 _ _ _ _ _ _ _ _ _ L a b).trans ?_
  fin_cases a <;> fin_cases b
  · exact congrFun (Pay.t00_eq x0 x1 x2 x3 x4 x5 x6 x7 A00) (ix2 (0 : Fin 1) (0 : Fin 1))
  · exact congrFun (Pay.t01_eq x0 x1 x2 x3 x4 x5 x6 x7 A01) (ix2 (0 : Fin 1) (0 : Fin 1))
  · exact congrFun (Pay.t02_eq x0 x1 x2 x3 x4 x5 x6 x7 A02) (ix2 (0 : Fin 1) (0 : Fin 1))
  · exact congrFun (Pay.t10_eq x0 x1 x2 x3 x4 x5 x6 x7 A10) (ix2 (0 : Fin 1) (0 : Fin 1))
  · exact congrFun (Pay.t11_eq x0 x1 x2 x3 x4 x5 x6 x7 A11) (ix2 (0 : Fin 1) (0 : Fin 1))
  · exact congrFun (Pay.t12_eq x0 x1 x2 x3 x4 x5 x6 x7 A12) (ix2 (0 : Fin 1) (0 : Fin 1))
  · exact congrFun (Pay.t20_eq x0 x1 x2 x3 x4 x5 x6 x7 A20) (ix2 (0 : Fin 1) (0 : Fin 1))
  · exact congrFun (Pay.t21_eq x0 x1 x2 x3 x4 x5 x6 x7 A21) (ix2 (0 : Fin 1) (0 : Fin 1))
  · exact congrFun (Pay.t22_eq x0 x1 x2 x3 x4 x5 x6 x7 A22) (ix2 (0 : Fin 1) (0 : Fin 1))

section KindA
variable (c : Dev nD) (i : grid0.Coords) (bs : Bufs) (hc0 : cond0_0 i) (hc1 : ¬cond0_1 i)
    (x0 : Vec Ideal S128000 .f32) (x1 : Vec Ideal S128000 .f32) (x2 : Vec Ideal S128000 .f32) (x3 : Vec Ideal S128000 .f32) (x4 : Vec Ideal S128000 .f32) (x5 : Vec Ideal S128000 .f32) (x6 : Vec Ideal S128000 .f32) (x7 : Vec Ideal S128000 .f32)

theorem blk_A_8 : (outs0_A (F := Ideal) c i bs hc0 hc1 x0 x1 x2 x3 x4 x5 x6 x7).1 = Pay.fxBlk x0 x1 x2 x3 x4 x5 x6 x7 := by
  unfold outs0_A; dsimp only
  rw [View.read_writes_eq_canon _ _ _ (View.cover_of_tiledL _ S128000.size (by sl_kernel_rfl))]
  unfold kernelRun0_A
  dsimp only
  sl_unfold_words
  rw [View.canon_unit_zero hz1]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem out_A_8 (l : Fin 128000) : (outs0_A (F := Ideal) c i bs hc0 hc1 x0 x1 x2 x3 x4 x5 x6 x7).1 (ix1 l) = (Pay.E x0 x1 x2 x3 x4 x5 x6 x7 l).f 0 :=
  (congrFun (blk_A_8 c i bs hc0 hc1 x0 x1 x2 x3 x4 x5 x6 x7) (ix1 l)).trans (Pay.fxBlk_apply x0 x1 x2 x3 x4 x5 x6 x7 l)

theorem blk_A_9 : (outs0_A (F := Ideal) c i bs hc0 hc1 x0 x1 x2 x3 x4 x5 x6 x7).2.1 = Pay.fyBlk x0 x1 x2 x3 x4 x5 x6 x7 := by
  unfold outs0_A; dsimp only
  rw [View.read_writes_eq_canon _ _ _ (View.cover_of_tiledL _ S128000.size (by sl_kernel_rfl))]
  unfold kernelRun0_A
  dsimp only
  sl_unfold_words
  rw [View.canon_unit_zero hz1]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem out_A_9 (l : Fin 128000) : (outs0_A (F := Ideal) c i bs hc0 hc1 x0 x1 x2 x3 x4 x5 x6 x7).2.1 (ix1 l) = (Pay.E x0 x1 x2 x3 x4 x5 x6 x7 l).f 1 :=
  (congrFun (blk_A_9 c i bs hc0 hc1 x0 x1 x2 x3 x4 x5 x6 x7) (ix1 l)).trans (Pay.fyBlk_apply x0 x1 x2 x3 x4 x5 x6 x7 l)

theorem blk_A_10 : (outs0_A (F := Ideal) c i bs hc0 hc1 x0 x1 x2 x3 x4 x5 x6 x7).2.2.1 = Pay.fzBlk x0 x1 x2 x3 x4 x5 x6 x7 := by
  unfold outs0_A; dsimp only
  rw [View.read_writes_eq_canon _ _ _ (View.cover_of_tiledL _ S128000.size (by sl_kernel_rfl))]
  unfold kernelRun0_A
  dsimp only
  sl_unfold_words
  rw [View.canon_unit_zero hz1]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem out_A_10 (l : Fin 128000) : (outs0_A (F := Ideal) c i bs hc0 hc1 x0 x1 x2 x3 x4 x5 x6 x7).2.2.1 (ix1 l) = (Pay.E x0 x1 x2 x3 x4 x5 x6 x7 l).f 2 :=
  (congrFun (blk_A_10 c i bs hc0 hc1 x0 x1 x2 x3 x4 x5 x6 x7) (ix1 l)).trans (Pay.fzBlk_apply x0 x1 x2 x3 x4 x5 x6 x7 l)

theorem acc_A_0 : (outs0_A (F := Ideal) c i bs hc0 hc1 x0 x1 x2 x3 x4 x5 x6 x7).2.2.2.2.2.2.1 = k0_pay32 (Pay.uSumBlk x0 x1 x2 x3 x4 x5 x6 x7) (k0_pay5 (F := Ideal)) := by
  unfold outs0_A; dsimp only
  rw [View.read_writes_eq_canon _ _ _ (View.cover_of_tiledL _ S1x1.size (by sl_kernel_rfl))]
  unfold kernelRun0_A
  dsimp only
  sl_unfold_words
  rw [View.canon_cons_unit_zero (S := S1x1) hz2, View.readCov_unit_zero (S := S1x1) _ hz2]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem sout_A_0 : (outs0_A (F := Ideal) c i bs hc0 hc1 x0 x1 x2 x3 x4 x5 x6 x7).2.2.2.2.2.2.1 (ix2 0 0) = ∑ l : Fin 128000, (Pay.E x0 x1 x2 x3 x4 x5 x6 x7 l).u := by
  refine (congrFun ((acc_A_0 c i bs hc0 hc1 x0 x1 x2 x3 x4 x5 x6 x7).trans (Pay.eAcc_eq x0 x1 x2 x3 x4 x5 x6 x7 (k0_pay5 (F := Ideal)))) (ix2 0 0)).trans ?_
  show k0_pay5 (F := Ideal) (ix2 0 0) + _ = _
  rw [Pay.pay5_eq]
  exact zero_add _

theorem acc_A_1 : (outs0_A (F := Ideal) c i bs hc0 hc1 x0 x1 x2 x3 x4 x5 x6 x7).2.2.2.2.2.2.2.1
    = k0_pay33 (Pay.dBlk x0 x1 x2 x3 x4 x5) (Pay.maskBlk x0 x1 x2 x3 x4 x5) (Pay.fmagBlk x0 x1 x2 x3 x4 x5 x6 x7) (k0_pay6 (F := Ideal)) := by
  unfold outs0_A; dsimp only
  rw [View.read_writes_eq_canon _ _ _ (View.cover_of_tiledL _ S1x1.size (by sl_kernel_rfl))]
  unfold kernelRun0_A
  dsimp only
  sl_unfold_words
  rw [View.canon_cons_unit_zero (S := S1x1) hz2, View.readCov_unit_zero (S := S1x1) _ hz2]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem sout_A_1 : (outs0_A (F := Ideal) c i bs hc0 hc1 x0 x1 x2 x3 x4 x5 x6 x7).2.2.2.2.2.2.2.1 (ix2 0 0) = ∑ l : Fin 128000, (Pay.E x0 x1 x2 x3 x4 x5 x6 x7 l).w := by
  refine (congrFun ((acc_A_1 c i bs hc0 hc1 x0 x1 x2 x3 x4 x5 x6 x7).trans (Pay.wAcc_eq x0 x1 x2 x3 x4 x5 x6 x7 (k0_pay6 (F := Ideal)))) (ix2 0 0)).trans ?_
  show k0_pay6 (F := Ideal) (ix2 0 0) + _ = _
  rw [Pay.pay6_eq]
  exact zero_add _

theorem sout_A_2 (a b : Fin 3) : (outs0_A (F := Ideal) c i bs hc0 hc1 x0 x1 x2 x3 x4 x5 x6 x7).2.2.2.2.2.2.2.2 (ix2 a b)
    = ∑ l : Fin 128000, (Pay.E x0 x1 x2 x3 x4 x5 x6 x7 l).f a * (Pay.E x0 x1 x2 x3 x4 x5 x6 x7 l).r b := by
  unfold outs0_A; dsimp only
  rw [View.read_writes_eq_canon _ _ _ (View.cover_of_tiledL (s := S3x3) _ S1x1.size (by sl_kernel_rfl))]
  unfold kernelRun0_A
  dsimp only
  sl_unfold_words
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]
  refine (tab9 x0 x1 x2 x3 x4 x5 x6 x7 _ _ _ _ _ _ _ _ _ [_] a b).trans ?_
  fin_cases a <;> fin_cases b
  · refine (congrArg (· + _) ?_).trans (zero_add _)
    refine (readCov33 _ _ (0 : Fin 3) (0 : Fin 3) 0 0 rfl rfl _).trans ?_
    exact (congrFun (View.canon_cons_unit_zero (S := S3x3) hz2 _ _ []) _).trans (congrFun Pay.pay7_eq _)
  · refine (congrArg (· + _) ?_).trans (zero_add _)
    refine (readCov33 _ _ (0 : Fin 3) (1 : Fin 3) 0 1 rfl rfl _).trans ?_
    rw [canon_skip33 _ _ 0 0 _ (by decide)]
    exact (congrFun (View.canon_cons_unit_zero (S := S3x3) hz2 _ _ []) _).trans (congrFun Pay.pay7_eq _)
  · refine (congrArg (· + _) ?_).trans (zero_add _)
    refine (readCov33 _ _ (0 : Fin 3) (2 : Fin 3) 0 2 rfl rfl _).trans ?_
    rw [canon_skip33 _ _ 0 1 _ (by decide),
      canon_skip33 _ _ 0 0 _ (by decide)]
    exact (congrFun (View.canon_cons_unit_zero (S := S3x3) hz2 _ _ []) _).trans (congrFun Pay.pay7_eq _)
  · refine (congrArg (· + _) ?_).trans (zero_add _)
    refine (readCov33 _ _ (1 : Fin 3) (0 : Fin 3) 1 0 rfl rfl _).trans ?_
    rw [canon_skip33 _ _ 0 2 _ (by decide),
      canon_skip33 _ _ 0 1 _ (by decide),
      canon_skip33 _ _ 0 0 _ (by decide)]
    exact (congrFun (View.canon_cons_unit_zero (S := S3x3) hz2 _ _ []) _).trans (congrFun Pay.pay7_eq _)
  · refine (congrArg (· + _) ?_).trans (zero_add _)
    refine (readCov33 _ _ (1 : Fin 3) (1 : Fin 3) 1 1 rfl rfl _).trans ?_
    rw [canon_skip33 _ _ 1 0 _ (by decide),
      canon_skip33 _ _ 0 2 _ (by decide),
      canon_skip33 _ _ 0 1 _ (by decide),
      canon_skip33 _ _ 0 0 _ (by decide)]
    exact (congrFun (View.canon_cons_unit_zero (S := S3x3) hz2 _ _ []) _).trans (congrFun Pay.pay7_eq _)
  · refine (congrArg (· + _) ?_).trans (zero_add _)
    refine (readCov33 _ _ (1 : Fin 3) (2 : Fin 3) 1 2 rfl rfl _).trans ?_
    rw [canon_skip33 _ _ 1 1 _ (by decide),
      canon_skip33 _ _ 1 0 _ (by decide),
      canon_skip33 _ _ 0 2 _ (by decide),
      canon_skip33 _ _ 0 1 _ (by decide),
      canon_skip33 _ _ 0 0 _ (by decide)]
    exact (congrFun (View.canon_cons_unit_zero (S := S3x3) hz2 _ _ []) _).trans (congrFun Pay.pay7_eq _)
  · refine (congrArg (· + _) ?_).trans (zero_add _)
    refine (readCov33 _ _ (2 : Fin 3) (0 : Fin 3) 2 0 rfl rfl _).trans ?_
    rw [canon_skip33 _ _ 1 2 _ (by decide),
      canon_skip33 _ _ 1 1 _ (by decide),
      canon_skip33 _ _ 1 0 _ (by decide),
      canon_skip33 _ _ 0 2 _ (by decide),
      canon_skip33 _ _ 0 1 _ (by decide),
      canon_skip33 _ _ 0 0 _ (by decide)]
    exact (congrFun (View.canon_cons_unit_zero (S := S3x3) hz2 _ _ []) _).trans (congrFun Pay.pay7_eq _)
  · refine (congrArg (· + _) ?_).trans (zero_add _)
    refine (readCov33 _ _ (2 : Fin 3) (1 : Fin 3) 2 1 rfl rfl _).trans ?_
    rw [canon_skip33 _ _ 2 0 _ (by decide),
      canon_skip33 _ _ 1 2 _ (by decide),
      canon_skip33 _ _ 1 1 _ (by decide),
      canon_skip33 _ _ 1 0 _ (by decide),
      canon_skip33 _ _ 0 2 _ (by decide),
      canon_skip33 _ _ 0 1 _ (by decide),
      canon_skip33 _ _ 0 0 _ (by decide)]
    exact (congrFun (View.canon_cons_unit_zero (S := S3x3) hz2 _ _ []) _).trans (congrFun Pay.pay7_eq _)
  · refine (congrArg (· + _) ?_).trans (zero_add _)
    refine (readCov33 _ _ (2 : Fin 3) (2 : Fin 3) 2 2 rfl rfl _).trans ?_
    rw [canon_skip33 _ _ 2 1 _ (by decide),
      canon_skip33 _ _ 2 0 _ (by decide),
      canon_skip33 _ _ 1 2 _ (by decide),
      canon_skip33 _ _ 1 1 _ (by decide),
      canon_skip33 _ _ 1 0 _ (by decide),
      canon_skip33 _ _ 0 2 _ (by decide),
      canon_skip33 _ _ 0 1 _ (by decide),
      canon_skip33 _ _ 0 0 _ (by decide)]
    exact (congrFun (View.canon_cons_unit_zero (S := S3x3) hz2 _ _ []) _).trans (congrFun Pay.pay7_eq _)

end KindA

section KindB
variable (c : Dev nD) (i : grid0.Coords) (bs : Bufs) (hc0 : ¬cond0_0 i) (hc1 : ¬cond0_1 i)
    (x0 : Vec Ideal S128000 .f32) (x1 : Vec Ideal S128000 .f32) (x2 : Vec Ideal S128000 .f32) (x3 : Vec Ideal S128000 .f32) (x4 : Vec Ideal S128000 .f32) (x5 : Vec Ideal S128000 .f32) (x6 : Vec Ideal S128000 .f32) (x7 : Vec Ideal S128000 .f32) (xs0 : Vec Ideal S1x1 .f32) (xs1 : Vec Ideal S1x1 .f32) (xs2 : Vec Ideal S3x3 .f32)

theorem blk_B_8 : (outs0_B (F := Ideal) c i bs hc0 hc1 x0 x1 x2 x3 x4 x5 x6 x7 xs0 xs1 xs2).1 = Pay.fxBlk x0 x1 x2 x3 x4 x5 x6 x7 := by
  unfold outs0_B; dsimp only
  rw [View.read_writes_eq_canon _ _ _ (View.cover_of_tiledL _ S128000.size (by sl_kernel_rfl))]
  unfold kernelRun0_B
  dsimp only
  sl_unfold_words
  rw [View.canon_unit_zero hz1]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem out_B_8 (l : Fin 128000) : (outs0_B (F := Ideal) c i bs hc0 hc1 x0 x1 x2 x3 x4 x5 x6 x7 xs0 xs1 xs2).1 (ix1 l) = (Pay.E x0 x1 x2 x3 x4 x5 x6 x7 l).f 0 :=
  (congrFun (blk_B_8 c i bs hc0 hc1 x0 x1 x2 x3 x4 x5 x6 x7 xs0 xs1 xs2) (ix1 l)).trans (Pay.fxBlk_apply x0 x1 x2 x3 x4 x5 x6 x7 l)

theorem blk_B_9 : (outs0_B (F := Ideal) c i bs hc0 hc1 x0 x1 x2 x3 x4 x5 x6 x7 xs0 xs1 xs2).2.1 = Pay.fyBlk x0 x1 x2 x3 x4 x5 x6 x7 := by
  unfold outs0_B; dsimp only
  rw [View.read_writes_eq_canon _ _ _ (View.cover_of_tiledL _ S128000.size (by sl_kernel_rfl))]
  unfold kernelRun0_B
  dsimp only
  sl_unfold_words
  rw [View.canon_unit_zero hz1]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem out_B_9 (l : Fin 128000) : (outs0_B (F := Ideal) c i bs hc0 hc1 x0 x1 x2 x3 x4 x5 x6 x7 xs0 xs1 xs2).2.1 (ix1 l) = (Pay.E x0 x1 x2 x3 x4 x5 x6 x7 l).f 1 :=
  (congrFun (blk_B_9 c i bs hc0 hc1 x0 x1 x2 x3 x4 x5 x6 x7 xs0 xs1 xs2) (ix1 l)).trans (Pay.fyBlk_apply x0 x1 x2 x3 x4 x5 x6 x7 l)

theorem blk_B_10 : (outs0_B (F := Ideal) c i bs hc0 hc1 x0 x1 x2 x3 x4 x5 x6 x7 xs0 xs1 xs2).2.2.1 = Pay.fzBlk x0 x1 x2 x3 x4 x5 x6 x7 := by
  unfold outs0_B; dsimp only
  rw [View.read_writes_eq_canon _ _ _ (View.cover_of_tiledL _ S128000.size (by sl_kernel_rfl))]
  unfold kernelRun0_B
  dsimp only
  sl_unfold_words
  rw [View.canon_unit_zero hz1]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem out_B_10 (l : Fin 128000) : (outs0_B (F := Ideal) c i bs hc0 hc1 x0 x1 x2 x3 x4 x5 x6 x7 xs0 xs1 xs2).2.2.1 (ix1 l) = (Pay.E x0 x1 x2 x3 x4 x5 x6 x7 l).f 2 :=
  (congrFun (blk_B_10 c i bs hc0 hc1 x0 x1 x2 x3 x4 x5 x6 x7 xs0 xs1 xs2) (ix1 l)).trans (Pay.fzBlk_apply x0 x1 x2 x3 x4 x5 x6 x7 l)

theorem acc_B_0 : (outs0_B (F := Ideal) c i bs hc0 hc1 x0 x1 x2 x3 x4 x5 x6 x7 xs0 xs1 xs2).2.2.2.2.2.2.1 = k0_pay32 (Pay.uSumBlk x0 x1 x2 x3 x4 x5 x6 x7) xs0 := by
  unfold outs0_B; dsimp only
  rw [View.read_writes_eq_canon _ _ _ (View.cover_of_tiledL _ S1x1.size (by sl_kernel_rfl))]
  unfold kernelRun0_B
  dsimp only
  sl_unfold_words
  rw [View.canon_unit_zero hz2]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem sout_B_0 : (outs0_B (F := Ideal) c i bs hc0 hc1 x0 x1 x2 x3 x4 x5 x6 x7 xs0 xs1 xs2).2.2.2.2.2.2.1 (ix2 0 0) = xs0 (ix2 0 0) + ∑ l : Fin 128000, (Pay.E x0 x1 x2 x3 x4 x5 x6 x7 l).u :=
  congrFun ((acc_B_0 c i bs hc0 hc1 x0 x1 x2 x3 x4 x5 x6 x7 xs0 xs1 xs2).trans (Pay.eAcc_eq x0 x1 x2 x3 x4 x5 x6 x7 xs0)) (ix2 0 0)

theorem acc_B_1 : (outs0_B (F := Ideal) c i bs hc0 hc1 x0 x1 x2 x3 x4 x5 x6 x7 xs0 xs1 xs2).2.2.2.2.2.2.2.1
    = k0_pay33 (Pay.dBlk x0 x1 x2 x3 x4 x5) (Pay.maskBlk x0 x1 x2 x3 x4 x5) (Pay.fmagBlk x0 x1 x2 x3 x4 x5 x6 x7) xs1 := by
  unfold outs0_B; dsimp only
  rw [View.read_writes_eq_canon _ _ _ (View.cover_of_tiledL _ S1x1.size (by sl_kernel_rfl))]
  unfold kernelRun0_B
  dsimp only
  sl_unfold_words
  rw [View.canon_unit_zero hz2]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem sout_B_1 : (outs0_B (F := Ideal) c i bs hc0 hc1 x0 x1 x2 x3 x4 x5 x6 x7 xs0 xs1 xs2).2.2.2.2.2.2.2.1 (ix2 0 0) = xs1 (ix2 0 0) + ∑ l : Fin 128000, (Pay.E x0 x1 x2 x3 x4 x5 x6 x7 l).w :=
  congrFun ((acc_B_1 c i bs hc0 hc1 x0 x1 x2 x3 x4 x5 x6 x7 xs0 xs1 xs2).trans (Pay.wAcc_eq x0 x1 x2 x3 x4 x5 x6 x7 xs1)) (ix2 0 0)

theorem sout_B_2 (a b : Fin 3) : (outs0_B (F := Ideal) c i bs hc0 hc1 x0 x1 x2 x3 x4 x5 x6 x7 xs0 xs1 xs2).2.2.2.2.2.2.2.2 (ix2 a b)
    = xs2 (ix2 a b) + ∑ l : Fin 128000, (Pay.E x0 x1 x2 x3 x4 x5 x6 x7 l).f a * (Pay.E x0 x1 x2 x3 x4 x5 x6 x7 l).r b := by
  unfold outs0_B; dsimp only
  rw [View.read_writes_eq_canon _ _ _ (View.cover_of_tiledL (s := S3x3) _ S1x1.size (by sl_kernel_rfl))]
  unfold kernelRun0_B
  dsimp only
  sl_unfold_words
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]
  refine (tab9 x0 x1 x2 x3 x4 x5 x6 x7 _ _ _ _ _ _ _ _ _ [] a b).trans ?_
  fin_cases a <;> fin_cases b
  · exact congrArg (· + _) (ld33' xs2 _ _ 0 0 rfl rfl _)
  · exact congrArg (· + _) (ld33' xs2 _ _ 0 1 rfl rfl _)
  · exact congrArg (· + _) (ld33' xs2 _ _ 0 2 rfl rfl _)
  · exact congrArg (· + _) (ld33' xs2 _ _ 1 0 rfl rfl _)
  · exact congrArg (· + _) (ld33' xs2 _ _ 1 1 rfl rfl _)
  · exact congrArg (· + _) (ld33' xs2 _ _ 1 2 rfl rfl _)
  · exact congrArg (· + _) (ld33' xs2 _ _ 2 0 rfl rfl _)
  · exact congrArg (· + _) (ld33' xs2 _ _ 2 1 rfl rfl _)
  · exact congrArg (· + _) (ld33' xs2 _ _ 2 2 rfl rfl _)

end KindB

section KindC
variable (c : Dev nD) (i : grid0.Coords) (bs : Bufs) (hc0 : ¬cond0_0 i) (hc1 : cond0_1 i)
    (x0 : Vec Ideal S128000 .f32) (x1 : Vec Ideal S128000 .f32) (x2 : Vec Ideal S128000 .f32) (x3 : Vec Ideal S128000 .f32) (x4 : Vec Ideal S128000 .f32) (x5 : Vec Ideal S128000 .f32) (x6 : Vec Ideal S128000 .f32) (x7 : Vec Ideal S128000 .f32) (xs0 : Vec Ideal S1x1 .f32) (xs1 : Vec Ideal S1x1 .f32) (xs2 : Vec Ideal S3x3 .f32)

theorem blk_C_8 : (outs0_C (F := Ideal) c i bs hc0 hc1 x0 x1 x2 x3 x4 x5 x6 x7 xs0 xs1 xs2).1 = Pay.fxBlk x0 x1 x2 x3 x4 x5 x6 x7 := by
  unfold outs0_C; dsimp only
  rw [View.read_writes_eq_canon _ _ _ (View.cover_of_tiledL _ S128000.size (by sl_kernel_rfl))]
  unfold kernelRun0_C
  dsimp only
  sl_unfold_words
  rw [View.canon_unit_zero hz1]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem out_C_8 (l : Fin 128000) : (outs0_C (F := Ideal) c i bs hc0 hc1 x0 x1 x2 x3 x4 x5 x6 x7 xs0 xs1 xs2).1 (ix1 l) = (Pay.E x0 x1 x2 x3 x4 x5 x6 x7 l).f 0 :=
  (congrFun (blk_C_8 c i bs hc0 hc1 x0 x1 x2 x3 x4 x5 x6 x7 xs0 xs1 xs2) (ix1 l)).trans (Pay.fxBlk_apply x0 x1 x2 x3 x4 x5 x6 x7 l)

theorem blk_C_9 : (outs0_C (F := Ideal) c i bs hc0 hc1 x0 x1 x2 x3 x4 x5 x6 x7 xs0 xs1 xs2).2.1 = Pay.fyBlk x0 x1 x2 x3 x4 x5 x6 x7 := by
  unfold outs0_C; dsimp only
  rw [View.read_writes_eq_canon _ _ _ (View.cover_of_tiledL _ S128000.size (by sl_kernel_rfl))]
  unfold kernelRun0_C
  dsimp only
  sl_unfold_words
  rw [View.canon_unit_zero hz1]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem out_C_9 (l : Fin 128000) : (outs0_C (F := Ideal) c i bs hc0 hc1 x0 x1 x2 x3 x4 x5 x6 x7 xs0 xs1 xs2).2.1 (ix1 l) = (Pay.E x0 x1 x2 x3 x4 x5 x6 x7 l).f 1 :=
  (congrFun (blk_C_9 c i bs hc0 hc1 x0 x1 x2 x3 x4 x5 x6 x7 xs0 xs1 xs2) (ix1 l)).trans (Pay.fyBlk_apply x0 x1 x2 x3 x4 x5 x6 x7 l)

theorem blk_C_10 : (outs0_C (F := Ideal) c i bs hc0 hc1 x0 x1 x2 x3 x4 x5 x6 x7 xs0 xs1 xs2).2.2.1 = Pay.fzBlk x0 x1 x2 x3 x4 x5 x6 x7 := by
  unfold outs0_C; dsimp only
  rw [View.read_writes_eq_canon _ _ _ (View.cover_of_tiledL _ S128000.size (by sl_kernel_rfl))]
  unfold kernelRun0_C
  dsimp only
  sl_unfold_words
  rw [View.canon_unit_zero hz1]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem out_C_10 (l : Fin 128000) : (outs0_C (F := Ideal) c i bs hc0 hc1 x0 x1 x2 x3 x4 x5 x6 x7 xs0 xs1 xs2).2.2.1 (ix1 l) = (Pay.E x0 x1 x2 x3 x4 x5 x6 x7 l).f 2 :=
  (congrFun (blk_C_10 c i bs hc0 hc1 x0 x1 x2 x3 x4 x5 x6 x7 xs0 xs1 xs2) (ix1 l)).trans (Pay.fzBlk_apply x0 x1 x2 x3 x4 x5 x6 x7 l)

theorem acc_C_0 : (outs0_C (F := Ideal) c i bs hc0 hc1 x0 x1 x2 x3 x4 x5 x6 x7 xs0 xs1 xs2).2.2.2.2.2.2.1 = k0_pay32 (Pay.uSumBlk x0 x1 x2 x3 x4 x5 x6 x7) xs0 := by
  unfold outs0_C; dsimp only
  rw [View.read_writes_eq_canon _ _ _ (View.cover_of_tiledL _ S1x1.size (by sl_kernel_rfl))]
  unfold kernelRun0_C
  dsimp only
  sl_unfold_words
  rw [View.canon_unit_zero hz2]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem sout_C_0 : (outs0_C (F := Ideal) c i bs hc0 hc1 x0 x1 x2 x3 x4 x5 x6 x7 xs0 xs1 xs2).2.2.2.2.2.2.1 (ix2 0 0) = xs0 (ix2 0 0) + ∑ l : Fin 128000, (Pay.E x0 x1 x2 x3 x4 x5 x6 x7 l).u :=
  congrFun ((acc_C_0 c i bs hc0 hc1 x0 x1 x2 x3 x4 x5 x6 x7 xs0 xs1 xs2).trans (Pay.eAcc_eq x0 x1 x2 x3 x4 x5 x6 x7 xs0)) (ix2 0 0)

theorem acc_C_1 : (outs0_C (F := Ideal) c i bs hc0 hc1 x0 x1 x2 x3 x4 x5 x6 x7 xs0 xs1 xs2).2.2.2.2.2.2.2.1
    = k0_pay33 (Pay.dBlk x0 x1 x2 x3 x4 x5) (Pay.maskBlk x0 x1 x2 x3 x4 x5) (Pay.fmagBlk x0 x1 x2 x3 x4 x5 x6 x7) xs1 := by
  unfold outs0_C; dsimp only
  rw [View.read_writes_eq_canon _ _ _ (View.cover_of_tiledL _ S1x1.size (by sl_kernel_rfl))]
  unfold kernelRun0_C
  dsimp only
  sl_unfold_words
  rw [View.canon_unit_zero hz2]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]

theorem sout_C_1 : (outs0_C (F := Ideal) c i bs hc0 hc1 x0 x1 x2 x3 x4 x5 x6 x7 xs0 xs1 xs2).2.2.2.2.2.2.2.1 (ix2 0 0) = xs1 (ix2 0 0) + ∑ l : Fin 128000, (Pay.E x0 x1 x2 x3 x4 x5 x6 x7 l).w :=
  congrFun ((acc_C_1 c i bs hc0 hc1 x0 x1 x2 x3 x4 x5 x6 x7 xs0 xs1 xs2).trans (Pay.wAcc_eq x0 x1 x2 x3 x4 x5 x6 x7 xs1)) (ix2 0 0)

theorem sout_C_2 (a b : Fin 3) : (outs0_C (F := Ideal) c i bs hc0 hc1 x0 x1 x2 x3 x4 x5 x6 x7 xs0 xs1 xs2).2.2.2.2.2.2.2.2 (ix2 a b)
    = xs2 (ix2 a b) + ∑ l : Fin 128000, (Pay.E x0 x1 x2 x3 x4 x5 x6 x7 l).f a * (Pay.E x0 x1 x2 x3 x4 x5 x6 x7 l).r b := by
  unfold outs0_C; dsimp only
  rw [View.read_writes_eq_canon _ _ _ (View.cover_of_tiledL (s := S3x3) _ S1x1.size (by sl_kernel_rfl))]
  unfold kernelRun0_C
  dsimp only
  sl_unfold_words
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]
  refine (tab9 x0 x1 x2 x3 x4 x5 x6 x7 _ _ _ _ _ _ _ _ _ [] a b).trans ?_
  fin_cases a <;> fin_cases b
  · exact congrArg (· + _) (ld33' xs2 _ _ 0 0 rfl rfl _)
  · exact congrArg (· + _) (ld33' xs2 _ _ 0 1 rfl rfl _)
  · exact congrArg (· + _) (ld33' xs2 _ _ 0 2 rfl rfl _)
  · exact congrArg (· + _) (ld33' xs2 _ _ 1 0 rfl rfl _)
  · exact congrArg (· + _) (ld33' xs2 _ _ 1 1 rfl rfl _)
  · exact congrArg (· + _) (ld33' xs2 _ _ 1 2 rfl rfl _)
  · exact congrArg (· + _) (ld33' xs2 _ _ 2 0 rfl rfl _)
  · exact congrArg (· + _) (ld33' xs2 _ _ 2 1 rfl rfl _)
  · exact congrArg (· + _) (ld33' xs2 _ _ 2 2 rfl rfl _)

theorem blk_C_11 : (outs0_C (F := Ideal) c i bs hc0 hc1 x0 x1 x2 x3 x4 x5 x6 x7 xs0 xs1 xs2).2.2.2.1 = k0_pay2 (k0_pay32 (Pay.uSumBlk x0 x1 x2 x3 x4 x5 x6 x7) xs0) := by
  unfold outs0_C; dsimp only
  rw [View.read_writes_eq_canon _ _ _ (View.cover_of_tiledL _ S1x1x1.size (by sl_kernel_rfl))]
  unfold kernelRun0_C
  dsimp only
  sl_unfold_words
  rw [View.canon_unit_zero hz3]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2, View.readCov_unit_zero (S := S1x1) _ hz2]

theorem out_C_11 : (outs0_C (F := Ideal) c i bs hc0 hc1 x0 x1 x2 x3 x4 x5 x6 x7 xs0 xs1 xs2).2.2.2.1 (ix3 0 0 0) = xs0 (ix2 0 0) + ∑ l : Fin 128000, (Pay.E x0 x1 x2 x3 x4 x5 x6 x7 l).u :=
  (congrFun (blk_C_11 c i bs hc0 hc1 x0 x1 x2 x3 x4 x5 x6 x7 xs0 xs1 xs2) (ix3 0 0 0)).trans
    ((Pay.pay2_apply _).trans (congrFun (Pay.eAcc_eq x0 x1 x2 x3 x4 x5 x6 x7 xs0) (ix2 0 0)))

theorem blk_C_12 : (outs0_C (F := Ideal) c i bs hc0 hc1 x0 x1 x2 x3 x4 x5 x6 x7 xs0 xs1 xs2).2.2.2.2.1
    = k0_pay3 (k0_pay33 (Pay.dBlk x0 x1 x2 x3 x4 x5) (Pay.maskBlk x0 x1 x2 x3 x4 x5) (Pay.fmagBlk x0 x1 x2 x3 x4 x5 x6 x7) xs1) := by
  unfold outs0_C; dsimp only
  rw [View.read_writes_eq_canon _ _ _ (View.cover_of_tiledL _ S1x1x1.size (by sl_kernel_rfl))]
  unfold kernelRun0_C
  dsimp only
  sl_unfold_words
  rw [View.canon_unit_zero hz3]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2, View.readCov_unit_zero (S := S1x1) _ hz2]

theorem out_C_12 : (outs0_C (F := Ideal) c i bs hc0 hc1 x0 x1 x2 x3 x4 x5 x6 x7 xs0 xs1 xs2).2.2.2.2.1 (ix3 0 0 0) = xs1 (ix2 0 0) + ∑ l : Fin 128000, (Pay.E x0 x1 x2 x3 x4 x5 x6 x7 l).w :=
  (congrFun (blk_C_12 c i bs hc0 hc1 x0 x1 x2 x3 x4 x5 x6 x7 xs0 xs1 xs2) (ix3 0 0 0)).trans
    ((Pay.pay3_apply _).trans (congrFun (Pay.wAcc_eq x0 x1 x2 x3 x4 x5 x6 x7 xs1) (ix2 0 0)))

theorem out_C_13 (a b : Fin 3) : (outs0_C (F := Ideal) c i bs hc0 hc1 x0 x1 x2 x3 x4 x5 x6 x7 xs0 xs1 xs2).2.2.2.2.2.1 (ix3 0 a b)
    = xs2 (ix2 a b) + ∑ l : Fin 128000, (Pay.E x0 x1 x2 x3 x4 x5 x6 x7 l).f a * (Pay.E x0 x1 x2 x3 x4 x5 x6 x7 l).r b := by
  unfold outs0_C; dsimp only
  rw [View.read_writes_eq_canon _ _ _ (View.cover_of_tiledL _ S1x3x3.size (by sl_kernel_rfl))]
  unfold kernelRun0_C
  dsimp only
  sl_unfold_words
  rw [View.canon_unit_zero hz3]
  simp only [View.readAt_eq_ld, bs.harg2.read_unread, bs.harg3.read_unread, bs.harg4.read_unread, bs.harg5.read_unread, bs.harg6.read_unread, bs.harg7.read_unread, bs.harg8.read_unread, bs.harg9.read_unread, bs.harg16.read_unread, bs.harg17.read_unread, bs.harg18.read_unread, View.ld_unit_zero (S := S128000) hz1, View.ld_unit_zero (S := S1x1) hz2, View.ld_unit_zero (S := S3x3) hz2]
  refine (Pay.pay4_apply _ a b).trans ?_
  refine (readCovWhole33 _ _ _ (ix2 a b)).trans ?_
  refine (tab9 x0 x1 x2 x3 x4 x5 x6 x7 _ _ _ _ _ _ _ _ _ [] a b).trans ?_
  fin_cases a <;> fin_cases b
  · exact congrArg (· + _) (ld33' xs2 _ _ 0 0 rfl rfl _)
  · exact congrArg (· + _) (ld33' xs2 _ _ 0 1 rfl rfl _)
  · exact congrArg (· + _) (ld33' xs2 _ _ 0 2 rfl rfl _)
  · exact congrArg (· + _) (ld33' xs2 _ _ 1 0 rfl rfl _)
  · exact congrArg (· + _) (ld33' xs2 _ _ 1 1 rfl rfl _)
  · exact congrArg (· + _) (ld33' xs2 _ _ 1 2 rfl rfl _)
  · exact congrArg (· + _) (ld33' xs2 _ _ 2 0 rfl rfl _)
  · exact congrArg (· + _) (ld33' xs2 _ _ 2 1 rfl rfl _)
  · exact congrArg (· + _) (ld33' xs2 _ _ 2 2 rfl rfl _)

end KindC

end Cert.KernelIdeal.Val

end
-- ==== Proof.KI.Values.lean ====
import proofs.«420260_j7687991460463_2_alg».proof.Proof.KI.FrameDefs
import proofs.«420260_j7687991460463_2_alg».proof.Proof.KI.Payload
import proofs.«420260_j7687991460463_2_alg».proof.Proof.KI.Pieces
import proofs.«420260_j7687991460463_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem fold_steps {M : Type*} [AddCommMonoid M] (N : ℕ) (acc : (n : ℕ) → n < N → M) (b : ℕ → M)
    (h0 : ∀ (n : ℕ) (h : n < N), n % 25 = 0 → acc n h = b n)
    (hs : ∀ (n : ℕ) (h : n + 1 < N), ¬(n + 1) % 25 = 0 → acc (n + 1) h = acc n (Nat.lt_of_succ_lt h) + b (n + 1)) :
    ∀ (n : ℕ) (h : n < N), acc n h = ∑ s ∈ Finset.range (n % 25 + 1), b (n - n % 25 + s)
  | 0, h => by
    rw [h0 0 h rfl]
    simp
  | n + 1, h => by
    by_cases hm : (n + 1) % 25 = 0
    · rw [h0 _ h hm, hm]
      simp
    · have e1 : (n + 1) % 25 = n % 25 + 1 := by omega
      have e2 : n + 1 - (n + 1) % 25 = n - n % 25 := by omega
      rw [hs n h hm, fold_steps N acc b h0 hs n (Nat.lt_of_succ_lt h), e2, e1, Finset.sum_range_succ _ (n % 25 + 1)]
      congr 2
      omega

theorem idx_facts : ∀ t : Fin cfg0.N,
    win0_0.index t (0 : Fin 1) = t.val ∧ win0_1.index t (0 : Fin 1) = t.val ∧ win0_2.index t (0 : Fin 1) = t.val
    ∧ win0_3.index t (0 : Fin 1) = t.val ∧ win0_4.index t (0 : Fin 1) = t.val ∧ win0_5.index t (0 : Fin 1) = t.val
    ∧ win0_6.index t (0 : Fin 1) = t.val ∧ win0_7.index t (0 : Fin 1) = t.val
    ∧ win0_8.index t (0 : Fin 1) = t.val ∧ win0_9.index t (0 : Fin 1) = t.val ∧ win0_10.index t (0 : Fin 1) = t.val
    ∧ win0_11.index t (0 : Fin 3) = t.val / 25 ∧ win0_11.index t (1 : Fin 3) = 0 ∧ win0_11.index t (2 : Fin 3) = 0
    ∧ win0_12.index t (0 : Fin 3) = t.val / 25 ∧ win0_12.index t (1 : Fin 3) = 0 ∧ win0_12.index t (2 : Fin 3) = 0
    ∧ win0_13.index t (0 : Fin 3) = t.val / 25 ∧ win0_13.index t (1 : Fin 3) = 0 ∧ win0_13.index t (2 : Fin 3) = 0 :=
  (by decide +kernel : ∀ t : Fin grid0.N, _)

abbrev X0 (c : Dev nD) : S6400000.Idx → EReal := V m c (Pipeline.arrRef spec0 0)

abbrev xb0 (c : Dev nD) (t : Fin cfg0.N) : Vec Ideal S128000 .f32 := iblk m c 0 t

abbrev X1 (c : Dev nD) : S6400000.Idx → EReal := V m c (Pipeline.arrRef spec0 1)

abbrev xb1 (c : Dev nD) (t : Fin cfg0.N) : Vec Ideal S128000 .f32 := iblk m c 1 t

abbrev X2 (c : Dev nD) : S6400000.Idx → EReal := V m c (Pipeline.arrRef spec0 2)

abbrev xb2 (c : Dev nD) (t : Fin cfg0.N) : Vec Ideal S128000 .f32 := iblk m c 2 t

abbrev X3 (c : Dev nD) : S6400000.Idx → EReal := V m c (Pipeline.arrRef spec0 3)

abbrev xb3 (c : Dev nD) (t : Fin cfg0.N) : Vec Ideal S128000 .f32 := iblk m c 3 t

abbrev X4 (c : Dev nD) : S6400000.Idx → EReal := V m c (Pipeline.arrRef spec0 4)

abbrev xb4 (c : Dev nD) (t : Fin cfg0.N) : Vec Ideal S128000 .f32 := iblk m c 4 t

abbrev X5 (c : Dev nD) : S6400000.Idx → EReal := V m c (Pipeline.arrRef spec0 5)

abbrev xb5 (c : Dev nD) (t : Fin cfg0.N) : Vec Ideal S128000 .f32 := iblk m c 5 t

abbrev X6 (c : Dev nD) : S6400000.Idx → EReal := V m c (Pipeline.arrRef spec0 6)

abbrev xb6 (c : Dev nD) (t : Fin cfg0.N) : Vec Ideal S128000 .f32 := iblk m c 6 t

abbrev X7 (c : Dev nD) : S6400000.Idx → EReal := V m c (Pipeline.arrRef spec0 7)

abbrev xb7 (c : Dev nD) (t : Fin cfg0.N) : Vec Ideal S128000 .f32 := iblk m c 7 t

def eOf (n l : ℕ) : Fin 6400000 := ⟨(n * 128000 + l) % 6400000, Nat.mod_lt _ (by decide)⟩

theorem eOf_val {n l : ℕ} (hn : n < 50) (hl : l < 128000) : (eOf n l).val = n * 128000 + l := by
  show (n * 128000 + l) % 6400000 = n * 128000 + l
  omega

theorem xb0_apply (c : Dev nD) (t : Fin cfg0.N) (l : Fin 128000) : xb0 m c t (ix1 l) = X0 m c (ix1 (eOf t.val l.val)) := by
  have hN : cfg0.N = 50 := N_0
  have ht : t.val < 50 := hN ▸ t.isLt
  have hi : win0_0.index t (0 : Fin 1) = t.val := (idx_facts t).1
  unfold xb0 iblk
  rw [View.read_apply]
  show V m c (Pipeline.arrRef spec0 0) _ = V m c (Pipeline.arrRef spec0 0) _
  congr 1
  funext a
  apply Fin.ext
  match a with
  | ⟨0, _⟩ => show win0_0.index t (0 : Fin 1) * 128000 + 1 * l.val = (eOf t.val l.val).val; rw [hi, eOf_val ht l.isLt]; omega

theorem xb1_apply (c : Dev nD) (t : Fin cfg0.N) (l : Fin 128000) : xb1 m c t (ix1 l) = X1 m c (ix1 (eOf t.val l.val)) := by
  have hN : cfg0.N = 50 := N_0
  have ht : t.val < 50 := hN ▸ t.isLt
  have hi : win0_1.index t (0 : Fin 1) = t.val := (idx_facts t).2.1
  unfold xb1 iblk
  rw [View.read_apply]
  show V m c (Pipeline.arrRef spec0 1) _ = V m c (Pipeline.arrRef spec0 1) _
  congr 1
  funext a
  apply Fin.ext
  match a with
  | ⟨0, _⟩ => show win0_1.index t (0 : Fin 1) * 128000 + 1 * l.val = (eOf t.val l.val).val; rw [hi, eOf_val ht l.isLt]; omega

theorem xb2_apply (c : Dev nD) (t : Fin cfg0.N) (l : Fin 128000) : xb2 m c t (ix1 l) = X2 m c (ix1 (eOf t.val l.val)) := by
  have hN : cfg0.N = 50 := N_0
  have ht : t.val < 50 := hN ▸ t.isLt
  have hi : win0_2.index t (0 : Fin 1) = t.val := (idx_facts t).2.2.1
  unfold xb2 iblk
  rw [View.read_apply]
  show V m c (Pipeline.arrRef spec0 2) _ = V m c (Pipeline.arrRef spec0 2) _
  congr 1
  funext a
  apply Fin.ext
  match a with
  | ⟨0, _⟩ => show win0_2.index t (0 : Fin 1) * 128000 + 1 * l.val = (eOf t.val l.val).val; rw [hi, eOf_val ht l.isLt]; omega

theorem xb3_apply (c : Dev nD) (t : Fin cfg0.N) (l : Fin 128000) : xb3 m c t (ix1 l) = X3 m c (ix1 (eOf t.val l.val)) := by
  have hN : cfg0.N = 50 := N_0
  have ht : t.val < 50 := hN ▸ t.isLt
  have hi : win0_3.index t (0 : Fin 1) = t.val := (idx_facts t).2.2.2.1
  unfold xb3 iblk
  rw [View.read_apply]
  show V m c (Pipeline.arrRef spec0 3) _ = V m c (Pipeline.arrRef spec0 3) _
  congr 1
  funext a
  apply Fin.ext
  match a with
  | ⟨0, _⟩ => show win0_3.index t (0 : Fin 1) * 128000 + 1 * l.val = (eOf t.val l.val).val; rw [hi, eOf_val ht l.isLt]; omega

theorem xb4_apply (c : Dev nD) (t : Fin cfg0.N) (l : Fin 128000) : xb4 m c t (ix1 l) = X4 m c (ix1 (eOf t.val l.val)) := by
  have hN : cfg0.N = 50 := N_0
  have ht : t.val < 50 := hN ▸ t.isLt
  have hi : win0_4.index t (0 : Fin 1) = t.val := (idx_facts t).2.2.2.2.1
  unfold xb4 iblk
  rw [View.read_apply]
  show V m c (Pipeline.arrRef spec0 4) _ = V m c (Pipeline.arrRef spec0 4) _
  congr 1
  funext a
  apply Fin.ext
  match a with
  | ⟨0, _⟩ => show win0_4.index t (0 : Fin 1) * 128000 + 1 * l.val = (eOf t.val l.val).val; rw [hi, eOf_val ht l.isLt]; omega

theorem xb5_apply (c : Dev nD) (t : Fin cfg0.N) (l : Fin 128000) : xb5 m c t (ix1 l) = X5 m c (ix1 (eOf t.val l.val)) := by
  have hN : cfg0.N = 50 := N_0
  have ht : t.val < 50 := hN ▸ t.isLt
  have hi : win0_5.index t (0 : Fin 1) = t.val := (idx_facts t).2.2.2.2.2.1
  unfold xb5 iblk
  rw [View.read_apply]
  show V m c (Pipeline.arrRef spec0 5) _ = V m c (Pipeline.arrRef spec0 5) _
  congr 1
  funext a
  apply Fin.ext
  match a with
  | ⟨0, _⟩ => show win0_5.index t (0 : Fin 1) * 128000 + 1 * l.val = (eOf t.val l.val).val; rw [hi, eOf_val ht l.isLt]; omega

theorem xb6_apply (c : Dev nD) (t : Fin cfg0.N) (l : Fin 128000) : xb6 m c t (ix1 l) = X6 m c (ix1 (eOf t.val l.val)) := by
  have hN : cfg0.N = 50 := N_0
  have ht : t.val < 50 := hN ▸ t.isLt
  have hi : win0_6.index t (0 : Fin 1) = t.val := (idx_facts t).2.2.2.2.2.2.1
  unfold xb6 iblk
  rw [View.read_apply]
  show V m c (Pipeline.arrRef spec0 6) _ = V m c (Pipeline.arrRef spec0 6) _
  congr 1
  funext a
  apply Fin.ext
  match a with
  | ⟨0, _⟩ => show win0_6.index t (0 : Fin 1) * 128000 + 1 * l.val = (eOf t.val l.val).val; rw [hi, eOf_val ht l.isLt]; omega

theorem xb7_apply (c : Dev nD) (t : Fin cfg0.N) (l : Fin 128000) : xb7 m c t (ix1 l) = X7 m c (ix1 (eOf t.val l.val)) := by
  have hN : cfg0.N = 50 := N_0
  have ht : t.val < 50 := hN ▸ t.isLt
  have hi : win0_7.index t (0 : Fin 1) = t.val := (idx_facts t).2.2.2.2.2.2.2.1
  unfold xb7 iblk
  rw [View.read_apply]
  show V m c (Pipeline.arrRef spec0 7) _ = V m c (Pipeline.arrRef spec0 7) _
  congr 1
  funext a
  apply Fin.ext
  match a with
  | ⟨0, _⟩ => show win0_7.index t (0 : Fin 1) * 128000 + 1 * l.val = (eOf t.val l.val).val; rw [hi, eOf_val ht l.isLt]; omega

def EK (c : Dev nD) (e : Fin 6400000) : Cert.Spec.Edge :=
  Pay.kedge ![X0 m c (ix1 e), X1 m c (ix1 e), X2 m c (ix1 e)] ![X3 m c (ix1 e), X4 m c (ix1 e), X5 m c (ix1 e)]
    (X6 m c (ix1 e)) (X7 m c (ix1 e))

theorem E_blk (c : Dev nD) (t : Fin cfg0.N) (l : Fin 128000) :
    Pay.E (xb0 m c t) (xb1 m c t) (xb2 m c t) (xb3 m c t) (xb4 m c t) (xb5 m c t) (xb6 m c t) (xb7 m c t) l
      = EK m c (eOf t.val l.val) := by
  show Pay.kedge ![xb0 m c t (ix1 l), xb1 m c t (ix1 l), xb2 m c t (ix1 l)] ![xb3 m c t (ix1 l), xb4 m c t (ix1 l), xb5 m c t (ix1 l)]
      (xb6 m c t (ix1 l)) (xb7 m c t (ix1 l)) = _
  rw [xb0_apply m c t l, xb1_apply m c t l, xb2_apply m c t l, xb3_apply m c t l, xb4_apply m c t l, xb5_apply m c t l,
    xb6_apply m c t l, xb7_apply m c t l]
  rfl

theorem mem_blk8 (t : Fin cfg0.N) (i : S6400000.Idx) :
    i ∈ ((cfg0.win 8).blk t).view.set ↔ ∀ a : Fin 1, win0_8.index t a * S128000.size a ≤ (i a).val ∧ (i a).val < win0_8.index t a * S128000.size a + S128000.size a := by
  show i ∈ ((View.whole main_v52_0).slice (win0_8.rect t)).set ↔ _
  rw [View.set_slice_whole, Rect.mem_set_unit]
  exact Iff.rfl

theorem cover8 (i : S6400000.Idx) : ∃ t : Fin cfg0.N, (cfg0.win 8).flush t = true ∧ i ∈ ((cfg0.win 8).blk t).view.set := by
  have hN : cfg0.N = 50 := N_0
  have hi : (i 0).val < 6400000 := (i 0).isLt
  refine ⟨⟨(i 0).val / 128000, by rw [hN]; omega⟩, flush0_8 _, ?_⟩
  rw [mem_blk8]
  intro a
  match a with
  | ⟨0, _⟩ =>
    show win0_8.index _ (0 : Fin 1) * 128000 ≤ (i 0).val ∧ (i 0).val < win0_8.index _ (0 : Fin 1) * 128000 + 128000
    rw [(idx_facts _).2.2.2.2.2.2.2.2.1]
    show (i 0).val / 128000 * 128000 ≤ (i 0).val ∧ (i 0).val < (i 0).val / 128000 * 128000 + 128000
    omega

theorem mem_blk9 (t : Fin cfg0.N) (i : S6400000.Idx) :
    i ∈ ((cfg0.win 9).blk t).view.set ↔ ∀ a : Fin 1, win0_9.index t a * S128000.size a ≤ (i a).val ∧ (i a).val < win0_9.index t a * S128000.size a + S128000.size a := by
  show i ∈ ((View.whole main_v52_1).slice (win0_9.rect t)).set ↔ _
  rw [View.set_slice_whole, Rect.mem_set_unit]
  exact Iff.rfl

theorem cover9 (i : S6400000.Idx) : ∃ t : Fin cfg0.N, (cfg0.win 9).flush t = true ∧ i ∈ ((cfg0.win 9).blk t).view.set := by
  have hN : cfg0.N = 50 := N_0
  have hi : (i 0).val < 6400000 := (i 0).isLt
  refine ⟨⟨(i 0).val / 128000, by rw [hN]; omega⟩, flush0_9 _, ?_⟩
  rw [mem_blk9]
  intro a
  match a with
  | ⟨0, _⟩ =>
    show win0_9.index _ (0 : Fin 1) * 128000 ≤ (i 0).val ∧ (i 0).val < win0_9.index _ (0 : Fin 1) * 128000 + 128000
    rw [(idx_facts _).2.2.2.2.2.2.2.2.2.1]
    show (i 0).val / 128000 * 128000 ≤ (i 0).val ∧ (i 0).val < (i 0).val / 128000 * 128000 + 128000
    omega

theorem mem_blk10 (t : Fin cfg0.N) (i : S6400000.Idx) :
    i ∈ ((cfg0.win 10).blk t).view.set ↔ ∀ a : Fin 1, win0_10.index t a * S128000.size a ≤ (i a).val ∧ (i a).val < win0_10.index t a * S128000.size a + S128000.size a := by
  show i ∈ ((View.whole main_v52_2).slice (win0_10.rect t)).set ↔ _
  rw [View.set_slice_whole, Rect.mem_set_unit]
  exact Iff.rfl

theorem cover10 (i : S6400000.Idx) : ∃ t : Fin cfg0.N, (cfg0.win 10).flush t = true ∧ i ∈ ((cfg0.win 10).blk t).view.set := by
  have hN : cfg0.N = 50 := N_0
  have hi : (i 0).val < 6400000 := (i 0).isLt
  refine ⟨⟨(i 0).val / 128000, by rw [hN]; omega⟩, flush0_10 _, ?_⟩
  rw [mem_blk10]
  intro a
  match a with
  | ⟨0, _⟩ =>
    show win0_10.index _ (0 : Fin 1) * 128000 ≤ (i 0).val ∧ (i 0).val < win0_10.index _ (0 : Fin 1) * 128000 + 128000
    rw [(idx_facts _).2.2.2.2.2.2.2.2.2.2.1]
    show (i 0).val / 128000 * 128000 ≤ (i 0).val ∧ (i 0).val < (i 0).val / 128000 * 128000 + 128000
    omega

theorem mem_blk11 (t : Fin cfg0.N) (i : S2x1x1.Idx) :
    i ∈ ((cfg0.win 11).blk t).view.set ↔ ∀ a : Fin 3, win0_11.index t a * S1x1x1.size a ≤ (i a).val ∧ (i a).val < win0_11.index t a * S1x1x1.size a + S1x1x1.size a := by
  show i ∈ ((View.whole main_v52_3).slice (win0_11.rect t)).set ↔ _
  rw [View.set_slice_whole, Rect.mem_set_unit]
  exact Iff.rfl

theorem cover11 (i : S2x1x1.Idx) : ∃ t : Fin cfg0.N, (cfg0.win 11).flush t = true ∧ i ∈ ((cfg0.win 11).blk t).view.set := by
  have hN : cfg0.N = 50 := N_0
  have hi0 : (i 0).val < 2 := (i 0).isLt
  have hi1 : (i 1).val < 1 := (i 1).isLt
  have hi2 : (i 2).val < 1 := (i 2).isLt
  refine ⟨⟨25 * (i 0).val + 24, by rw [hN]; omega⟩, (flush0_11 _).mpr (by show (25 * (i 0).val + 24) % 25 = 24; omega), ?_⟩
  rw [mem_blk11]
  obtain ⟨e0, e1, e2⟩ : win0_11.index (⟨25 * (i 0).val + 24, by rw [hN]; omega⟩ : Fin cfg0.N) (0 : Fin 3) = (25 * (i 0).val + 24) / 25
      ∧ win0_11.index (⟨25 * (i 0).val + 24, by rw [hN]; omega⟩ : Fin cfg0.N) (1 : Fin 3) = 0
      ∧ win0_11.index (⟨25 * (i 0).val + 24, by rw [hN]; omega⟩ : Fin cfg0.N) (2 : Fin 3) = 0 :=
    ⟨(idx_facts _).2.2.2.2.2.2.2.2.2.2.2.1, (idx_facts _).2.2.2.2.2.2.2.2.2.2.2.2.1, (idx_facts _).2.2.2.2.2.2.2.2.2.2.2.2.2.1⟩
  intro a
  match a with
  | ⟨0, _⟩ =>
    show win0_11.index _ (0 : Fin 3) * 1 ≤ (i 0).val ∧ (i 0).val < win0_11.index _ (0 : Fin 3) * 1 + 1
    rw [e0]; omega
  | ⟨1, _⟩ =>
    show win0_11.index _ (1 : Fin 3) * 1 ≤ (i 1).val ∧ (i 1).val < win0_11.index _ (1 : Fin 3) * 1 + 1
    rw [e1]; omega
  | ⟨2, _⟩ =>
    show win0_11.index _ (2 : Fin 3) * 1 ≤ (i 2).val ∧ (i 2).val < win0_11.index _ (2 : Fin 3) * 1 + 1
    rw [e2]; omega

theorem mem_blk12 (t : Fin cfg0.N) (i : S2x1x1.Idx) :
    i ∈ ((cfg0.win 12).blk t).view.set ↔ ∀ a : Fin 3, win0_12.index t a * S1x1x1.size a ≤ (i a).val ∧ (i a).val < win0_12.index t a * S1x1x1.size a + S1x1x1.size a := by
  show i ∈ ((View.whole main_v52_4).slice (win0_12.rect t)).set ↔ _
  rw [View.set_slice_whole, Rect.mem_set_unit]
  exact Iff.rfl

theorem cover12 (i : S2x1x1.Idx) : ∃ t : Fin cfg0.N, (cfg0.win 12).flush t = true ∧ i ∈ ((cfg0.win 12).blk t).view.set := by
  have hN : cfg0.N = 50 := N_0
  have hi0 : (i 0).val < 2 := (i 0).isLt
  have hi1 : (i 1).val < 1 := (i 1).isLt
  have hi2 : (i 2).val < 1 := (i 2).isLt
  refine ⟨⟨25 * (i 0).val + 24, by rw [hN]; omega⟩, (flush0_12 _).mpr (by show (25 * (i 0).val + 24) % 25 = 24; omega), ?_⟩
  rw [mem_blk12]
  obtain ⟨e0, e1, e2⟩ : win0_12.index (⟨25 * (i 0).val + 24, by rw [hN]; omega⟩ : Fin cfg0.N) (0 : Fin 3) = (25 * (i 0).val + 24) / 25
      ∧ win0_12.index (⟨25 * (i 0).val + 24, by rw [hN]; omega⟩ : Fin cfg0.N) (1 : Fin 3) = 0
      ∧ win0_12.index (⟨25 * (i 0).val + 24, by rw [hN]; omega⟩ : Fin cfg0.N) (2 : Fin 3) = 0 :=
    ⟨(idx_facts _).2.2.2.2.2.2.2.2.2.2.2.2.2.2.1, (idx_facts _).2.2.2.2.2.2.2.2.2.2.2.2.2.2.2.1, (idx_facts _).2.2.2.2.2.2.2.2.2.2.2.2.2.2.2.2.1⟩
  intro a
  match a with
  | ⟨0, _⟩ =>
    show win0_12.index _ (0 : Fin 3) * 1 ≤ (i 0).val ∧ (i 0).val < win0_12.index _ (0 : Fin 3) * 1 + 1
    rw [e0]; omega
  | ⟨1, _⟩ =>
    show win0_12.index _ (1 : Fin 3) * 1 ≤ (i 1).val ∧ (i 1).val < win0_12.index _ (1 : Fin 3) * 1 + 1
    rw [e1]; omega
  | ⟨2, _⟩ =>
    show win0_12.index _ (2 : Fin 3) * 1 ≤ (i 2).val ∧ (i 2).val < win0_12.index _ (2 : Fin 3) * 1 + 1
    rw [e2]; omega

theorem mem_blk13 (t : Fin cfg0.N) (i : S2x3x3.Idx) :
    i ∈ ((cfg0.win 13).blk t).view.set ↔ ∀ a : Fin 3, win0_13.index t a * S1x3x3.size a ≤ (i a).val ∧ (i a).val < win0_13.index t a * S1x3x3.size a + S1x3x3.size a := by
  show i ∈ ((View.whole main_v52_5).slice (win0_13.rect t)).set ↔ _
  rw [View.set_slice_whole, Rect.mem_set_unit]
  exact Iff.rfl

theorem cover13 (i : S2x3x3.Idx) : ∃ t : Fin cfg0.N, (cfg0.win 13).flush t = true ∧ i ∈ ((cfg0.win 13).blk t).view.set := by
  have hN : cfg0.N = 50 := N_0
  have hi0 : (i 0).val < 2 := (i 0).isLt
  have hi1 : (i 1).val < 3 := (i 1).isLt
  have hi2 : (i 2).val < 3 := (i 2).isLt
  refine ⟨⟨25 * (i 0).val + 24, by rw [hN]; omega⟩, (flush0_13 _).mpr (by show (25 * (i 0).val + 24) % 25 = 24; omega), ?_⟩
  rw [mem_blk13]
  obtain ⟨e0, e1, e2⟩ : win0_13.index (⟨25 * (i 0).val + 24, by rw [hN]; omega⟩ : Fin cfg0.N) (0 : Fin 3) = (25 * (i 0).val + 24) / 25
      ∧ win0_13.index (⟨25 * (i 0).val + 24, by rw [hN]; omega⟩ : Fin cfg0.N) (1 : Fin 3) = 0
      ∧ win0_13.index (⟨25 * (i 0).val + 24, by rw [hN]; omega⟩ : Fin cfg0.N) (2 : Fin 3) = 0 :=
    ⟨(idx_facts _).2.2.2.2.2.2.2.2.2.2.2.2.2.2.2.2.2.1, (idx_facts _).2.2.2.2.2.2.2.2.2.2.2.2.2.2.2.2.2.2.1, (idx_facts _).2.2.2.2.2.2.2.2.2.2.2.2.2.2.2.2.2.2.2⟩
  intro a
  match a with
  | ⟨0, _⟩ =>
    show win0_13.index _ (0 : Fin 3) * 1 ≤ (i 0).val ∧ (i 0).val < win0_13.index _ (0 : Fin 3) * 1 + 1
    rw [e0]; omega
  | ⟨1, _⟩ =>
    show win0_13.index _ (1 : Fin 3) * 3 ≤ (i 1).val ∧ (i 1).val < win0_13.index _ (1 : Fin 3) * 3 + 3
    rw [e1]; omega
  | ⟨2, _⟩ =>
    show win0_13.index _ (2 : Fin 3) * 3 ≤ (i 2).val ∧ (i 2).val < win0_13.index _ (2 : Fin 3) * 3 + 3
    rw [e2]; omega

def bsumU (c : Dev nD) (n : ℕ) : EReal := ∑ l : Fin 128000, (EK m c (eOf n l.val)).u

def bsumW (c : Dev nD) (n : ℕ) : EReal := ∑ l : Fin 128000, (EK m c (eOf n l.val)).w

def bsumT (c : Dev nD) (a b : Fin 3) (n : ℕ) : EReal := ∑ l : Fin 128000, (EK m c (eOf n l.val)).f a * (EK m c (eOf n l.val)).r b

theorem sumU_blk (c : Dev nD) (t : Fin cfg0.N) : ∑ l : Fin 128000, (Pay.E (xb0 m c t) (xb1 m c t) (xb2 m c t) (xb3 m c t) (xb4 m c t) (xb5 m c t) (xb6 m c t) (xb7 m c t) l).u = bsumU m c t.val :=
  Finset.sum_congr rfl fun l _ => congrArg Cert.Spec.Edge.u (E_blk m c t l)

theorem sumW_blk (c : Dev nD) (t : Fin cfg0.N) : ∑ l : Fin 128000, (Pay.E (xb0 m c t) (xb1 m c t) (xb2 m c t) (xb3 m c t) (xb4 m c t) (xb5 m c t) (xb6 m c t) (xb7 m c t) l).w = bsumW m c t.val :=
  Finset.sum_congr rfl fun l _ => congrArg Cert.Spec.Edge.w (E_blk m c t l)

theorem sumT_blk (c : Dev nD) (a b : Fin 3) (t : Fin cfg0.N) :
    ∑ l : Fin 128000, (Pay.E (xb0 m c t) (xb1 m c t) (xb2 m c t) (xb3 m c t) (xb4 m c t) (xb5 m c t) (xb6 m c t) (xb7 m c t) l).f a * (Pay.E (xb0 m c t) (xb1 m c t) (xb2 m c t) (xb3 m c t) (xb4 m c t) (xb5 m c t) (xb6 m c t) (xb7 m c t) l).r b = bsumT m c a b t.val :=
  Finset.sum_congr rfl fun l _ => by rw [E_blk m c t l]

theorem out8_at (c : Dev nD) (t : Fin cfg0.N) (l : Fin 128000) :
    (outsAt0 m c t.val t.isLt).1 (ix1 l) = (EK m c (eOf t.val l.val)).f 0 := by
  by_cases h0 : t.val % 25 = 0
  · have h1 : ¬t.val % 25 = 24 := by omega
    rw [outsAt0_A m c t h0 h1]
    exact (out_A_8 c (grid0.coords t) (bufsAt t) ((hcond0_0 t).mpr h0) (fun h => h1 ((hcond0_1 t).mp h)) (xb0 m c t) (xb1 m c t) (xb2 m c t) (xb3 m c t) (xb4 m c t) (xb5 m c t) (xb6 m c t) (xb7 m c t) l).trans (congrArg (fun e => e.f 0) (E_blk m c t l))
  · by_cases h1 : t.val % 25 = 24
    · rw [outsAt0_C m c t h0 h1]
      exact (out_C_8 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 l).trans (congrArg (fun e => e.f 0) (E_blk m c t l))
    · rw [outsAt0_B m c t h0 h1]
      exact (out_B_8 c (grid0.coords t) (bufsAt t) (fun h => h0 ((hcond0_0 t).mp h)) (fun h => h1 ((hcond0_1 t).mp h)) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 l).trans (congrArg (fun e => e.f 0) (E_blk m c t l))

theorem out9_at (c : Dev nD) (t : Fin cfg0.N) (l : Fin 128000) :
    (outsAt0 m c t.val t.isLt).2.1 (ix1 l) = (EK m c (eOf t.val l.val)).f 1 := by
  by_cases h0 : t.val % 25 = 0
  · have h1 : ¬t.val % 25 = 24 := by omega
    rw [outsAt0_A m c t h0 h1]
    exact (out_A_9 c (grid0.coords t) (bufsAt t) ((hcond0_0 t).mpr h0) (fun h => h1 ((hcond0_1 t).mp h)) (xb0 m c t) (xb1 m c t) (xb2 m c t) (xb3 m c t) (xb4 m c t) (xb5 m c t) (xb6 m c t) (xb7 m c t) l).trans (congrArg (fun e => e.f 1) (E_blk m c t l))
  · by_cases h1 : t.val % 25 = 24
    · rw [outsAt0_C m c t h0 h1]
      exact (out_C_9 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 l).trans (congrArg (fun e => e.f 1) (E_blk m c t l))
    · rw [outsAt0_B m c t h0 h1]
      exact (out_B_9 c (grid0.coords t) (bufsAt t) (fun h => h0 ((hcond0_0 t).mp h)) (fun h => h1 ((hcond0_1 t).mp h)) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 l).trans (congrArg (fun e => e.f 1) (E_blk m c t l))

theorem out10_at (c : Dev nD) (t : Fin cfg0.N) (l : Fin 128000) :
    (outsAt0 m c t.val t.isLt).2.2.1 (ix1 l) = (EK m c (eOf t.val l.val)).f 2 := by
  by_cases h0 : t.val % 25 = 0
  · have h1 : ¬t.val % 25 = 24 := by omega
    rw [outsAt0_A m c t h0 h1]
    exact (out_A_10 c (grid0.coords t) (bufsAt t) ((hcond0_0 t).mpr h0) (fun h => h1 ((hcond0_1 t).mp h)) (xb0 m c t) (xb1 m c t) (xb2 m c t) (xb3 m c t) (xb4 m c t) (xb5 m c t) (xb6 m c t) (xb7 m c t) l).trans (congrArg (fun e => e.f 2) (E_blk m c t l))
  · by_cases h1 : t.val % 25 = 24
    · rw [outsAt0_C m c t h0 h1]
      exact (out_C_10 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 l).trans (congrArg (fun e => e.f 2) (E_blk m c t l))
    · rw [outsAt0_B m c t h0 h1]
      exact (out_B_10 c (grid0.coords t) (bufsAt t) (fun h => h0 ((hcond0_0 t).mp h)) (fun h => h1 ((hcond0_1 t).mp h)) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 l).trans (congrArg (fun e => e.f 2) (E_blk m c t l))

theorem acc_first (c : Dev nD) (t : Fin cfg0.N) (h0 : t.val % 25 = 0) :
    (outsAt0 m c t.val t.isLt).2.2.2.2.2.2.1 (ix2 0 0) = bsumU m c t.val
    ∧ (outsAt0 m c t.val t.isLt).2.2.2.2.2.2.2.1 (ix2 0 0) = bsumW m c t.val
    ∧ ∀ a b : Fin 3, (outsAt0 m c t.val t.isLt).2.2.2.2.2.2.2.2 (ix2 a b) = bsumT m c a b t.val := by
  have h1 : ¬t.val % 25 = 24 := by omega
  rw [outsAt0_A m c t h0 h1]
  exact ⟨(sout_A_0 c (grid0.coords t) (bufsAt t) ((hcond0_0 t).mpr h0) (fun h => h1 ((hcond0_1 t).mp h)) (xb0 m c t) (xb1 m c t) (xb2 m c t) (xb3 m c t) (xb4 m c t) (xb5 m c t) (xb6 m c t) (xb7 m c t)).trans (sumU_blk m c t),
    (sout_A_1 c (grid0.coords t) (bufsAt t) ((hcond0_0 t).mpr h0) (fun h => h1 ((hcond0_1 t).mp h)) (xb0 m c t) (xb1 m c t) (xb2 m c t) (xb3 m c t) (xb4 m c t) (xb5 m c t) (xb6 m c t) (xb7 m c t)).trans (sumW_blk m c t),
    fun a b => (sout_A_2 c (grid0.coords t) (bufsAt t) ((hcond0_0 t).mpr h0) (fun h => h1 ((hcond0_1 t).mp h)) (xb0 m c t) (xb1 m c t) (xb2 m c t) (xb3 m c t) (xb4 m c t) (xb5 m c t) (xb6 m c t) (xb7 m c t) a b).trans (sumT_blk m c a b t)⟩

theorem acc_next (c : Dev nD) (t : Fin cfg0.N) (h0 : ¬t.val % 25 = 0) :
    (outsAt0 m c t.val t.isLt).2.2.2.2.2.2.1 (ix2 0 0) = (outsAt0 m c (t.val - 1) (Nat.lt_of_le_of_lt (Nat.sub_le _ _) t.isLt)).2.2.2.2.2.2.1 (ix2 0 0) + bsumU m c t.val
    ∧ (outsAt0 m c t.val t.isLt).2.2.2.2.2.2.2.1 (ix2 0 0) = (outsAt0 m c (t.val - 1) (Nat.lt_of_le_of_lt (Nat.sub_le _ _) t.isLt)).2.2.2.2.2.2.2.1 (ix2 0 0) + bsumW m c t.val
    ∧ ∀ a b : Fin 3, (outsAt0 m c t.val t.isLt).2.2.2.2.2.2.2.2 (ix2 a b) = (outsAt0 m c (t.val - 1) (Nat.lt_of_le_of_lt (Nat.sub_le _ _) t.isLt)).2.2.2.2.2.2.2.2 (ix2 a b) + bsumT m c a b t.val := by
  by_cases h1 : t.val % 25 = 24
  · rw [outsAt0_C m c t h0 h1]
    exact ⟨(sout_C_0 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2).trans (congrArg (fun x => (outsAt0 m c (t.val - 1) (Nat.lt_of_le_of_lt (Nat.sub_le _ _) t.isLt)).2.2.2.2.2.2.1 (ix2 0 0) + x) (sumU_blk m c t)),
      (sout_C_1 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2).trans (congrArg (fun x => (outsAt0 m c (t.val - 1) (Nat.lt_of_le_of_lt (Nat.sub_le _ _) t.isLt)).2.2.2.2.2.2.2.1 (ix2 0 0) + x) (sumW_blk m c t)),
      fun a b => (sout_C_2 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 a b).trans (congrArg (fun x => (outsAt0 m c (t.val - 1) (Nat.lt_of_le_of_lt (Nat.sub_le _ _) t.isLt)).2.2.2.2.2.2.2.2 (ix2 a b) + x) (sumT_blk m c a b t))⟩
  · rw [outsAt0_B m c t h0 h1]
    exact ⟨(sout_B_0 c (grid0.coords t) (bufsAt t) (fun h => h0 ((hcond0_0 t).mp h)) (fun h => h1 ((hcond0_1 t).mp h)) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2).trans (congrArg (fun x => (outsAt0 m c (t.val - 1) (Nat.lt_of_le_of_lt (Nat.sub_le _ _) t.isLt)).2.2.2.2.2.2.1 (ix2 0 0) + x) (sumU_blk m c t)),
      (sout_B_1 c (grid0.coords t) (bufsAt t) (fun h => h0 ((hcond0_0 t).mp h)) (fun h => h1 ((hcond0_1 t).mp h)) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2).trans (congrArg (fun x => (outsAt0 m c (t.val - 1) (Nat.lt_of_le_of_lt (Nat.sub_le _ _) t.isLt)).2.2.2.2.2.2.2.1 (ix2 0 0) + x) (sumW_blk m c t)),
      fun a b => (sout_B_2 c (grid0.coords t) (bufsAt t) (fun h => h0 ((hcond0_0 t).mp h)) (fun h => h1 ((hcond0_1 t).mp h)) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 a b).trans (congrArg (fun x => (outsAt0 m c (t.val - 1) (Nat.lt_of_le_of_lt (Nat.sub_le _ _) t.isLt)).2.2.2.2.2.2.2.2 (ix2 a b) + x) (sumT_blk m c a b t))⟩

theorem red_last (c : Dev nD) (t : Fin cfg0.N) (h0 : ¬t.val % 25 = 0) (h1 : t.val % 25 = 24) :
    (outsAt0 m c t.val t.isLt).2.2.2.1 (ix3 0 0 0) = (outsAt0 m c t.val t.isLt).2.2.2.2.2.2.1 (ix2 0 0)
    ∧ (outsAt0 m c t.val t.isLt).2.2.2.2.1 (ix3 0 0 0) = (outsAt0 m c t.val t.isLt).2.2.2.2.2.2.2.1 (ix2 0 0)
    ∧ ∀ a b : Fin 3, (outsAt0 m c t.val t.isLt).2.2.2.2.2.1 (ix3 0 a b) = (outsAt0 m c t.val t.isLt).2.2.2.2.2.2.2.2 (ix2 a b) := by
  rw [outsAt0_C m c t h0 h1]
  exact ⟨(out_C_11 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2).trans (sout_C_0 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2).symm,
    (out_C_12 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2).trans (sout_C_1 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2).symm,
    fun a b => (out_C_13 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 a b).trans (sout_C_2 c (grid0.coords t) (bufsAt t) (fun h => h0 ((hcond0_0 t).mp h)) ((hcond0_1 t).mpr h1) (xb0 m c t) (xb1 m c t) (xb2 m c t) (xb3 m c t) (xb4 m c t) (xb5 m c t) (xb6 m c t) (xb7 m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 a b).symm⟩

theorem accU_eq (c : Dev nD) : ∀ (n : ℕ) (h : n < cfg0.N),
    (outsAt0 m c n h).2.2.2.2.2.2.1 (ix2 0 0) = ∑ s ∈ Finset.range (n % 25 + 1), bsumU m c (n - n % 25 + s) :=
  fold_steps cfg0.N (fun n h => (outsAt0 m c n h).2.2.2.2.2.2.1 (ix2 0 0)) (bsumU m c)
    (fun n h hm => (acc_first m c ⟨n, h⟩ hm).1) (fun n h hm => (acc_next m c ⟨n + 1, h⟩ hm).1)

theorem accW_eq (c : Dev nD) : ∀ (n : ℕ) (h : n < cfg0.N),
    (outsAt0 m c n h).2.2.2.2.2.2.2.1 (ix2 0 0) = ∑ s ∈ Finset.range (n % 25 + 1), bsumW m c (n - n % 25 + s) :=
  fold_steps cfg0.N (fun n h => (outsAt0 m c n h).2.2.2.2.2.2.2.1 (ix2 0 0)) (bsumW m c)
    (fun n h hm => (acc_first m c ⟨n, h⟩ hm).2.1) (fun n h hm => (acc_next m c ⟨n + 1, h⟩ hm).2.1)

theorem accT_eq (c : Dev nD) (a b : Fin 3) : ∀ (n : ℕ) (h : n < cfg0.N),
    (outsAt0 m c n h).2.2.2.2.2.2.2.2 (ix2 a b) = ∑ s ∈ Finset.range (n % 25 + 1), bsumT m c a b (n - n % 25 + s) :=
  fold_steps cfg0.N (fun n h => (outsAt0 m c n h).2.2.2.2.2.2.2.2 (ix2 a b)) (bsumT m c a b)
    (fun n h hm => (acc_first m c ⟨n, h⟩ hm).2.2 a b) (fun n h hm => (acc_next m c ⟨n + 1, h⟩ hm).2.2 a b)

def coreU (c : Dev nD) (k : ℕ) : EReal := ∑ s ∈ Finset.range 25, bsumU m c (25 * k + s)
def coreW (c : Dev nD) (k : ℕ) : EReal := ∑ s ∈ Finset.range 25, bsumW m c (25 * k + s)
def coreT (c : Dev nD) (a b : Fin 3) (k : ℕ) : EReal := ∑ s ∈ Finset.range 25, bsumT m c a b (25 * k + s)

theorem red_at (c : Dev nD) (t : Fin cfg0.N) (h1 : t.val % 25 = 24) :
    (outsAt0 m c t.val t.isLt).2.2.2.1 (ix3 0 0 0) = coreU m c (t.val / 25)
    ∧ (outsAt0 m c t.val t.isLt).2.2.2.2.1 (ix3 0 0 0) = coreW m c (t.val / 25)
    ∧ ∀ a b : Fin 3, (outsAt0 m c t.val t.isLt).2.2.2.2.2.1 (ix3 0 a b) = coreT m c a b (t.val / 25) := by
  have h0 : ¬t.val % 25 = 0 := by omega
  have e : t.val - 24 = 25 * (t.val / 25) := by omega
  obtain ⟨r0, r1, r2⟩ := red_last m c t h0 h1
  refine ⟨?_, ?_, fun a b => ?_⟩
  · rw [r0, accU_eq m c t.val t.isLt, h1, e]; rfl
  · rw [r1, accW_eq m c t.val t.isLt, h1, e]; rfl
  · rw [r2 a b, accT_eq m c a b t.val t.isLt, h1, e]; rfl

def e1 (i : S6400000.Idx) : Fin 6400000 := ⟨(i 0).val, (i 0).isLt⟩

def G8 (c : Dev nD) : S6400000.Idx → EReal := fun i => (EK m c (e1 i)).f 0

theorem flushed8_eq (c : Dev nD) (t : Fin cfg0.N) :
    (dats m 0 c).flushed 8 t = ((cfg0.win 8).blk t).view.read (Elt Ideal) (G8 m c) := by
  have hN : cfg0.N = 50 := N_0
  have ht : t.val < 50 := hN ▸ t.isLt
  show (cfg0.win 8).cut (grid0.coords t) ((dats m 0 c).after 8 t) = _
  rw [after0_8]
  funext j
  have hl : (j 0).val < 128000 := (j 0).isLt
  have e : (cfg0.win 8).xinj (grid0.coords t) j = ix1 (⟨(j 0).val, hl⟩ : Fin 128000) :=
    funext fun a => by match a with | ⟨0, _⟩ => rfl
  rw [View.read_apply]
  show (outsAt0 m c t.val t.isLt).1 ((cfg0.win 8).xinj (grid0.coords t) j) = G8 m c (((cfg0.win 8).blk t).view.emb j)
  rw [e, out8_at m c t ⟨(j 0).val, hl⟩]
  show (EK m c (eOf t.val (j 0).val)).f 0 = (EK m c (e1 (((cfg0.win 8).blk t).view.emb j))).f 0
  refine congrArg (fun e => (EK m c e).f 0) (Fin.ext ?_)
  show (eOf t.val (j 0).val).val = win0_8.index t (0 : Fin 1) * 128000 + 1 * (j 0).val
  rw [eOf_val ht hl, (idx_facts t).2.2.2.2.2.2.2.2.1]
  omega

theorem arr8_apply (c : Dev nD) (e : Fin 6400000) :
    @Eq EReal (((dats m 0 c).arrAt 8 cfg0.N : S6400000.Idx → EReal) (ix1 e)) ((EK m c e).f 0) := by
  rw [(dats m 0 c).arrAt_eq_of_cover 8 (G8 m c) (fun t _ => flushed8_eq m c t) cover8]
  rfl

def G9 (c : Dev nD) : S6400000.Idx → EReal := fun i => (EK m c (e1 i)).f 1

theorem flushed9_eq (c : Dev nD) (t : Fin cfg0.N) :
    (dats m 0 c).flushed 9 t = ((cfg0.win 9).blk t).view.read (Elt Ideal) (G9 m c) := by
  have hN : cfg0.N = 50 := N_0
  have ht : t.val < 50 := hN ▸ t.isLt
  show (cfg0.win 9).cut (grid0.coords t) ((dats m 0 c).after 9 t) = _
  rw [after0_9]
  funext j
  have hl : (j 0).val < 128000 := (j 0).isLt
  have e : (cfg0.win 9).xinj (grid0.coords t) j = ix1 (⟨(j 0).val, hl⟩ : Fin 128000) :=
    funext fun a => by match a with | ⟨0, _⟩ => rfl
  rw [View.read_apply]
  show (outsAt0 m c t.val t.isLt).2.1 ((cfg0.win 9).xinj (grid0.coords t) j) = G9 m c (((cfg0.win 9).blk t).view.emb j)
  rw [e, out9_at m c t ⟨(j 0).val, hl⟩]
  show (EK m c (eOf t.val (j 0).val)).f 1 = (EK m c (e1 (((cfg0.win 9).blk t).view.emb j))).f 1
  refine congrArg (fun e => (EK m c e).f 1) (Fin.ext ?_)
  show (eOf t.val (j 0).val).val = win0_9.index t (0 : Fin 1) * 128000 + 1 * (j 0).val
  rw [eOf_val ht hl, (idx_facts t).2.2.2.2.2.2.2.2.2.1]
  omega

theorem arr9_apply (c : Dev nD) (e : Fin 6400000) :
    @Eq EReal (((dats m 0 c).arrAt 9 cfg0.N : S6400000.Idx → EReal) (ix1 e)) ((EK m c e).f 1) := by
  rw [(dats m 0 c).arrAt_eq_of_cover 9 (G9 m c) (fun t _ => flushed9_eq m c t) cover9]
  rfl

def G10 (c : Dev nD) : S6400000.Idx → EReal := fun i => (EK m c (e1 i)).f 2

theorem flushed10_eq (c : Dev nD) (t : Fin cfg0.N) :
    (dats m 0 c).flushed 10 t = ((cfg0.win 10).blk t).view.read (Elt Ideal) (G10 m c) := by
  have hN : cfg0.N = 50 := N_0
  have ht : t.val < 50 := hN ▸ t.isLt
  show (cfg0.win 10).cut (grid0.coords t) ((dats m 0 c).after 10 t) = _
  rw [after0_10]
  funext j
  have hl : (j 0).val < 128000 := (j 0).isLt
  have e : (cfg0.win 10).xinj (grid0.coords t) j = ix1 (⟨(j 0).val, hl⟩ : Fin 128000) :=
    funext fun a => by match a with | ⟨0, _⟩ => rfl
  rw [View.read_apply]
  show (outsAt0 m c t.val t.isLt).2.2.1 ((cfg0.win 10).xinj (grid0.coords t) j) = G10 m c (((cfg0.win 10).blk t).view.emb j)
  rw [e, out10_at m c t ⟨(j 0).val, hl⟩]
  show (EK m c (eOf t.val (j 0).val)).f 2 = (EK m c (e1 (((cfg0.win 10).blk t).view.emb j))).f 2
  refine congrArg (fun e => (EK m c e).f 2) (Fin.ext ?_)
  show (eOf t.val (j 0).val).val = win0_10.index t (0 : Fin 1) * 128000 + 1 * (j 0).val
  rw [eOf_val ht hl, (idx_facts t).2.2.2.2.2.2.2.2.2.2.1]
  omega

theorem arr10_apply (c : Dev nD) (e : Fin 6400000) :
    @Eq EReal (((dats m 0 c).arrAt 10 cfg0.N : S6400000.Idx → EReal) (ix1 e)) ((EK m c e).f 2) := by
  rw [(dats m 0 c).arrAt_eq_of_cover 10 (G10 m c) (fun t _ => flushed10_eq m c t) cover10]
  rfl

def G11 (c : Dev nD) : S2x1x1.Idx → EReal := fun i => coreU m c (i 0).val
def G12 (c : Dev nD) : S2x1x1.Idx → EReal := fun i => coreW m c (i 0).val
def G13 (c : Dev nD) : S2x3x3.Idx → EReal := fun i => coreT m c ⟨(i 1).val, (i 1).isLt⟩ ⟨(i 2).val, (i 2).isLt⟩ (i 0).val

theorem flushed11_eq (c : Dev nD) (t : Fin cfg0.N) (hf : (cfg0.win 11).flush t = true) :
    (dats m 0 c).flushed 11 t = ((cfg0.win 11).blk t).view.read (Elt Ideal) (G11 m c) := by
  have h1 : t.val % 25 = 24 := (flush0_11 t).mp hf
  show (cfg0.win 11).cut (grid0.coords t) ((dats m 0 c).after 11 t) = _
  rw [after0_11]
  funext j
  have hj0 : (j 0).val < 1 := (j 0).isLt
  have hj1 : (j 1).val < 1 := (j 1).isLt
  have hj2 : (j 2).val < 1 := (j 2).isLt
  have e : (cfg0.win 11).xinj (grid0.coords t) j = ix3 (0 : Fin 1) (0 : Fin 1) (0 : Fin 1) :=
    funext fun a => by
      match a with
      | ⟨0, _⟩ => exact Fin.ext (by show (j 0).val = 0; omega)
      | ⟨1, _⟩ => exact Fin.ext (by show (j 1).val = 0; omega)
      | ⟨2, _⟩ => exact Fin.ext (by show (j 2).val = 0; omega)
  rw [View.read_apply]
  show (outsAt0 m c t.val t.isLt).2.2.2.1 ((cfg0.win 11).xinj (grid0.coords t) j) = G11 m c (((cfg0.win 11).blk t).view.emb j)
  rw [e, (red_at m c t h1).1]
  show coreU m c (t.val / 25) = coreU m c ((((cfg0.win 11).blk t).view.emb j) 0).val
  refine congrArg (coreU m c) ?_
  show t.val / 25 = win0_11.index t (0 : Fin 3) * 1 + 1 * (j 0).val
  rw [(idx_facts t).2.2.2.2.2.2.2.2.2.2.2.1]
  omega

theorem arr11_core (c : Dev nD) (k : Fin 2) :
    @Eq EReal (((dats m 0 c).arrAt 11 cfg0.N : S2x1x1.Idx → EReal) (ix3 k 0 0)) (coreU m c k.val) := by
  rw [(dats m 0 c).arrAt_eq_of_cover 11 (G11 m c) (flushed11_eq m c) cover11]
  rfl

theorem flushed12_eq (c : Dev nD) (t : Fin cfg0.N) (hf : (cfg0.win 12).flush t = true) :
    (dats m 0 c).flushed 12 t = ((cfg0.win 12).blk t).view.read (Elt Ideal) (G12 m c) := by
  have h1 : t.val % 25 = 24 := (flush0_12 t).mp hf
  show (cfg0.win 12).cut (grid0.coords t) ((dats m 0 c).after 12 t) = _
  rw [after0_12]
  funext j
  have hj0 : (j 0).val < 1 := (j 0).isLt
  have hj1 : (j 1).val < 1 := (j 1).isLt
  have hj2 : (j 2).val < 1 := (j 2).isLt
  have e : (cfg0.win 12).xinj (grid0.coords t) j = ix3 (0 : Fin 1) (0 : Fin 1) (0 : Fin 1) :=
    funext fun a => by
      match a with
      | ⟨0, _⟩ => exact Fin.ext (by show (j 0).val = 0; omega)
      | ⟨1, _⟩ => exact Fin.ext (by show (j 1).val = 0; omega)
      | ⟨2, _⟩ => exact Fin.ext (by show (j 2).val = 0; omega)
  rw [View.read_apply]
  show (outsAt0 m c t.val t.isLt).2.2.2.2.1 ((cfg0.win 12).xinj (grid0.coords t) j) = G12 m c (((cfg0.win 12).blk t).view.emb j)
  rw [e, (red_at m c t h1).2.1]
  show coreW m c (t.val / 25) = coreW m c ((((cfg0.win 12).blk t).view.emb j) 0).val
  refine congrArg (coreW m c) ?_
  show t.val / 25 = win0_12.index t (0 : Fin 3) * 1 + 1 * (j 0).val
  rw [(idx_facts t).2.2.2.2.2.2.2.2.2.2.2.2.2.2.1]
  omega

theorem arr12_core (c : Dev nD) (k : Fin 2) :
    @Eq EReal (((dats m 0 c).arrAt 12 cfg0.N : S2x1x1.Idx → EReal) (ix3 k 0 0)) (coreW m c k.val) := by
  rw [(dats m 0 c).arrAt_eq_of_cover 12 (G12 m c) (flushed12_eq m c) cover12]
  rfl

theorem flushed13_eq (c : Dev nD) (t : Fin cfg0.N) (hf : (cfg0.win 13).flush t = true) :
    (dats m 0 c).flushed 13 t = ((cfg0.win 13).blk t).view.read (Elt Ideal) (G13 m c) := by
  have h1 : t.val % 25 = 24 := (flush0_13 t).mp hf
  show (cfg0.win 13).cut (grid0.coords t) ((dats m 0 c).after 13 t) = _
  rw [after0_13]
  funext j
  have hj0 : (j 0).val < 1 := (j 0).isLt
  have hj1 : (j 1).val < 3 := (j 1).isLt
  have hj2 : (j 2).val < 3 := (j 2).isLt
  have e : (cfg0.win 13).xinj (grid0.coords t) j = ix3 (0 : Fin 1) (⟨(j 1).val, hj1⟩ : Fin 3) (⟨(j 2).val, hj2⟩ : Fin 3) :=
    funext fun a => by
      match a with
      | ⟨0, _⟩ => exact Fin.ext (by show (j 0).val = 0; omega)
      | ⟨1, _⟩ => rfl
      | ⟨2, _⟩ => rfl
  rw [View.read_apply]
  show (outsAt0 m c t.val t.isLt).2.2.2.2.2.1 ((cfg0.win 13).xinj (grid0.coords t) j) = G13 m c (((cfg0.win 13).blk t).view.emb j)
  rw [e, (red_at m c t h1).2.2 ⟨(j 1).val, hj1⟩ ⟨(j 2).val, hj2⟩]
  show coreT m c ⟨(j 1).val, hj1⟩ ⟨(j 2).val, hj2⟩ (t.val / 25)
    = coreT m c ⟨((((cfg0.win 13).blk t).view.emb j) 1).val, _⟩ ⟨((((cfg0.win 13).blk t).view.emb j) 2).val, _⟩ ((((cfg0.win 13).blk t).view.emb j) 0).val
  have q0 : t.val / 25 = ((((cfg0.win 13).blk t).view.emb j) 0).val := by
    show t.val / 25 = win0_13.index t (0 : Fin 3) * 1 + 1 * (j 0).val
    rw [(idx_facts t).2.2.2.2.2.2.2.2.2.2.2.2.2.2.2.2.2.1]; omega
  have q1 : (j 1).val = ((((cfg0.win 13).blk t).view.emb j) 1).val := by
    show (j 1).val = win0_13.index t (1 : Fin 3) * 3 + 1 * (j 1).val
    rw [(idx_facts t).2.2.2.2.2.2.2.2.2.2.2.2.2.2.2.2.2.2.1]; omega
  have q2 : (j 2).val = ((((cfg0.win 13).blk t).view.emb j) 2).val := by
    show (j 2).val = win0_13.index t (2 : Fin 3) * 3 + 1 * (j 2).val
    rw [(idx_facts t).2.2.2.2.2.2.2.2.2.2.2.2.2.2.2.2.2.2.2]; omega
  exact congr (congr (congrArg (coreT m c) (Fin.ext q1)) (Fin.ext q2)) q0

theorem arr13_core (c : Dev nD) (k : Fin 2) (a b : Fin 3) :
    @Eq EReal (((dats m 0 c).arrAt 13 cfg0.N : S2x3x3.Idx → EReal) (ix3 k a b)) (coreT m c a b k.val) := by
  rw [(dats m 0 c).arrAt_eq_of_cover 13 (G13 m c) (flushed13_eq m c) cover13]
  rfl

theorem sum_range25 (f : ℕ → EReal) : ∑ s ∈ Finset.range 25, f s = ∑ s : Fin 25, f s.val :=
  Finset.sum_range f

theorem eOf_eq (k : Fin 2) (s : Fin 25) (l : Fin 128000) :
    eOf (25 * k.val + s.val) l.val = ⟨(k.val * 25 + s.val) * 128000 + l.val, by have := k.isLt; have := s.isLt; have := l.isLt; omega⟩ :=
  Fin.ext (by
    have := k.isLt; have := s.isLt
    rw [eOf_val (by omega) l.isLt]
    show (25 * k.val + s.val) * 128000 + l.val = (k.val * 25 + s.val) * 128000 + l.val
    omega)

theorem arr8 (c : Dev nD) (e : Fin 6400000) :
    @Eq EReal (((dats m 0 c).arrAt 8 cfg0.N : S6400000.Idx → EReal) (ix1 e)) ((EK m c e).f 0) := arr8_apply m c e
theorem arr9 (c : Dev nD) (e : Fin 6400000) :
    @Eq EReal (((dats m 0 c).arrAt 9 cfg0.N : S6400000.Idx → EReal) (ix1 e)) ((EK m c e).f 1) := arr9_apply m c e
theorem arr10 (c : Dev nD) (e : Fin 6400000) :
    @Eq EReal (((dats m 0 c).arrAt 10 cfg0.N : S6400000.Idx → EReal) (ix1 e)) ((EK m c e).f 2) := arr10_apply m c e

theorem arr11 (c : Dev nD) (k : Fin 2) :
    @Eq EReal (((dats m 0 c).arrAt 11 cfg0.N : S2x1x1.Idx → EReal) (ix3 k 0 0))
      (∑ s : Fin 25, ∑ l : Fin 128000, (EK m c ⟨(k.val * 25 + s.val) * 128000 + l.val, by have := k.isLt; have := s.isLt; have := l.isLt; omega⟩).u) := by
  rw [arr11_core m c k]
  unfold coreU
  rw [sum_range25]
  refine Finset.sum_congr rfl fun s _ => ?_
  unfold bsumU
  refine Finset.sum_congr rfl fun l _ => ?_
  rw [eOf_eq k s l]

theorem arr12 (c : Dev nD) (k : Fin 2) :
    @Eq EReal (((dats m 0 c).arrAt 12 cfg0.N : S2x1x1.Idx → EReal) (ix3 k 0 0))
      (∑ s : Fin 25, ∑ l : Fin 128000, (EK m c ⟨(k.val * 25 + s.val) * 128000 + l.val, by have := k.isLt; have := s.isLt; have := l.isLt; omega⟩).w) := by
  rw [arr12_core m c k]
  unfold coreW
  rw [sum_range25]
  refine Finset.sum_congr rfl fun s _ => ?_
  unfold bsumW
  refine Finset.sum_congr rfl fun l _ => ?_
  rw [eOf_eq k s l]

theorem arr13 (c : Dev nD) (k : Fin 2) (a b : Fin 3) :
    @Eq EReal (((dats m 0 c).arrAt 13 cfg0.N : S2x3x3.Idx → EReal) (ix3 k a b))
      (∑ s : Fin 25, ∑ l : Fin 128000,
          (EK m c ⟨(k.val * 25 + s.val) * 128000 + l.val, by have := k.isLt; have := s.isLt; have := l.isLt; omega⟩).f a
            * (EK m c ⟨(k.val * 25 + s.val) * 128000 + l.val, by have := k.isLt; have := s.isLt; have := l.isLt; omega⟩).r b) := by
  rw [arr13_core m c k a b]
  unfold coreT
  rw [sum_range25]
  refine Finset.sum_congr rfl fun s _ => ?_
  unfold bsumT
  refine Finset.sum_congr rfl fun l _ => ?_
  rw [eOf_eq k s l]

end Cert.KernelIdeal.Val

end
-- ==== Proof.KI.Result.lean ====
import proofs.«420260_j7687991460463_2_alg».proof.Proof.KI.Frame
import proofs.«420260_j7687991460463_2_alg».proof.Proof.KI.Head
import proofs.«420260_j7687991460463_2_alg».proof.Proof.KI.Tail
import proofs.«420260_j7687991460463_2_alg».proof.Proof.KI.Values
import proofs.«420260_j7687991460463_2_alg».proof.Proof.KI.Payload
import proofs.«420260_j7687991460463_2_alg».proof.Proof.Spec
import proofs.«420260_j7687991460463_2_alg».proof.Proof.SumBlocks

set_option maxRecDepth 16384

noncomputable section

open scoped BigOperators

namespace Cert.KernelIdeal.Result

open Cert.KernelIdeal Cert.KernelIdeal.Gen Cert.KernelIdeal.Frame
open Idealize.ShloMosaic Idealize.ShloMosaic.TcCoe Idealize.ShloMosaic.ValueIdx
open Idealize.ShloMosaic.Pipeline (Dat Cfg)

variable (m : (ℓ : Loc nD τ sig) → Buf (Elt Ideal) ℓ) (ρ : Dev nD → PrngReg)

theorem vec3_ext {α : Type*} {a b c : α} {f : Fin 3 → α} (h0 : a = f 0) (h1 : b = f 1) (h2 : c = f 2) : ![a, b, c] = f := by
  funext q
  match q with
  | ⟨0, _⟩ => exact h0
  | ⟨1, _⟩ => exact h1
  | ⟨2, _⟩ => exact h2

theorem vec3_apply {α β : Type*} (a b c : α → β) (x : α) (g : Fin 3 → β) (h0 : a x = g 0) (h1 : b x = g 1) (h2 : c x = g 2)
    (q : Fin 3) : (![a, b, c] q) x = g q := by
  match q with
  | ⟨0, _⟩ => exact h0
  | ⟨1, _⟩ => exact h1
  | ⟨2, _⟩ => exact h2

abbrev pos (c : Dev nD) : Spec.SPos.Idx → EReal := m ((c.tc : Thread nD τ).loc main_arg0)

abbrev ei (c : Dev nD) : Spec.SEdges.Idx → BitVec 32 := m ((c.tc : Thread nD τ).loc main_arg1)

abbrev eps (c : Dev nD) : Spec.SPar.Idx → EReal := m ((c.tc : Thread nD τ).loc main_arg2)
abbrev sg (c : Dev nD) : Spec.SPar.Idx → EReal := m ((c.tc : Thread nD τ).loc main_arg3)

def ED (c : Dev nD) : Fin Spec.nEdges → Spec.Edge := Spec.edgesOf Pay.kedge (pos m c) (ei m c) (eps m c) (sg m c)

section PerEdge
variable (c : Dev nD) (e : Fin 6400000)

theorem X0_eq : Val.X0 m c (ix1 e) = Spec.endPos (pos m c) (ei m c) 0 e 0 := Head.V_v16 m c e
theorem X1_eq : Val.X1 m c (ix1 e) = Spec.endPos (pos m c) (ei m c) 0 e 1 := Head.V_v23 m c e
theorem X2_eq : Val.X2 m c (ix1 e) = Spec.endPos (pos m c) (ei m c) 0 e 2 := Head.V_v30 m c e
theorem X3_eq : Val.X3 m c (ix1 e) = Spec.endPos (pos m c) (ei m c) 1 e 0 := Head.V_v37 m c e
theorem X4_eq : Val.X4 m c (ix1 e) = Spec.endPos (pos m c) (ei m c) 1 e 1 := Head.V_v44 m c e
theorem X5_eq : Val.X5 m c (ix1 e) = Spec.endPos (pos m c) (ei m c) 1 e 2 := Head.V_v51 m c e

theorem X6_eq : Val.X6 m c (ix1 e) = eps m c (ix1 e) := congrFun (V_main_arg2 m c) (ix1 e)
theorem X7_eq : Val.X7 m c (ix1 e) = sg m c (ix1 e) := congrFun (V_main_arg3 m c) (ix1 e)

theorem ends0 : (![Val.X0 m c (ix1 e), Val.X1 m c (ix1 e), Val.X2 m c (ix1 e)] : Fin 3 → EReal)
    = Spec.endPos (pos m c) (ei m c) 0 e :=
  vec3_ext (f := Spec.endPos (pos m c) (ei m c) 0 e) (X0_eq m c e) (X1_eq m c e) (X2_eq m c e)
theorem ends1 : (![Val.X3 m c (ix1 e), Val.X4 m c (ix1 e), Val.X5 m c (ix1 e)] : Fin 3 → EReal)
    = Spec.endPos (pos m c) (ei m c) 1 e :=
  vec3_ext (f := Spec.endPos (pos m c) (ei m c) 1 e) (X3_eq m c e) (X4_eq m c e) (X5_eq m c e)

theorem EK_eq : Val.EK m c e = ED m c e :=
  show Pay.kedge _ _ _ _ = Pay.kedge _ _ _ _ from
    congr (congr (congr (congrArg Pay.kedge (ends0 m c e)) (ends1 m c e)) (X6_eq m c e)) (X7_eq m c e)

end PerEdge

theorem edge_lt (k : Fin 2) (s : Fin 25) (l : Fin 128000) : (k.val * 25 + s.val) * 128000 + l.val < 6400000 := by
  have := k.isLt; have := s.isLt; have := l.isLt; omega

theorem sum_edges_by_core_step {M : Type*} [AddCommMonoid M] (g : Fin 6400000 → M) :
    ∑ e : Fin 6400000, g e
      = ∑ k : Fin 2, ∑ s : Fin 25, ∑ l : Fin 128000, g ⟨(k.val * 25 + s.val) * 128000 + l.val, edge_lt k s l⟩ :=
  (Bridge.sum_edges_by_block g).trans
    (Bridge.sum_steps_by_core fun t : Fin 50 =>
      ∑ l : Fin 128000, g ⟨t.val * 128000 + l.val, by have := t.isLt; have := l.isLt; omega⟩)

theorem sum_cores (c : Dev nD) (φ : Spec.Edge → EReal) :
    (∑ k : Fin 2, ∑ s : Fin 25, ∑ l : Fin 128000, φ (Val.EK m c ⟨(k.val * 25 + s.val) * 128000 + l.val, edge_lt k s l⟩))
      = ∑ e : Fin 6400000, φ (ED m c e) :=
  ((sum_edges_by_core_step fun e => φ (ED m c e)).trans
    (Finset.sum_congr rfl fun k _ => Finset.sum_congr rfl fun s _ => Finset.sum_congr rfl fun l _ =>
      congrArg φ (EK_eq m c _).symm)).symm

section Results
variable (c : Dev nD)

theorem energy_eq :
    Pipeline.afterTail₀ cfgs (dats m) 0 (V0 m) [hostOps1] c main_v53 = fun _ => Spec.energy (ED m c) :=
  (Tail.tail_v53 m (dats m) c).trans (funext fun _ =>
    calc (∑ k : Fin 2, Tail.arr11 (dats m) c (ix3 k 0 0))
        = ∑ k : Fin 2, ∑ s : Fin 25, ∑ l : Fin 128000, (Val.EK m c ⟨(k.val * 25 + s.val) * 128000 + l.val, edge_lt k s l⟩).u :=
          Finset.sum_congr rfl fun k _ => Val.arr11 m c k
      _ = ∑ e : Fin 6400000, (ED m c e).u := sum_cores m c (fun x => x.u)
      _ = Spec.energy (ED m c) := rfl)

theorem virial_eq :
    Pipeline.afterTail₀ cfgs (dats m) 0 (V0 m) [hostOps1] c main_v54 = fun _ => Spec.virial (ED m c) :=
  (Tail.tail_v54 m (dats m) c).trans (funext fun _ =>
    calc (∑ k : Fin 2, Tail.arr12 (dats m) c (ix3 k 0 0))
        = ∑ k : Fin 2, ∑ s : Fin 25, ∑ l : Fin 128000, (Val.EK m c ⟨(k.val * 25 + s.val) * 128000 + l.val, edge_lt k s l⟩).w :=
          Finset.sum_congr rfl fun k _ => Val.arr12 m c k
      _ = ∑ e : Fin 6400000, (ED m c e).w := sum_cores m c (fun x => x.w)
      _ = Spec.virial (ED m c) := rfl)

theorem vtensor_eq (a b : Fin 3) :
    Pipeline.afterTail₀ cfgs (dats m) 0 (V0 m) [hostOps1] c main_v55 (ix2 a b) = Spec.vtensor (ED m c) a b :=
  (Tail.tail_v55 m (dats m) c a b).trans (
    calc (∑ k : Fin 2, Tail.arr13 (dats m) c (ix3 k a b))
        = ∑ k : Fin 2, ∑ s : Fin 25, ∑ l : Fin 128000,
            (Val.EK m c ⟨(k.val * 25 + s.val) * 128000 + l.val, edge_lt k s l⟩).f a
              * (Val.EK m c ⟨(k.val * 25 + s.val) * 128000 + l.val, edge_lt k s l⟩).r b :=
          Finset.sum_congr rfl fun k _ => Val.arr13 m c k a b
      _ = ∑ e : Fin 6400000, (ED m c e).f a * (ED m c e).r b := sum_cores m c (fun x => x.f a * x.r b)
      _ = Spec.vtensor (ED m c) a b := rfl)

theorem forceArr_eq (q : Fin 3) (e : Fin 6400000) :
    (![Tail.arr8 (dats m) c, Tail.arr9 (dats m) c, Tail.arr10 (dats m) c] q) (ix1 e) = (ED m c e).f q :=
  vec3_apply (Tail.arr8 (dats m) c) (Tail.arr9 (dats m) c) (Tail.arr10 (dats m) c) (ix1 e) (fun q => (ED m c e).f q)
    ((Val.arr8 m c e).trans (congrArg (fun x : Spec.Edge => x.f 0) (EK_eq m c e)))
    ((Val.arr9 m c e).trans (congrArg (fun x : Spec.Edge => x.f 1) (EK_eq m c e)))
    ((Val.arr10 m c e).trans (congrArg (fun x : Spec.Edge => x.f 2) (EK_eq m c e))) q

theorem force_eq (n : Fin 100000) (q : Fin 3) :
    Pipeline.afterTail₀ cfgs (dats m) 0 (V0 m) [hostOps1] c main_v70 (ix2 n q)
      = Spec.force (ED m c) (Spec.endWord (ei m c) 0) (Spec.endWord (ei m c) 1) n q := by
  refine (Tail.tail_v70 m (dats m) c (ei := ei m c) (Head.V_v1 m c) (Head.V_v3 m c) n q).trans ?_
  unfold Spec.force
  exact congrArg₂ (· + ·)
    (Finset.sum_congr rfl fun e _ => if_congr Iff.rfl (forceArr_eq m c q e) rfl)
    (Finset.sum_congr rfl fun e _ => if_congr Iff.rfl (congrArg Neg.neg (forceArr_eq m c q e)) rfl)

end Results

def forcesBuf (c : Dev nD) : Spec.SPos.Idx → EReal :=
  fun j => Spec.force (ED m c) (Spec.endWord (ei m c) 0) (Spec.endWord (ei m c) 1) (j 0) (j 1)

def tensorBuf (c : Dev nD) : (⟨2, ![3, 3]⟩ : Shape).Idx → EReal := fun j => Spec.vtensor (ED m c) (j 0) (j 1)

theorem kernel_run : θ_run defs (onTc (τ := τ) (main (F := Ideal))) ⟨m, fun _ => 0, ρ⟩ (fun r => ∀ c : Dev nD,
      r.2.mem ((c.tc : Thread nD τ).loc main_v53) = (fun _ => Spec.energy (ED m c))
      ∧ (∀ (n : Fin 100000) (q : Fin 3), r.2.mem ((c.tc : Thread nD τ).loc main_v70) (ix2 n q)
            = Spec.force (ED m c) (Spec.endWord (ei m c) 0) (Spec.endWord (ei m c) 1) n q)
      ∧ r.2.mem ((c.tc : Thread nD τ).loc main_v54) = (fun _ => Spec.virial (ED m c))
      ∧ (∀ a b : Fin 3, r.2.mem ((c.tc : Thread nD τ).loc main_v55) (ix2 a b) = Spec.vtensor (ED m c) a b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_v53 (Pipeline.mem_restRefs_of main_v53 (by decide) (by decide))).trans (energy_eq m c),
    fun n q => (congrFun ((h c).2 main_v70 (Pipeline.mem_restRefs_of main_v70 (by decide) (by decide))) (ix2 n q)).trans (force_eq m c n q),
    ((h c).2 main_v54 (Pipeline.mem_restRefs_of main_v54 (by decide) (by decide))).trans (virial_eq m c),
    fun a b => (congrFun ((h c).2 main_v55 (Pipeline.mem_restRefs_of main_v55 (by decide) (by decide))) (ix2 a b)).trans (vtensor_eq m c a b),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    ((h c).1 6).trans (((dats m 0 c).arrAt_in 6 rfl _).trans ((A_eq m c 6).trans (V_main_arg2 m c))),
    ((h c).1 7).trans (((dats m 0 c).arrAt_in 7 rfl _).trans ((A_eq m c 7).trans (V_main_arg3 m c)))⟩) (run_main m ρ)

theorem kernel_run_bufs : θ_run defs (onTc (τ := τ) (main (F := Ideal))) ⟨m, fun _ => 0, ρ⟩ (fun r => ∀ c : Dev nD,
      r.2.mem ((c.tc : Thread nD τ).loc main_v53) = (fun _ => Spec.energy (ED m c))
      ∧ r.2.mem ((c.tc : Thread nD τ).loc main_v70) = forcesBuf m c
      ∧ r.2.mem ((c.tc : Thread nD τ).loc main_v54) = (fun _ => Spec.virial (ED m c))
      ∧ r.2.mem ((c.tc : Thread nD τ).loc main_v55) = tensorBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1,
    funext fun j => by rw [eq_ix2 j]; exact (h c).2.1 (j 0) (j 1),
    (h c).2.2.1,
    funext fun j => by rw [eq_ix2 j]; exact (h c).2.2.2.1 (j 0) (j 1),
    (h c).2.2.2.2⟩) (kernel_run m ρ)

end Cert.KernelIdeal.Result

end
-- ==== Proof.RefRunOps.lean ====
import proofs.«420260_j7687991460463_2_alg».proof.Proof.Gen.ReferenceIdeal
import proofs.«420260_j7687991460463_2_alg».proof.Proof.LibAfter
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 ((extractStridedSlice S1x6400000 ![0, 0] · slices_S2x6400000_S1x6400000_0_0) : (⟨S2x6400000, .i32⟩ : BufTy).Contents (Elt F) → (⟨S1x6400000, .i32⟩ : BufTy).Contents (Elt F)),
    reshape main_v0 main_v1 rfl shapeCasts_S1x6400000_S6400000,
    unary main_arg1 main_v2 ((extractStridedSlice S1x6400000 ![1, 0] · slices_S2x6400000_S1x6400000_1_0) : (⟨S2x6400000, .i32⟩ : BufTy).Contents (Elt F) → (⟨S1x6400000, .i32⟩ : BufTy).Contents (Elt F)),
    reshape main_v2 main_v3 rfl shapeCasts_S1x6400000_S6400000,
    nullary main_c (constantI S_ 32 0#32),
    unary main_c main_v4 (broadcastInDim S6400000 ![] bcast_S_S6400000 : (⟨S_, .i32⟩ : BufTy).Contents (Elt F) → (⟨S6400000, .i32⟩ : BufTy).Contents (Elt F)),
    binary main_v1 main_v4 main_v5 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 100000#32),
    unary main_c_0 main_v6 (broadcastInDim S6400000 ![] bcast_S_S6400000 : (⟨S_, .i32⟩ : BufTy).Contents (Elt F) → (⟨S6400000, .i32⟩ : BufTy).Contents (Elt F)),
    binary main_v1 main_v6 main_v7 (addi : (⟨S6400000, .i32⟩ : BufTy).Contents (Elt F) → (⟨S6400000, .i32⟩ : BufTy).Contents (Elt F) → (⟨S6400000, .i32⟩ : BufTy).Contents (Elt F)),
    ternary main_v5 main_v7 main_v1 main_v8 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v8 main_v9 (broadcastInDim S6400000x1 ![0] bcast_S6400000_S6400000x1_0 : (⟨S6400000, .i32⟩ : BufTy).Contents (Elt F) → (⟨S6400000x1, .i32⟩ : BufTy).Contents (Elt F)),
    binary main_arg0 main_v9 main_v10 ((fun x i => Host.gather gather_S100000x3_S6400000x1_S6400000x3_1_0_n_n_0_1_13 x i) : (⟨S100000x3, .f32⟩ : BufTy).Contents (Elt F) → (⟨S6400000x1, .i32⟩ : BufTy).Contents (Elt F) → (⟨S6400000x3, .f32⟩ : BufTy).Contents (Elt F)),
    nullary main_c_1 (constantI S_ 32 0#32),
    unary main_c_1 main_v11 (broadcastInDim S6400000 ![] bcast_S_S6400000 : (⟨S_, .i32⟩ : BufTy).Contents (Elt F) → (⟨S6400000, .i32⟩ : BufTy).Contents (Elt F)),
    binary main_v3 main_v11 main_v12 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v13 (broadcastInDim S6400000 ![] bcast_S_S6400000 : (⟨S_, .i32⟩ : BufTy).Contents (Elt F) → (⟨S6400000, .i32⟩ : BufTy).Contents (Elt F)),
    binary main_v3 main_v13 main_v14 (addi : (⟨S6400000, .i32⟩ : BufTy).Contents (Elt F) → (⟨S6400000, .i32⟩ : BufTy).Contents (Elt F) → (⟨S6400000, .i32⟩ : BufTy).Contents (Elt F)),
    ternary main_v12 main_v14 main_v3 main_v15 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v15 main_v16 (broadcastInDim S6400000x1 ![0] bcast_S6400000_S6400000x1_0 : (⟨S6400000, .i32⟩ : BufTy).Contents (Elt F) → (⟨S6400000x1, .i32⟩ : BufTy).Contents (Elt F)),
    binary main_arg0 main_v16 main_v17 ((fun x i => Host.gather gather_S100000x3_S6400000x1_S6400000x3_1_0_n_n_0_1_13 x i) : (⟨S100000x3, .f32⟩ : BufTy).Contents (Elt F) → (⟨S6400000x1, .i32⟩ : BufTy).Contents (Elt F) → (⟨S6400000x3, .f32⟩ : BufTy).Contents (Elt F)),
    binary main_v10 main_v17 main_v18 (subf : (⟨S6400000x3, .f32⟩ : BufTy).Contents (Elt F) → (⟨S6400000x3, .f32⟩ : BufTy).Contents (Elt F) → (⟨S6400000x3, .f32⟩ : BufTy).Contents (Elt F)),
    nullary main_cst (constant S_ .f32 0x3F800000#32),
    unary main_cst main_v19 (broadcastInDim S6400000x3 ![] bcast_S_S6400000x3 : (⟨S_, .f32⟩ : BufTy).Contents (Elt F) → (⟨S6400000x3, .f32⟩ : BufTy).Contents (Elt F)),
    binary main_v18 main_v19 main_v20 (Host.divf : (⟨S6400000x3, .f32⟩ : BufTy).Contents (Elt F) → (⟨S6400000x3, .f32⟩ : BufTy).Contents (Elt F) → (⟨S6400000x3, .f32⟩ : BufTy).Contents (Elt F)),
    TRef.unary (TRef.of (T := ⟨S6400000x3, .f32⟩) main_v20) (TRef.of (T := ⟨S6400000x3, .f32⟩) main_v21) Host.roundeven,
    nullary main_cst_3 (constant S_ .f32 0x3F800000#32),
    unary main_cst_3 main_v22 (broadcastInDim S6400000x3 ![] bcast_S_S6400000x3 : (⟨S_, .f32⟩ : BufTy).Contents (Elt F) → (⟨S6400000x3, .f32⟩ : BufTy).Contents (Elt F)),
    binary main_v22 main_v21 main_v23 (mulf : (⟨S6400000x3, .f32⟩ : BufTy).Contents (Elt F) → (⟨S6400000x3, .f32⟩ : BufTy).Contents (Elt F) → (⟨S6400000x3, .f32⟩ : BufTy).Contents (Elt F)),
    binary main_v18 main_v23 main_v24 (subf : (⟨S6400000x3, .f32⟩ : BufTy).Contents (Elt F) → (⟨S6400000x3, .f32⟩ : BufTy).Contents (Elt F) → (⟨S6400000x3, .f32⟩ : BufTy).Contents (Elt F)),
    binary main_v24 main_v24 main_v25 (mulf : (⟨S6400000x3, .f32⟩ : BufTy).Contents (Elt F) → (⟨S6400000x3, .f32⟩ : BufTy).Contents (Elt F) → (⟨S6400000x3, .f32⟩ : BufTy).Contents (Elt F)),
    nullary main_cst_4 (constant S_ .f32 0x00000000#32),
    binary main_v25 main_cst_4 main_v26 ((fun x v => Host.reduceAdd x v reducesTo_S6400000x3_S6400000_d1 h_S_) : (⟨S6400000x3, .f32⟩ : BufTy).Contents (Elt F) → (⟨S_, .f32⟩ : BufTy).Contents (Elt F) → (⟨S6400000, .f32⟩ : BufTy).Contents (Elt F)),
    nullary main_cst_5 (constant S_ .f32 0x179ABE15#32),
    unary main_cst_5 main_v27 (broadcastInDim S6400000 ![] bcast_S_S6400000 : (⟨S_, .f32⟩ : BufTy).Contents (Elt F) → (⟨S6400000, .f32⟩ : BufTy).Contents (Elt F)),
    binary main_v26 main_v27 main_v28 (maximumf : (⟨S6400000, .f32⟩ : BufTy).Contents (Elt F) → (⟨S6400000, .f32⟩ : BufTy).Contents (Elt F) → (⟨S6400000, .f32⟩ : BufTy).Contents (Elt F)),
    unary main_v28 main_v29 (Host.sqrt : (⟨S6400000, .f32⟩ : BufTy).Contents (Elt F) → (⟨S6400000, .f32⟩ : BufTy).Contents (Elt F)),
    nullary main_cst_6 (constant S_ .f32 0x3F800000#32),
    unary main_cst_6 main_v30 (broadcastInDim S6400000 ![] bcast_S_S6400000 : (⟨S_, .f32⟩ : BufTy).Contents (Elt F) → (⟨S6400000, .f32⟩ : BufTy).Contents (Elt F)),
    binary main_v30 main_v29 main_v31 (Host.divf : (⟨S6400000, .f32⟩ : BufTy).Contents (Elt F) → (⟨S6400000, .f32⟩ : BufTy).Contents (Elt F) → (⟨S6400000, .f32⟩ : BufTy).Contents (Elt F)),
    unary main_v31 main_v32 (broadcastInDim S6400000x1 ![0] bcast_S6400000_S6400000x1_0 : (⟨S6400000, .f32⟩ : BufTy).Contents (Elt F) → (⟨S6400000x1, .f32⟩ : BufTy).Contents (Elt F)),
    unary main_v32 main_v33 (broadcastInDim S6400000x3 ![0, 1] bcast_S6400000x1_S6400000x3_0_1 : (⟨S6400000x1, .f32⟩ : BufTy).Contents (Elt F) → (⟨S6400000x3, .f32⟩ : BufTy).Contents (Elt F)),
    binary main_v24 main_v33 main_v34 (mulf : (⟨S6400000x3, .f32⟩ : BufTy).Contents (Elt F) → (⟨S6400000x3, .f32⟩ : BufTy).Contents (Elt F) → (⟨S6400000x3, .f32⟩ : BufTy).Contents (Elt F)),
    binary main_arg3 main_v31 main_v35 (mulf : (⟨S6400000, .f32⟩ : BufTy).Contents (Elt F) → (⟨S6400000, .f32⟩ : BufTy).Contents (Elt F) → (⟨S6400000, .f32⟩ : BufTy).Contents (Elt F)),
    binary main_v35 main_v35 main_v36 (mulf : (⟨S6400000, .f32⟩ : BufTy).Contents (Elt F) → (⟨S6400000, .f32⟩ : BufTy).Contents (Elt F) → (⟨S6400000, .f32⟩ : BufTy).Contents (Elt F)),
    binary main_v36 main_v36 main_v37 (mulf : (⟨S6400000, .f32⟩ : BufTy).Contents (Elt F) → (⟨S6400000, .f32⟩ : BufTy).Contents (Elt F) → (⟨S6400000, .f32⟩ : BufTy).Contents (Elt F)),
    binary main_v36 main_v37 main_v38 (mulf : (⟨S6400000, .f32⟩ : BufTy).Contents (Elt F) → (⟨S6400000, .f32⟩ : BufTy).Contents (Elt F) → (⟨S6400000, .f32⟩ : BufTy).Contents (Elt F)),
    binary main_v38 main_v38 main_v39 (mulf : (⟨S6400000, .f32⟩ : BufTy).Contents (Elt F) → (⟨S6400000, .f32⟩ : BufTy).Contents (Elt F) → (⟨S6400000, .f32⟩ : BufTy).Contents (Elt F)),
    nullary main_cst_7 (constant S_ .f32 0x40800000#32),
    unary main_cst_7 main_v40 (broadcastInDim S6400000 ![] bcast_S_S6400000 : (⟨S_, .f32⟩ : BufTy).Contents (Elt F) → (⟨S6400000, .f32⟩ : BufTy).Contents (Elt F)),
    binary main_v40 main_arg2 main_v41 (mulf : (⟨S6400000, .f32⟩ : BufTy).Contents (Elt F) → (⟨S6400000, .f32⟩ : BufTy).Contents (Elt F) → (⟨S6400000, .f32⟩ : BufTy).Contents (Elt F)),
    binary main_v39 main_v38 main_v42 (subf : (⟨S6400000, .f32⟩ : BufTy).Contents (Elt F) → (⟨S6400000, .f32⟩ : BufTy).Contents (Elt F) → (⟨S6400000, .f32⟩ : BufTy).Contents (Elt F)),
    binary main_v41 main_v42 main_v43 (mulf : (⟨S6400000, .f32⟩ : BufTy).Contents (Elt F) → (⟨S6400000, .f32⟩ : BufTy).Contents (Elt F) → (⟨S6400000, .f32⟩ : BufTy).Contents (Elt F)),
    nullary main_cst_8 (constant S_ .f32 0x41C00000#32),
    unary main_cst_8 main_v44 (broadcastInDim S6400000 ![] bcast_S_S6400000 : (⟨S_, .f32⟩ : BufTy).Contents (Elt F) → (⟨S6400000, .f32⟩ : BufTy).Contents (Elt F)),
    binary main_v44 main_arg2 main_v45 (mulf : (⟨S6400000, .f32⟩ : BufTy).Contents (Elt F) → (⟨S6400000, .f32⟩ : BufTy).Contents (Elt F) → (⟨S6400000, .f32⟩ : BufTy).Contents (Elt F)),
    binary main_v45 main_v31 main_v46 (mulf : (⟨S6400000, .f32⟩ : BufTy).Contents (Elt F) → (⟨S6400000, .f32⟩ : BufTy).Contents (Elt F) → (⟨S6400000, .f32⟩ : BufTy).Contents (Elt F)),
    nullary main_cst_9 (constant S_ .f32 0x40000000#32),
    unary main_cst_9 main_v47 (broadcastInDim S6400000 ![] bcast_S_S6400000 : (⟨S_, .f32⟩ : BufTy).Contents (Elt F) → (⟨S6400000, .f32⟩ : BufTy).Contents (Elt F)) ]

abbrev ops1 : List (HloOp τ sig (Elt F)) :=
  [ binary main_v47 main_v39 main_v48 (mulf : (⟨S6400000, .f32⟩ : BufTy).Contents (Elt F) → (⟨S6400000, .f32⟩ : BufTy).Contents (Elt F) → (⟨S6400000, .f32⟩ : BufTy).Contents (Elt F)),
    binary main_v48 main_v38 main_v49 (subf : (⟨S6400000, .f32⟩ : BufTy).Contents (Elt F) → (⟨S6400000, .f32⟩ : BufTy).Contents (Elt F) → (⟨S6400000, .f32⟩ : BufTy).Contents (Elt F)),
    binary main_v46 main_v49 main_v50 (mulf : (⟨S6400000, .f32⟩ : BufTy).Contents (Elt F) → (⟨S6400000, .f32⟩ : BufTy).Contents (Elt F) → (⟨S6400000, .f32⟩ : BufTy).Contents (Elt F)),
    nullary main_cst_10 (constant S_ .f32 0x3EE66666#32),
    unary main_cst_10 main_v51 (broadcastInDim S6400000 ![] bcast_S_S6400000 : (⟨S_, .f32⟩ : BufTy).Contents (Elt F) → (⟨S6400000, .f32⟩ : BufTy).Contents (Elt F)),
    binary main_v29 main_v51 main_v52 (subf : (⟨S6400000, .f32⟩ : BufTy).Contents (Elt F) → (⟨S6400000, .f32⟩ : BufTy).Contents (Elt F) → (⟨S6400000, .f32⟩ : BufTy).Contents (Elt F)),
    nullary main_cst_11 (constant S_ .f32 0x3D4CCCCD#32),
    unary main_cst_11 main_v53 (broadcastInDim S6400000 ![] bcast_S_S6400000 : (⟨S_, .f32⟩ : BufTy).Contents (Elt F) → (⟨S6400000, .f32⟩ : BufTy).Contents (Elt F)),
    binary main_v52 main_v53 main_v54 (Host.divf : (⟨S6400000, .f32⟩ : BufTy).Contents (Elt F) → (⟨S6400000, .f32⟩ : BufTy).Contents (Elt F) → (⟨S6400000, .f32⟩ : BufTy).Contents (Elt F)),
    nullary main_cst_12 (constant S_ .f32 0x00000000#32),
    nullary main_cst_13 (constant S_ .f32 0x3F800000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S6400000, .f32⟩) main_call1_v1) (broadcastInDim S6400000 ![] bcast_S_S6400000),
    TRef.binary (TRef.of (T := ⟨S6400000, .f32⟩) main_call1_v1) (TRef.of (T := ⟨S6400000, .f32⟩) main_v54) (TRef.of (T := ⟨S6400000, .f32⟩) main_call1_v2) maximumf,
    TRef.unary (TRef.of (T := ⟨S_, .f32⟩) main_cst_13) (TRef.of (T := ⟨S_, .f32⟩) main_call1_v3) id,
    TRef.unary (TRef.of (T := ⟨S_, .f32⟩) main_call1_v3) (TRef.of (T := ⟨S6400000, .f32⟩) main_call1_v4) (broadcastInDim S6400000 ![] bcast_S_S6400000),
    TRef.binary (TRef.of (T := ⟨S6400000, .f32⟩) main_call1_v4) (TRef.of (T := ⟨S6400000, .f32⟩) main_call1_v2) (TRef.of (T := ⟨S6400000, .f32⟩) main_v55) minimumf,
    binary main_v55 main_v55 main_v56 (mulf : (⟨S6400000, .f32⟩ : BufTy).Contents (Elt F) → (⟨S6400000, .f32⟩ : BufTy).Contents (Elt F) → (⟨S6400000, .f32⟩ : BufTy).Contents (Elt F)),
    binary main_v56 main_v55 main_v57 (mulf : (⟨S6400000, .f32⟩ : BufTy).Contents (Elt F) → (⟨S6400000, .f32⟩ : BufTy).Contents (Elt F) → (⟨S6400000, .f32⟩ : BufTy).Contents (Elt F)),
    nullary main_cst_14 (constant S_ .f32 0x41200000#32),
    unary main_cst_14 main_v58 (broadcastInDim S6400000 ![] bcast_S_S6400000 : (⟨S_, .f32⟩ : BufTy).Contents (Elt F) → (⟨S6400000, .f32⟩ : BufTy).Contents (Elt F)),
    binary main_v58 main_v57 main_v59 (mulf : (⟨S6400000, .f32⟩ : BufTy).Contents (Elt F) → (⟨S6400000, .f32⟩ : BufTy).Contents (Elt F) → (⟨S6400000, .f32⟩ : BufTy).Contents (Elt F)),
    nullary main_cst_15 (constant S_ .f32 0x3F800000#32),
    unary main_cst_15 main_v60 (broadcastInDim S6400000 ![] bcast_S_S6400000 : (⟨S_, .f32⟩ : BufTy).Contents (Elt F) → (⟨S6400000, .f32⟩ : BufTy).Contents (Elt F)),
    binary main_v60 main_v59 main_v61 (subf : (⟨S6400000, .f32⟩ : BufTy).Contents (Elt F) → (⟨S6400000, .f32⟩ : BufTy).Contents (Elt F) → (⟨S6400000, .f32⟩ : BufTy).Contents (Elt F)),
    binary main_v55 main_v55 main_v62 (mulf : (⟨S6400000, .f32⟩ : BufTy).Contents (Elt F) → (⟨S6400000, .f32⟩ : BufTy).Contents (Elt F) → (⟨S6400000, .f32⟩ : BufTy).Contents (Elt F)),
    binary main_v62 main_v62 main_v63 (mulf : (⟨S6400000, .f32⟩ : BufTy).Contents (Elt F) → (⟨S6400000, .f32⟩ : BufTy).Contents (Elt F) → (⟨S6400000, .f32⟩ : BufTy).Contents (Elt F)),
    nullary main_cst_16 (constant S_ .f32 0x41700000#32),
    unary main_cst_16 main_v64 (broadcastInDim S6400000 ![] bcast_S_S6400000 : (⟨S_, .f32⟩ : BufTy).Contents (Elt F) → (⟨S6400000, .f32⟩ : BufTy).Contents (Elt F)),
    binary main_v64 main_v63 main_v65 (mulf : (⟨S6400000, .f32⟩ : BufTy).Contents (Elt F) → (⟨S6400000, .f32⟩ : BufTy).Contents (Elt F) → (⟨S6400000, .f32⟩ : BufTy).Contents (Elt F)),
    binary main_v61 main_v65 main_v66 (addf : (⟨S6400000, .f32⟩ : BufTy).Contents (Elt F) → (⟨S6400000, .f32⟩ : BufTy).Contents (Elt F) → (⟨S6400000, .f32⟩ : BufTy).Contents (Elt F)),
    binary main_v55 main_v55 main_v67 (mulf : (⟨S6400000, .f32⟩ : BufTy).Contents (Elt F) → (⟨S6400000, .f32⟩ : BufTy).Contents (Elt F) → (⟨S6400000, .f32⟩ : BufTy).Contents (Elt F)),
    binary main_v67 main_v67 main_v68 (mulf : (⟨S6400000, .f32⟩ : BufTy).Contents (Elt F) → (⟨S6400000, .f32⟩ : BufTy).Contents (Elt F) → (⟨S6400000, .f32⟩ : BufTy).Contents (Elt F)),
    binary main_v55 main_v68 main_v69 (mulf : (⟨S6400000, .f32⟩ : BufTy).Contents (Elt F) → (⟨S6400000, .f32⟩ : BufTy).Contents (Elt F) → (⟨S6400000, .f32⟩ : BufTy).Contents (Elt F)),
    nullary main_cst_17 (constant S_ .f32 0x40C00000#32),
    unary main_cst_17 main_v70 (broadcastInDim S6400000 ![] bcast_S_S6400000 : (⟨S_, .f32⟩ : BufTy).Contents (Elt F) → (⟨S6400000, .f32⟩ : BufTy).Contents (Elt F)),
    binary main_v70 main_v69 main_v71 (mulf : (⟨S6400000, .f32⟩ : BufTy).Contents (Elt F) → (⟨S6400000, .f32⟩ : BufTy).Contents (Elt F) → (⟨S6400000, .f32⟩ : BufTy).Contents (Elt F)),
    binary main_v66 main_v71 main_v72 (subf : (⟨S6400000, .f32⟩ : BufTy).Contents (Elt F) → (⟨S6400000, .f32⟩ : BufTy).Contents (Elt F) → (⟨S6400000, .f32⟩ : BufTy).Contents (Elt F)),
    binary main_v55 main_v55 main_v73 (mulf : (⟨S6400000, .f32⟩ : BufTy).Contents (Elt F) → (⟨S6400000, .f32⟩ : BufTy).Contents (Elt F) → (⟨S6400000, .f32⟩ : BufTy).Contents (Elt F)),
    nullary main_cst_18 (constant S_ .f32 0xC1F00000#32),
    unary main_cst_18 main_v74 (broadcastInDim S6400000 ![] bcast_S_S6400000 : (⟨S_, .f32⟩ : BufTy).Contents (Elt F) → (⟨S6400000, .f32⟩ : BufTy).Contents (Elt F)),
    binary main_v74 main_v73 main_v75 (mulf : (⟨S6400000, .f32⟩ : BufTy).Contents (Elt F) → (⟨S6400000, .f32⟩ : BufTy).Contents (Elt F) → (⟨S6400000, .f32⟩ : BufTy).Contents (Elt F)),
    binary main_v55 main_v55 main_v76 (mulf : (⟨S6400000, .f32⟩ : BufTy).Contents (Elt F) → (⟨S6400000, .f32⟩ : BufTy).Contents (Elt F) → (⟨S6400000, .f32⟩ : BufTy).Contents (Elt F)),
    binary main_v76 main_v55 main_v77 (mulf : (⟨S6400000, .f32⟩ : BufTy).Contents (Elt F) → (⟨S6400000, .f32⟩ : BufTy).Contents (Elt F) → (⟨S6400000, .f32⟩ : BufTy).Contents (Elt F)),
    nullary main_cst_19 (constant S_ .f32 0x42700000#32),
    unary main_cst_19 main_v78 (broadcastInDim S6400000 ![] bcast_S_S6400000 : (⟨S_, .f32⟩ : BufTy).Contents (Elt F) → (⟨S6400000, .f32⟩ : BufTy).Contents (Elt F)),
    binary main_v78 main_v77 main_v79 (mulf : (⟨S6400000, .f32⟩ : BufTy).Contents (Elt F) → (⟨S6400000, .f32⟩ : BufTy).Contents (Elt F) → (⟨S6400000, .f32⟩ : BufTy).Contents (Elt F)),
    binary main_v75 main_v79 main_v80 (addf : (⟨S6400000, .f32⟩ : BufTy).Contents (Elt F) → (⟨S6400000, .f32⟩ : BufTy).Contents (Elt F) → (⟨S6400000, .f32⟩ : BufTy).Contents (Elt F)),
    binary main_v55 main_v55 main_v81 (mulf : (⟨S6400000, .f32⟩ : BufTy).Contents (Elt F) → (⟨S6400000, .f32⟩ : BufTy).Contents (Elt F) → (⟨S6400000, .f32⟩ : BufTy).Contents (Elt F)),
    binary main_v81 main_v81 main_v82 (mulf : (⟨S6400000, .f32⟩ : BufTy).Contents (Elt F) → (⟨S6400000, .f32⟩ : BufTy).Contents (Elt F) → (⟨S6400000, .f32⟩ : BufTy).Contents (Elt F)),
    nullary main_cst_20 (constant S_ .f32 0x41F00000#32),
    unary main_cst_20 main_v83 (broadcastInDim S6400000 ![] bcast_S_S6400000 : (⟨S_, .f32⟩ : BufTy).Contents (Elt F) → (⟨S6400000, .f32⟩ : BufTy).Contents (Elt F)),
    binary main_v83 main_v82 main_v84 (mulf : (⟨S6400000, .f32⟩ : BufTy).Contents (Elt F) → (⟨S6400000, .f32⟩ : BufTy).Contents (Elt F) → (⟨S6400000, .f32⟩ : BufTy).Contents (Elt F)),
    binary main_v80 main_v84 main_v85 (subf : (⟨S6400000, .f32⟩ : BufTy).Contents (Elt F) → (⟨S6400000, .f32⟩ : BufTy).Contents (Elt F) → (⟨S6400000, .f32⟩ : BufTy).Contents (Elt F)),
    nullary main_cst_21 (constant S_ .f32 0x3D4CCCCD#32),
    unary main_cst_21 main_v86 (broadcastInDim S6400000 ![] bcast_S_S6400000 : (⟨S_, .f32⟩ : BufTy).Contents (Elt F) → (⟨S6400000, .f32⟩ : BufTy).Contents (Elt F)),
    binary main_v85 main_v86 main_v87 (Host.divf : (⟨S6400000, .f32⟩ : BufTy).Contents (Elt F) → (⟨S6400000, .f32⟩ : BufTy).Contents (Elt F) → (⟨S6400000, .f32⟩ : BufTy).Contents (Elt F)),
    nullary main_cst_22 (constant S_ .f32 0x3EE66666#32),
    unary main_cst_22 main_v88 (broadcastInDim S6400000 ![] bcast_S_S6400000 : (⟨S_, .f32⟩ : BufTy).Contents (Elt F) → (⟨S6400000, .f32⟩ : BufTy).Contents (Elt F)),
    binary main_v29 main_v88 main_v89 (cmpf .ogt : (⟨S6400000, .f32⟩ : BufTy).Contents (Elt F) → (⟨S6400000, .f32⟩ : BufTy).Contents (Elt F) → (⟨S6400000, .i1⟩ : BufTy).Contents (Elt F)),
    nullary main_cst_23 (constant S_ .f32 0x3F000000#32),
    unary main_cst_23 main_v90 (broadcastInDim S6400000 ![] bcast_S_S6400000 : (⟨S_, .f32⟩ : BufTy).Contents (Elt F) → (⟨S6400000, .f32⟩ : BufTy).Contents (Elt F)),
    binary main_v29 main_v90 main_v91 (cmpf .olt : (⟨S6400000, .f32⟩ : BufTy).Contents (Elt F) → (⟨S6400000, .f32⟩ : BufTy).Contents (Elt F) → (⟨S6400000, .i1⟩ : BufTy).Contents (Elt F)),
    binary main_v89 main_v91 main_v92 (andi : (⟨S6400000, .i1⟩ : BufTy).Contents (Elt F) → (⟨S6400000, .i1⟩ : BufTy).Contents (Elt F) → (⟨S6400000, .i1⟩ : BufTy).Contents (Elt F)),
    nullary main_cst_24 (constant S_ .f32 0x3EE66666#32) ]

abbrev ops2 : List (HloOp τ sig (Elt F)) :=
  [ unary main_cst_24 main_v93 (broadcastInDim S6400000 ![] bcast_S_S6400000 : (⟨S_, .f32⟩ : BufTy).Contents (Elt F) → (⟨S6400000, .f32⟩ : BufTy).Contents (Elt F)),
    binary main_v29 main_v93 main_v94 (cmpf .ole : (⟨S6400000, .f32⟩ : BufTy).Contents (Elt F) → (⟨S6400000, .f32⟩ : BufTy).Contents (Elt F) → (⟨S6400000, .i1⟩ : BufTy).Contents (Elt F)),
    nullary main_cst_25 (constant S_ .f32 0x00000000#32),
    TRef.unary (TRef.of (T := ⟨S_, .f32⟩) main_cst_25) (TRef.of (T := ⟨S_, .f32⟩) main_call2_v0) id,
    TRef.unary (TRef.of (T := ⟨S_, .f32⟩) main_call2_v0) (TRef.of (T := ⟨S6400000, .f32⟩) main_call2_v1) (broadcastInDim S6400000 ![] bcast_S_S6400000),
    TRef.ternary (TRef.of (T := ⟨S6400000, .i1⟩) main_v92) (TRef.of (T := ⟨S6400000, .f32⟩) main_v72) (TRef.of (T := ⟨S6400000, .f32⟩) main_call2_v1) (TRef.of (T := ⟨S6400000, .f32⟩) main_v95) select,
    nullary main_cst_26 (constant S_ .f32 0x3F800000#32),
    TRef.unary (TRef.of (T := ⟨S_, .f32⟩) main_cst_26) (TRef.of (T := ⟨S_, .f32⟩) main_call3_v0) id,
    TRef.unary (TRef.of (T := ⟨S_, .f32⟩) main_call3_v0) (TRef.of (T := ⟨S6400000, .f32⟩) main_call3_v1) (broadcastInDim S6400000 ![] bcast_S_S6400000),
    TRef.ternary (TRef.of (T := ⟨S6400000, .i1⟩) main_v94) (TRef.of (T := ⟨S6400000, .f32⟩) main_call3_v1) (TRef.of (T := ⟨S6400000, .f32⟩) main_v95) (TRef.of (T := ⟨S6400000, .f32⟩) main_v96) select,
    nullary main_cst_27 (constant S_ .f32 0x00000000#32),
    TRef.unary (TRef.of (T := ⟨S_, .f32⟩) main_cst_27) (TRef.of (T := ⟨S_, .f32⟩) main_call4_v0) id,
    TRef.unary (TRef.of (T := ⟨S_, .f32⟩) main_call4_v0) (TRef.of (T := ⟨S6400000, .f32⟩) main_call4_v1) (broadcastInDim S6400000 ![] bcast_S_S6400000),
    TRef.ternary (TRef.of (T := ⟨S6400000, .i1⟩) main_v92) (TRef.of (T := ⟨S6400000, .f32⟩) main_v87) (TRef.of (T := ⟨S6400000, .f32⟩) main_call4_v1) (TRef.of (T := ⟨S6400000, .f32⟩) main_v97) select,
    binary main_v43 main_v96 main_v98 (mulf : (⟨S6400000, .f32⟩ : BufTy).Contents (Elt F) → (⟨S6400000, .f32⟩ : BufTy).Contents (Elt F) → (⟨S6400000, .f32⟩ : BufTy).Contents (Elt F)),
    binary main_v50 main_v96 main_v99 (mulf : (⟨S6400000, .f32⟩ : BufTy).Contents (Elt F) → (⟨S6400000, .f32⟩ : BufTy).Contents (Elt F) → (⟨S6400000, .f32⟩ : BufTy).Contents (Elt F)),
    binary main_v43 main_v97 main_v100 (mulf : (⟨S6400000, .f32⟩ : BufTy).Contents (Elt F) → (⟨S6400000, .f32⟩ : BufTy).Contents (Elt F) → (⟨S6400000, .f32⟩ : BufTy).Contents (Elt F)),
    binary main_v99 main_v100 main_v101 (subf : (⟨S6400000, .f32⟩ : BufTy).Contents (Elt F) → (⟨S6400000, .f32⟩ : BufTy).Contents (Elt F) → (⟨S6400000, .f32⟩ : BufTy).Contents (Elt F)),
    nullary main_cst_28 (constant S_ .f32 0x3F000000#32),
    unary main_cst_28 main_v102 (broadcastInDim S6400000 ![] bcast_S_S6400000 : (⟨S_, .f32⟩ : BufTy).Contents (Elt F) → (⟨S6400000, .f32⟩ : BufTy).Contents (Elt F)),
    binary main_v29 main_v102 main_v103 (cmpf .olt : (⟨S6400000, .f32⟩ : BufTy).Contents (Elt F) → (⟨S6400000, .f32⟩ : BufTy).Contents (Elt F) → (⟨S6400000, .i1⟩ : BufTy).Contents (Elt F)),
    unary main_v103 main_v104 (uitofp .f32 : (⟨S6400000, .i1⟩ : BufTy).Contents (Elt F) → (⟨S6400000, .f32⟩ : BufTy).Contents (Elt F)),
    binary main_v101 main_v104 main_v105 (mulf : (⟨S6400000, .f32⟩ : BufTy).Contents (Elt F) → (⟨S6400000, .f32⟩ : BufTy).Contents (Elt F) → (⟨S6400000, .f32⟩ : BufTy).Contents (Elt F)),
    binary main_v98 main_v104 main_v106 (mulf : (⟨S6400000, .f32⟩ : BufTy).Contents (Elt F) → (⟨S6400000, .f32⟩ : BufTy).Contents (Elt F) → (⟨S6400000, .f32⟩ : BufTy).Contents (Elt F)),
    unary main_v105 main_v107 (broadcastInDim S6400000x1 ![0] bcast_S6400000_S6400000x1_0 : (⟨S6400000, .f32⟩ : BufTy).Contents (Elt F) → (⟨S6400000x1, .f32⟩ : BufTy).Contents (Elt F)),
    unary main_v107 main_v108 (broadcastInDim S6400000x3 ![0, 1] bcast_S6400000x1_S6400000x3_0_1 : (⟨S6400000x1, .f32⟩ : BufTy).Contents (Elt F) → (⟨S6400000x3, .f32⟩ : BufTy).Contents (Elt F)),
    binary main_v108 main_v34 main_v109 (mulf : (⟨S6400000x3, .f32⟩ : BufTy).Contents (Elt F) → (⟨S6400000x3, .f32⟩ : BufTy).Contents (Elt F) → (⟨S6400000x3, .f32⟩ : BufTy).Contents (Elt F)),
    nullary main_cst_29 (constant S_ .f32 0x00000000#32),
    unary main_cst_29 main_v110 (broadcastInDim S100000x3 ![] bcast_S_S100000x3 : (⟨S_, .f32⟩ : BufTy).Contents (Elt F) → (⟨S100000x3, .f32⟩ : BufTy).Contents (Elt F)),
    nullary main_c_30 (constantI S_ 32 0#32),
    unary main_c_30 main_v111 (broadcastInDim S6400000 ![] bcast_S_S6400000 : (⟨S_, .i32⟩ : BufTy).Contents (Elt F) → (⟨S6400000, .i32⟩ : BufTy).Contents (Elt F)),
    binary main_v1 main_v111 main_v112 (cmpi .slt : (⟨S6400000, .i32⟩ : BufTy).Contents (Elt F) → (⟨S6400000, .i32⟩ : BufTy).Contents (Elt F) → (⟨S6400000, .i1⟩ : BufTy).Contents (Elt F)),
    nullary main_c_31 (constantI S_ 32 100000#32),
    unary main_c_31 main_v113 (broadcastInDim S6400000 ![] bcast_S_S6400000 : (⟨S_, .i32⟩ : BufTy).Contents (Elt F) → (⟨S6400000, .i32⟩ : BufTy).Contents (Elt F)),
    binary main_v1 main_v113 main_v114 (addi : (⟨S6400000, .i32⟩ : BufTy).Contents (Elt F) → (⟨S6400000, .i32⟩ : BufTy).Contents (Elt F) → (⟨S6400000, .i32⟩ : BufTy).Contents (Elt F)),
    ternary main_v112 main_v114 main_v1 main_v115 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v115 main_v116 (broadcastInDim S6400000x1 ![0] bcast_S6400000_S6400000x1_0 : (⟨S6400000, .i32⟩ : BufTy).Contents (Elt F) → (⟨S6400000x1, .i32⟩ : BufTy).Contents (Elt F)),
    ternary main_v110 main_v116 main_v109 main_v117 ((fun x i u => Host.scatterAdd scatter_S100000x3_S6400000x1_S6400000x3_1_0_0_1 x i u) : (⟨S100000x3, .f32⟩ : BufTy).Contents (Elt F) → (⟨S6400000x1, .i32⟩ : BufTy).Contents (Elt F) → (⟨S6400000x3, .f32⟩ : BufTy).Contents (Elt F) → (⟨S100000x3, .f32⟩ : BufTy).Contents (Elt F)),
    unary main_v109 main_v118 (Host.negf : (⟨S6400000x3, .f32⟩ : BufTy).Contents (Elt F) → (⟨S6400000x3, .f32⟩ : BufTy).Contents (Elt F)),
    nullary main_c_32 (constantI S_ 32 0#32),
    unary main_c_32 main_v119 (broadcastInDim S6400000 ![] bcast_S_S6400000 : (⟨S_, .i32⟩ : BufTy).Contents (Elt F) → (⟨S6400000, .i32⟩ : BufTy).Contents (Elt F)),
    binary main_v3 main_v119 main_v120 (cmpi .slt : (⟨S6400000, .i32⟩ : BufTy).Contents (Elt F) → (⟨S6400000, .i32⟩ : BufTy).Contents (Elt F) → (⟨S6400000, .i1⟩ : BufTy).Contents (Elt F)),
    nullary main_c_33 (constantI S_ 32 100000#32),
    unary main_c_33 main_v121 (broadcastInDim S6400000 ![] bcast_S_S6400000 : (⟨S_, .i32⟩ : BufTy).Contents (Elt F) → (⟨S6400000, .i32⟩ : BufTy).Contents (Elt F)),
    binary main_v3 main_v121 main_v122 (addi : (⟨S6400000, .i32⟩ : BufTy).Contents (Elt F) → (⟨S6400000, .i32⟩ : BufTy).Contents (Elt F) → (⟨S6400000, .i32⟩ : BufTy).Contents (Elt F)),
    ternary main_v120 main_v122 main_v3 main_v123 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v123 main_v124 (broadcastInDim S6400000x1 ![0] bcast_S6400000_S6400000x1_0 : (⟨S6400000, .i32⟩ : BufTy).Contents (Elt F) → (⟨S6400000x1, .i32⟩ : BufTy).Contents (Elt F)),
    ternary main_v117 main_v124 main_v118 main_v125 ((fun x i u => Host.scatterAdd scatter_S100000x3_S6400000x1_S6400000x3_1_0_0_1 x i u) : (⟨S100000x3, .f32⟩ : BufTy).Contents (Elt F) → (⟨S6400000x1, .i32⟩ : BufTy).Contents (Elt F) → (⟨S6400000x3, .f32⟩ : BufTy).Contents (Elt F) → (⟨S100000x3, .f32⟩ : BufTy).Contents (Elt F)),
    nullary main_cst_34 (constant S_ .f32 0x00000000#32),
    binary main_v106 main_cst_34 main_v126 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F)),
    binary main_v105 main_v29 main_v127 (mulf : (⟨S6400000, .f32⟩ : BufTy).Contents (Elt F) → (⟨S6400000, .f32⟩ : BufTy).Contents (Elt F) → (⟨S6400000, .f32⟩ : BufTy).Contents (Elt F)),
    binary main_v127 main_v104 main_v128 (mulf : (⟨S6400000, .f32⟩ : BufTy).Contents (Elt F) → (⟨S6400000, .f32⟩ : BufTy).Contents (Elt F) → (⟨S6400000, .f32⟩ : BufTy).Contents (Elt F)),
    nullary main_cst_35 (constant S_ .f32 0x00000000#32),
    binary main_v128 main_cst_35 main_v129 ((fun x v => Host.reduceAdd x v reducesTo_S6400000_S_d0 h_S_) : (⟨S6400000, .f32⟩ : BufTy).Contents (Elt F) → (⟨S_, .f32⟩ : BufTy).Contents (Elt F) → (⟨S_, .f32⟩ : BufTy).Contents (Elt F)),
    binary main_v109 main_v24 main_v130 ((fun l r => Host.dotGeneral dot_S6400000x3_S6400000x3_S3x3_0_0_1_1_n_n none l r) : (⟨S6400000x3, .f32⟩ : BufTy).Contents (Elt F) → (⟨S6400000x3, .f32⟩ : BufTy).Contents (Elt F) → (⟨S3x3, .f32⟩ : BufTy).Contents (Elt F)) ]

abbrev ops : List (HloOp τ sig (Elt F)) := ops0 ++ (ops1 ++ ops2)

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl

theorem main_eq (c : Dev nD) : main (F := F) c = seq ops := by
  unfold main
  rw [seq_append, seq_append, part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., unary_bufs_sub .., unary_bufs_sub .., binary_bufs_sub .., binary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub ..⟩

theorem ops1_sub : (ops1 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub ..⟩

theorem ops2_sub : (ops2 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., binary_bufs_sub .., binary_bufs_sub .., nullary_bufs_sub .., binary_bufs_sub .., binary_bufs_sub ..⟩

theorem forall_append {α : Type} {P : α → Prop} {l₁ l₂ : List α} (h₁ : l₁.Forall P) (h₂ : l₂.Forall P) : (l₁ ++ l₂).Forall P :=
  List.forall_iff_forall_mem.mpr fun a ha =>
    (List.mem_append.mp ha).elim (List.forall_iff_forall_mem.mp h₁ a) (List.forall_iff_forall_mem.mp h₂ a)

theorem ops_sub : (ops : List (HloOp τ sig (Elt F))).Forall fun op => op.bufs ⊆ tcRefs τ sig :=
  forall_append ops0_sub (forall_append ops1_sub ops2_sub)

theorem fresh0 : ∀ op ∈ (ops0 : List (HloOp τ sig (Elt F))), op.fresh = ∅ := by
  intro _ h; (repeat (cases h with | head => rfl | tail _ h => ?_)); exact nomatch h

theorem fresh1 : ∀ op ∈ (ops1 : List (HloOp τ sig (Elt F))), op.fresh = ∅ := by
  intro _ h; (repeat (cases h with | head => rfl | tail _ h => ?_)); exact nomatch h

theorem fresh2 : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.mp h).elim (fresh0 op) fun h' => (List.mem_append.mp h').elim (fresh1 op) (fresh2 op)

theorem after_ops (V : Valuation τ sig (Elt F)) : after ops V = after ops2 (after ops1 (after ops0 V)) := by
  show after (ops0 ++ (ops1 ++ ops2)) V = _
  rw [Cert.Lib.after_append, Cert.Lib.after_append]

end Cert.ReferenceIdeal.RefRun

end
-- ==== Proof.RefRunHand.lean ====
import proofs.«420260_j7687991460463_2_alg».proof.Proof.RefStagesH
import proofs.«420260_j7687991460463_2_alg».proof.Proof.RefRunOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in

theorem after_v126 (V : Valuation τ sig (Elt F)) :
    after ops V (Proc.devRef .tc main_v126) = Cert.ReferenceIdeal.ReadH.val_main_v126 (F := F) (V (Proc.devRef .tc main_arg0)) (V (Proc.devRef .tc main_arg1)) (V (Proc.devRef .tc main_arg2)) (V (Proc.devRef .tc main_arg3)) := by
  rw [after_ops]
  after_results_simp <;> (try simp only [TRef.ofBuf, TRef.toBuf, cast_eq]) <;> rfl

set_option maxRecDepth 8192 in
set_option maxHeartbeats 40000000 in

theorem after_v125 (V : Valuation τ sig (Elt F)) :
    after ops V (Proc.devRef .tc main_v125) = Cert.ReferenceIdeal.ReadH.val_main_v125 (F := F) (V (Proc.devRef .tc main_arg0)) (V (Proc.devRef .tc main_arg1)) (V (Proc.devRef .tc main_arg2)) (V (Proc.devRef .tc main_arg3)) := by
  rw [after_ops]
  after_results_simp <;> (try simp only [TRef.ofBuf, TRef.toBuf, cast_eq]) <;> rfl

set_option maxRecDepth 8192 in
set_option maxHeartbeats 40000000 in

theorem after_v129 (V : Valuation τ sig (Elt F)) :
    after ops V (Proc.devRef .tc main_v129) = Cert.ReferenceIdeal.ReadH.val_main_v129 (F := F) (V (Proc.devRef .tc main_arg0)) (V (Proc.devRef .tc main_arg1)) (V (Proc.devRef .tc main_arg2)) (V (Proc.devRef .tc main_arg3)) := by
  rw [after_ops]
  after_results_simp <;> (try simp only [TRef.ofBuf, TRef.toBuf, cast_eq]) <;> rfl

set_option maxRecDepth 8192 in
set_option maxHeartbeats 40000000 in

theorem after_v130 (V : Valuation τ sig (Elt F)) :
    after ops V (Proc.devRef .tc main_v130) = Cert.ReferenceIdeal.ReadH.val_main_v130 (F := F) (V (Proc.devRef .tc main_arg0)) (V (Proc.devRef .tc main_arg1)) (V (Proc.devRef .tc main_arg2)) (V (Proc.devRef .tc main_arg3)) := by
  rw [after_ops]
  after_results_simp <;> (try simp only [TRef.ofBuf, TRef.toBuf, cast_eq]) <;> rfl

set_option maxRecDepth 8192 in
set_option maxHeartbeats 40000000 in
theorem after_arg0 (V : Valuation τ sig (Elt F)) : after ops V (Proc.devRef .tc main_arg0) = V (Proc.devRef .tc main_arg0) := by
  rw [after_ops]
  after_results_simp

set_option maxRecDepth 8192 in
set_option maxHeartbeats 40000000 in
theorem after_arg1 (V : Valuation τ sig (Elt F)) : after ops V (Proc.devRef .tc main_arg1) = V (Proc.devRef .tc main_arg1) := by
  rw [after_ops]
  after_results_simp

set_option maxRecDepth 8192 in
set_option maxHeartbeats 40000000 in
theorem after_arg2 (V : Valuation τ sig (Elt F)) : after ops V (Proc.devRef .tc main_arg2) = V (Proc.devRef .tc main_arg2) := by
  rw [after_ops]
  after_results_simp

set_option maxRecDepth 8192 in
set_option maxHeartbeats 40000000 in
theorem after_arg3 (V : Valuation τ sig (Elt F)) : after ops V (Proc.devRef .tc main_arg3) = V (Proc.devRef .tc main_arg3) := by
  rw [after_ops]
  after_results_simp

abbrev R0 (m : (ℓ : Loc nD τ sig) → Buf (Elt F) ℓ) (c : Dev nD) : Buf (Elt F) ((c.tc : Thread nD τ).loc main_v126) :=
  Cert.ReferenceIdeal.ReadH.val_main_v126 (F := F) (m ((c.tc : Thread nD τ).loc main_arg0)) (m ((c.tc : Thread nD τ).loc main_arg1)) (m ((c.tc : Thread nD τ).loc main_arg2)) (m ((c.tc : Thread nD τ).loc main_arg3))
abbrev R1 (m : (ℓ : Loc nD τ sig) → Buf (Elt F) ℓ) (c : Dev nD) : Buf (Elt F) ((c.tc : Thread nD τ).loc main_v125) :=
  Cert.ReferenceIdeal.ReadH.val_main_v125 (F := F) (m ((c.tc : Thread nD τ).loc main_arg0)) (m ((c.tc : Thread nD τ).loc main_arg1)) (m ((c.tc : Thread nD τ).loc main_arg2)) (m ((c.tc : Thread nD τ).loc main_arg3))
abbrev R2 (m : (ℓ : Loc nD τ sig) → Buf (Elt F) ℓ) (c : Dev nD) : Buf (Elt F) ((c.tc : Thread nD τ).loc main_v129) :=
  Cert.ReferenceIdeal.ReadH.val_main_v129 (F := F) (m ((c.tc : Thread nD τ).loc main_arg0)) (m ((c.tc : Thread nD τ).loc main_arg1)) (m ((c.tc : Thread nD τ).loc main_arg2)) (m ((c.tc : Thread nD τ).loc main_arg3))
abbrev R3 (m : (ℓ : Loc nD τ sig) → Buf (Elt F) ℓ) (c : Dev nD) : Buf (Elt F) ((c.tc : Thread nD τ).loc main_v130) :=
  Cert.ReferenceIdeal.ReadH.val_main_v130 (F := F) (m ((c.tc : Thread nD τ).loc main_arg0)) (m ((c.tc : Thread nD τ).loc main_arg1)) (m ((c.tc : Thread nD τ).loc main_arg2)) (m ((c.tc : Thread nD τ).loc main_arg3))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v126) = R0 m c
      ∧ r.2.mem ((c.tc : Thread nD τ).loc main_v125) = R1 m c
      ∧ r.2.mem ((c.tc : Thread nD τ).loc main_v129) = R2 m c
      ∧ r.2.mem ((c.tc : Thread nD τ).loc main_v130) = R3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v126).trans (after_v126 _),
      (h c main_v125).trans (after_v125 _),
      (h c main_v129).trans (after_v129 _),
      (h c main_v130).trans (after_v130 _),
      (h c main_arg0).trans (after_arg0 _),
      (h c main_arg1).trans (after_arg1 _),
      (h c main_arg2).trans (after_arg2 _),
      (h c main_arg3).trans (after_arg3 _)⟩)
    (run_seq scopedRefs_eq scopedSems_eq defs main (fun _ => ops) main_eq (fun _ => ops_sub) m ρ (fun _ => ops_fresh))

end Cert.ReferenceIdeal.RefRun

end
-- ==== Proof.RefReadH.lean ====
import proofs.«420260_j7687991460463_2_alg».proof.Proof.RefStagesH
import proofs.«420260_j7687991460463_2_alg».proof.Proof.RefRunHand
import proofs.«420260_j7687991460463_2_alg».proof.Proof.Spec
import proofs.«420260_j7687991460463_2_alg».proof.Proof.LibRows
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.StableHlo.Predicate

noncomputable section

open scoped BigOperators

namespace Cert.ReferenceIdeal.RefValue

open Cert.ReferenceIdeal Cert.ReferenceIdeal.Gen Cert.ReferenceIdeal.ReadH Idealize.ShloMosaic Idealize.ShloMosaic.TcCoe Idealize.SL.Sem Idealize.ShloMosaic.StableHlo Idealize.ShloMosaic.ValueIdx

def rij (pi pj : Fin 3 → EReal) (q : Fin 3) : EReal :=
  (pi q - pj q) - Ideal.ofBits .f32 0x3F800000#32
    * Ideal.liftRound Ideal.roundHalfEven (Ideal.div (pi q - pj q) (Ideal.ofBits .f32 0x3F800000#32))

def r2 (d : Fin 3 → EReal) : EReal := max (∑ k : Fin 3, d k * d k) (Ideal.ofBits .f32 0x179ABE15#32)

def dist (d : Fin 3 → EReal) : EReal := Ideal.sqrt (r2 d)

def invr (d : Fin 3 → EReal) : EReal := Ideal.div (Ideal.ofBits .f32 0x3F800000#32) (dist d)

def sr6 (d : Fin 3 → EReal) (sig : EReal) : EReal :=
  ((sig * invr d) * (sig * invr d)) * (((sig * invr d) * (sig * invr d)) * ((sig * invr d) * (sig * invr d)))

def uraw (d : Fin 3 → EReal) (eps sig : EReal) : EReal :=
  (Ideal.ofBits .f32 0x40800000#32 * eps) * (sr6 d sig * sr6 d sig - sr6 d sig)

def fraw (d : Fin 3 → EReal) (eps sig : EReal) : EReal :=
  ((Ideal.ofBits .f32 0x41C00000#32 * eps) * invr d)
    * (Ideal.ofBits .f32 0x40000000#32 * (sr6 d sig * sr6 d sig) - sr6 d sig)

def xc (d : Fin 3 → EReal) : EReal :=
  min (Ideal.ofBits .f32 0x3F800000#32)
    (max 0 (Ideal.div (dist d - Ideal.ofBits .f32 0x3EE66666#32) (Ideal.ofBits .f32 0x3D4CCCCD#32)))

def spoly (x : EReal) : EReal :=
  ((Ideal.ofBits .f32 0x3F800000#32 - Ideal.ofBits .f32 0x41200000#32 * ((x * x) * x))
      + Ideal.ofBits .f32 0x41700000#32 * ((x * x) * (x * x)))
    - Ideal.ofBits .f32 0x40C00000#32 * (x * ((x * x) * (x * x)))

def dspoly (x : EReal) : EReal :=
  Ideal.div
    (((Ideal.ofBits .f32 0xC1F00000#32 * (x * x)) + Ideal.ofBits .f32 0x42700000#32 * ((x * x) * x))
      - Ideal.ofBits .f32 0x41F00000#32 * ((x * x) * (x * x)))
    (Ideal.ofBits .f32 0x3D4CCCCD#32)

def inMid (r : EReal) : BitVec 1 :=
  IntOp.andi (Ideal.cmp .ogt r (Ideal.ofBits .f32 0x3EE66666#32)) (Ideal.cmp .olt r (Ideal.ofBits .f32 0x3F000000#32))

def sw (d : Fin 3 → EReal) : EReal :=
  Scalar.select (Ideal.cmp .ole (dist d) (Ideal.ofBits .f32 0x3EE66666#32)) (Ideal.ofBits .f32 0x3F800000#32)
    (Scalar.select (inMid (dist d)) (spoly (xc d)) 0)

def dsw (d : Fin 3 → EReal) : EReal := Scalar.select (inMid (dist d)) (dspoly (xc d)) 0

def cut (d : Fin 3 → EReal) : EReal :=
  (((Ideal.cmp .olt (dist d) (Ideal.ofBits .f32 0x3F000000#32)).toNat : ℝ) : EReal)

def fmag (d : Fin 3 → EReal) (eps sig : EReal) : EReal :=
  (fraw d eps sig * sw d - uraw d eps sig * dsw d) * cut d

def redge (pi pj : Fin 3 → EReal) (eps sig : EReal) : Cert.Spec.Edge where
  u := (uraw (rij pi pj) eps sig * sw (rij pi pj)) * cut (rij pi pj)
  w := (fmag (rij pi pj) eps sig * dist (rij pi pj)) * cut (rij pi pj)
  f := fun q => fmag (rij pi pj) eps sig * (rij pi pj q * invr (rij pi pj))
  r := fun q => rij pi pj q

theorem select_wrap (x : BitVec 32) :
    Scalar.select (IntOp.cmpi .slt x 0#32) (IntOp.addi x 100000#32) x = Cert.Spec.wrap x := by
  unfold Scalar.select IntOp.cmpi IntOp.addi Cert.Spec.wrap
  refine if_congr ?_ rfl rfl
  show BitVec.ofBool (x.slt 0#32) = 1#1 ↔ x.toInt < 0
  rw [BitVec.slt]
  cases h : decide (x.toInt < (0#32).toInt)
  · have h' : ¬ x.toInt < 0 := by simpa using h
    simp [h']
  · have h' : x.toInt < 0 := by simpa using h
    simp [h']

section Stages

variable (pos : Cert.Spec.SPos.Idx → EReal) (ei : Cert.Spec.SEdges.Idx → BitVec 32) (eps sig : Cert.Spec.SPar.Idx → EReal)

theorem idx_row0 (e : Fin 6400000) : idx_main_v0 (idx_main_v1 (ix1 e)) = ix2 (0 : Fin 2) e :=
  funext fun a => Fin.ext (by
    match a with
    | ⟨0, _⟩ => rfl
    | ⟨1, _⟩ => show e.val % 6400000 = e.val; exact Nat.mod_eq_of_lt e.isLt)

theorem idx_row1 (e : Fin 6400000) : idx_main_v2 (idx_main_v3 (ix1 e)) = ix2 (1 : Fin 2) e :=
  funext fun a => Fin.ext (by
    match a with
    | ⟨0, _⟩ => rfl
    | ⟨1, _⟩ => show e.val % 6400000 = e.val; exact Nat.mod_eq_of_lt e.isLt)

theorem v1_at (e : Fin 6400000) : val_main_v1 (F := Ideal) ei (ix1 e) = ei (ix2 (0 : Fin 2) e) := by
  rw [val_main_v1_apply, val_main_v0_apply, idx_row0]

theorem v3_at (e : Fin 6400000) : val_main_v3 (F := Ideal) ei (ix1 e) = ei (ix2 (1 : Fin 2) e) := by
  rw [val_main_v3_apply, val_main_v2_apply, idx_row1]

theorem v8_at (e : Fin 6400000) : val_main_v8 (F := Ideal) ei (ix1 e) = Cert.Spec.endWord ei 0 e := by
  rw [val_main_v8_apply, val_main_v5_apply, val_main_v7_apply, val_main_v4_apply, val_main_c_apply, val_main_v6_apply,
    val_main_c_0_apply, v1_at]
  exact select_wrap _

theorem v15_at (e : Fin 6400000) : val_main_v15 (F := Ideal) ei (ix1 e) = Cert.Spec.endWord ei 1 e := by
  rw [val_main_v15_apply, val_main_v12_apply, val_main_v14_apply, val_main_v11_apply, val_main_c_1_apply, val_main_v13_apply,
    val_main_c_2_apply, v3_at]
  exact select_wrap _

theorem v115_at (e : Fin 6400000) : val_main_v115 (F := Ideal) ei (ix1 e) = Cert.Spec.endWord ei 0 e := by
  rw [val_main_v115_apply, val_main_v112_apply, val_main_v114_apply, val_main_v111_apply, val_main_c_30_apply, val_main_v113_apply,
    val_main_c_31_apply, v1_at]
  exact select_wrap _

theorem v123_at (e : Fin 6400000) : val_main_v123 (F := Ideal) ei (ix1 e) = Cert.Spec.endWord ei 1 e := by
  rw [val_main_v123_apply, val_main_v120_apply, val_main_v122_apply, val_main_v119_apply, val_main_c_32_apply, val_main_v121_apply,
    val_main_c_33_apply, v3_at]
  exact select_wrap _

theorem idx_col9 (e : Fin 6400000) : idx_main_v9 (ix2 e (0 : Fin 1)) = ix1 e :=
  funext fun a => Fin.ext (by match a with | ⟨0, _⟩ => rfl)
theorem idx_col16 (e : Fin 6400000) : idx_main_v16 (ix2 e (0 : Fin 1)) = ix1 e :=
  funext fun a => Fin.ext (by match a with | ⟨0, _⟩ => rfl)
theorem idx_col116 (e : Fin 6400000) : idx_main_v116 (ix2 e (0 : Fin 1)) = ix1 e :=
  funext fun a => Fin.ext (by match a with | ⟨0, _⟩ => rfl)
theorem idx_col124 (e : Fin 6400000) : idx_main_v124 (ix2 e (0 : Fin 1)) = ix1 e :=
  funext fun a => Fin.ext (by match a with | ⟨0, _⟩ => rfl)

theorem v9_at (e : Fin 6400000) : val_main_v9 (F := Ideal) ei (ix2 e (0 : Fin 1)) = Cert.Spec.endWord ei 0 e := by
  rw [val_main_v9_apply, idx_col9, v8_at]
theorem v16_at (e : Fin 6400000) : val_main_v16 (F := Ideal) ei (ix2 e (0 : Fin 1)) = Cert.Spec.endWord ei 1 e := by
  rw [val_main_v16_apply, idx_col16, v15_at]
theorem v116_at (e : Fin 6400000) : val_main_v116 (F := Ideal) ei (ix2 e (0 : Fin 1)) = Cert.Spec.endWord ei 0 e := by
  rw [val_main_v116_apply, idx_col116, v115_at]
theorem v124_at (e : Fin 6400000) : val_main_v124 (F := Ideal) ei (ix2 e (0 : Fin 1)) = Cert.Spec.endWord ei 1 e := by
  rw [val_main_v124_apply, idx_col124, v123_at]

theorem v10_at (e : Fin 6400000) (q : Fin 3) :
    val_main_v10 (F := Ideal) pos ei (ix2 e q) = Cert.Spec.endPos pos ei 0 e q := by
  unfold val_main_v10
  show Host.gather (Cert.LibRows.rowGatherDims 100000 6400000 3 gather_S100000x3_S6400000x1_S6400000x3_1_0_n_n_0_1_13_wf)
    pos (val_main_v9 (F := Ideal) ei) (ix2 e q) = _
  rw [Cert.LibRows.rowGather_apply (by decide)]
  refine congrArg pos (funext fun a => Fin.ext ?_)
  match a with
  | ⟨0, _⟩ =>
    show min (val_main_v9 (F := Ideal) ei (ix2 e (0 : Fin 1))).toInt.toNat (100000 - 1)
      = min (Cert.Spec.endWord ei 0 e).toInt.toNat (Cert.Spec.nAtoms - 1)
    rw [v9_at]
  | ⟨1, _⟩ => rfl

theorem v17_at (e : Fin 6400000) (q : Fin 3) :
    val_main_v17 (F := Ideal) pos ei (ix2 e q) = Cert.Spec.endPos pos ei 1 e q := by
  unfold val_main_v17
  show Host.gather (Cert.LibRows.rowGatherDims 100000 6400000 3 gather_S100000x3_S6400000x1_S6400000x3_1_0_n_n_0_1_13_wf)
    pos (val_main_v16 (F := Ideal) ei) (ix2 e q) = _
  rw [Cert.LibRows.rowGather_apply (by decide)]
  refine congrArg pos (funext fun a => Fin.ext ?_)
  match a with
  | ⟨0, _⟩ =>
    show min (val_main_v16 (F := Ideal) ei (ix2 e (0 : Fin 1))).toInt.toNat (100000 - 1)
      = min (Cert.Spec.endWord ei 1 e).toInt.toNat (Cert.Spec.nAtoms - 1)
    rw [v16_at]
  | ⟨1, _⟩ => rfl

abbrev dOf (e : Fin 6400000) : Fin 3 → EReal := rij (Cert.Spec.endPos pos ei 0 e) (Cert.Spec.endPos pos ei 1 e)

theorem v24_at (e : Fin 6400000) (q : Fin 3) : val_main_v24 (F := Ideal) pos ei (ix2 e q) = dOf pos ei e q := by
  rw [val_main_v24_apply, val_main_v23_apply, val_main_v22_apply, val_main_cst_3_apply, val_main_v21_apply, val_main_v20_apply,
    val_main_v19_apply, val_main_cst_apply, val_main_v18_apply, v10_at, v17_at]
  rfl

theorem idx_red26 (e : Fin 6400000) (k : Fin 3) : idx_main_v26 (ix1 e) k = ix2 e k :=
  funext fun a => Fin.ext (by match a with | ⟨0, _⟩ => rfl | ⟨1, _⟩ => rfl)

theorem v29_at (e : Fin 6400000) : val_main_v29 (F := Ideal) pos ei (ix1 e) = dist (dOf pos ei e) := by
  rw [val_main_v29_apply, val_main_v28_apply, val_main_v27_apply, val_main_cst_5_apply, val_main_v26_apply, val_main_cst_4_apply]
  show Ideal.sqrt (max (Ideal.ofBits .f32 0x00000000#32 + ∑ k : Fin 3, val_main_v25 (F := Ideal) pos ei (idx_main_v26 (ix1 e) k))
    (Ideal.ofBits .f32 0x179ABE15#32)) = _
  rw [Ideal.ofBits_zero_f32, zero_add]
  unfold dist r2
  refine congrArg (fun s => Ideal.sqrt (max s (Ideal.ofBits .f32 0x179ABE15#32))) (Finset.sum_congr rfl fun k _ => ?_)
  rw [idx_red26, val_main_v25_apply, v24_at]
  rfl

theorem v31_at (e : Fin 6400000) : val_main_v31 (F := Ideal) pos ei (ix1 e) = invr (dOf pos ei e) := by
  rw [val_main_v31_apply, val_main_v30_apply, val_main_cst_6_apply, v29_at]
  rfl

theorem v38_at (e : Fin 6400000) : val_main_v38 (F := Ideal) pos ei sig (ix1 e) = sr6 (dOf pos ei e) (sig (ix1 e)) := by
  rw [val_main_v38_apply, val_main_v37_apply, val_main_v36_apply, val_main_v35_apply, v31_at]
  rfl

theorem v43_at (e : Fin 6400000) :
    val_main_v43 (F := Ideal) pos ei eps sig (ix1 e) = uraw (dOf pos ei e) (eps (ix1 e)) (sig (ix1 e)) := by
  rw [val_main_v43_apply, val_main_v42_apply, val_main_v41_apply, val_main_v40_apply, val_main_cst_7_apply, val_main_v39_apply,
    v38_at]
  rfl

theorem v50_at (e : Fin 6400000) :
    val_main_v50 (F := Ideal) pos ei eps sig (ix1 e) = fraw (dOf pos ei e) (eps (ix1 e)) (sig (ix1 e)) := by
  rw [val_main_v50_apply, val_main_v49_apply, val_main_v48_apply, val_main_v47_apply, val_main_cst_9_apply, val_main_v46_apply,
    val_main_v45_apply, val_main_v44_apply, val_main_cst_8_apply, val_main_v39_apply, v38_at, v31_at]
  rfl

theorem v55_at (e : Fin 6400000) : val_main_v55 (F := Ideal) pos ei (ix1 e) = xc (dOf pos ei e) := by
  rw [val_main_v55_apply, val_main_call1_v4_apply, val_main_call1_v3_apply, val_main_cst_13_apply, val_main_call1_v2_apply,
    val_main_call1_v1_apply, val_main_call1_v0_apply, val_main_cst_12_apply, val_main_v54_apply, val_main_v53_apply,
    val_main_cst_11_apply, val_main_v52_apply, val_main_v51_apply, val_main_cst_10_apply, v29_at]
  show min (Ideal.ofBits .f32 0x3F800000#32) (max (Ideal.ofBits .f32 0x00000000#32) _) = _
  rw [Ideal.ofBits_zero_f32]
  rfl

theorem v72_at (e : Fin 6400000) : val_main_v72 (F := Ideal) pos ei (ix1 e) = spoly (xc (dOf pos ei e)) := by
  rw [val_main_v72_apply, val_main_v71_apply, val_main_v70_apply, val_main_cst_17_apply, val_main_v69_apply, val_main_v68_apply,
    val_main_v67_apply, val_main_v66_apply, val_main_v65_apply, val_main_v64_apply, val_main_cst_16_apply, val_main_v63_apply,
    val_main_v62_apply, val_main_v61_apply, val_main_v60_apply, val_main_cst_15_apply, val_main_v59_apply, val_main_v58_apply,
    val_main_cst_14_apply, val_main_v57_apply, val_main_v56_apply, v55_at]
  rfl

theorem v87_at (e : Fin 6400000) : val_main_v87 (F := Ideal) pos ei (ix1 e) = dspoly (xc (dOf pos ei e)) := by
  rw [val_main_v87_apply, val_main_v86_apply, val_main_cst_21_apply, val_main_v85_apply, val_main_v84_apply, val_main_v83_apply,
    val_main_cst_20_apply, val_main_v82_apply, val_main_v81_apply, val_main_v80_apply, val_main_v79_apply, val_main_v78_apply,
    val_main_cst_19_apply, val_main_v77_apply, val_main_v76_apply, val_main_v75_apply, val_main_v74_apply, val_main_cst_18_apply,
    val_main_v73_apply, v55_at]
  rfl

theorem v92_at (e : Fin 6400000) : val_main_v92 (F := Ideal) pos ei (ix1 e) = inMid (dist (dOf pos ei e)) := by
  rw [val_main_v92_apply, val_main_v91_apply, val_main_v90_apply, val_main_cst_23_apply, val_main_v89_apply, val_main_v88_apply,
    val_main_cst_22_apply, v29_at]
  rfl

theorem v96_at (e : Fin 6400000) : val_main_v96 (F := Ideal) pos ei (ix1 e) = sw (dOf pos ei e) := by
  rw [val_main_v96_apply, val_main_v95_apply, val_main_call3_v1_apply, val_main_call3_v0_apply, val_main_cst_26_apply,
    val_main_call2_v1_apply, val_main_call2_v0_apply, val_main_cst_25_apply, val_main_v94_apply, val_main_v93_apply,
    val_main_cst_24_apply, v92_at, v72_at, v29_at]
  show Scalar.select _ _ (Scalar.select _ _ (Ideal.ofBits .f32 0x00000000#32)) = _
  rw [Ideal.ofBits_zero_f32]
  rfl

theorem v97_at (e : Fin 6400000) : val_main_v97 (F := Ideal) pos ei (ix1 e) = dsw (dOf pos ei e) := by
  rw [val_main_v97_apply, val_main_call4_v1_apply, val_main_call4_v0_apply, val_main_cst_27_apply, v92_at, v87_at]
  show Scalar.select _ _ (Ideal.ofBits .f32 0x00000000#32) = _
  rw [Ideal.ofBits_zero_f32]
  rfl

theorem v104_at (e : Fin 6400000) : val_main_v104 (F := Ideal) pos ei (ix1 e) = cut (dOf pos ei e) := by
  rw [val_main_v104_apply, val_main_v103_apply, val_main_v102_apply, val_main_cst_28_apply, v29_at]
  rfl

theorem v105_at (e : Fin 6400000) :
    val_main_v105 (F := Ideal) pos ei eps sig (ix1 e) = fmag (dOf pos ei e) (eps (ix1 e)) (sig (ix1 e)) := by
  rw [val_main_v105_apply, val_main_v101_apply, val_main_v100_apply, val_main_v99_apply, v104_at, v97_at, v96_at, v50_at, v43_at]
  rfl

theorem v106_at (e : Fin 6400000) :
    val_main_v106 (F := Ideal) pos ei eps sig (ix1 e) = (Cert.Spec.edgesOf redge pos ei eps sig e).u := by
  rw [val_main_v106_apply, val_main_v98_apply, v104_at, v96_at, v43_at]
  rfl

theorem v128_at (e : Fin 6400000) :
    val_main_v128 (F := Ideal) pos ei eps sig (ix1 e) = (Cert.Spec.edgesOf redge pos ei eps sig e).w := by
  rw [val_main_v128_apply, val_main_v127_apply, v105_at, v104_at, v29_at]
  rfl

theorem idx_bc33 (e : Fin 6400000) (q : Fin 3) : idx_main_v32 (idx_main_v33 (ix2 e q)) = ix1 e :=
  funext fun a => Fin.ext (by match a with | ⟨0, _⟩ => rfl)
theorem idx_bc108 (e : Fin 6400000) (q : Fin 3) : idx_main_v107 (idx_main_v108 (ix2 e q)) = ix1 e :=
  funext fun a => Fin.ext (by match a with | ⟨0, _⟩ => rfl)

theorem v109_at (e : Fin 6400000) (q : Fin 3) :
    val_main_v109 (F := Ideal) pos ei eps sig (ix2 e q) = (Cert.Spec.edgesOf redge pos ei eps sig e).f q := by
  rw [val_main_v109_apply, val_main_v108_apply, val_main_v107_apply, idx_bc108, val_main_v34_apply, val_main_v33_apply,
    val_main_v32_apply, idx_bc33, v105_at, v31_at, v24_at]
  rfl

theorem v24_at' (e : Fin 6400000) (q : Fin 3) :
    val_main_v24 (F := Ideal) pos ei (ix2 e q) = (Cert.Spec.edgesOf redge pos ei eps sig e).r q := by
  rw [v24_at]
  rfl

theorem v126_eq (i : S_.Idx) :
    val_main_v126 (F := Ideal) pos ei eps sig i = Cert.Spec.energy (Cert.Spec.edgesOf redge pos ei eps sig) := by
  rw [val_main_v126_apply, val_main_cst_34_apply]
  show Ideal.ofBits .f32 0x00000000#32 + _ = _
  rw [Ideal.ofBits_zero_f32, zero_add, Cert.LibRows.sum_idx1]
  unfold Cert.Spec.energy
  exact Finset.sum_congr rfl fun e _ => v106_at pos ei eps sig e

theorem v129_eq (i : S_.Idx) :
    val_main_v129 (F := Ideal) pos ei eps sig i = Cert.Spec.virial (Cert.Spec.edgesOf redge pos ei eps sig) := by
  rw [val_main_v129_apply, val_main_cst_35_apply]
  show Ideal.ofBits .f32 0x00000000#32 + _ = _
  rw [Ideal.ofBits_zero_f32, zero_add, Cert.LibRows.sum_idx1]
  unfold Cert.Spec.virial
  exact Finset.sum_congr rfl fun e _ => v128_at pos ei eps sig e

theorem idx_l130 (a b : Fin 3) (k : Fin 6400000) : lidx_main_v130 (ix2 a b) k = ix2 k a :=
  funext fun x => Fin.ext (by match x with | ⟨0, _⟩ => rfl | ⟨1, _⟩ => rfl)
theorem idx_r130 (a b : Fin 3) (k : Fin 6400000) : ridx_main_v130 (ix2 a b) k = ix2 k b :=
  funext fun x => Fin.ext (by match x with | ⟨0, _⟩ => rfl | ⟨1, _⟩ => rfl)

theorem v130_eq (a b : Fin 3) :
    val_main_v130 (F := Ideal) pos ei eps sig (ix2 a b) = Cert.Spec.vtensor (Cert.Spec.edgesOf redge pos ei eps sig) a b := by
  rw [val_main_v130_apply]
  unfold Cert.Spec.vtensor
  refine Finset.sum_congr rfl fun k _ => ?_
  rw [idx_l130, idx_r130, v109_at, v24_at' pos ei eps sig]

theorem v125_eq (n : Fin 100000) (q : Fin 3) :
    val_main_v125 (F := Ideal) pos ei eps sig (ix2 n q)
      = Cert.Spec.force (Cert.Spec.edgesOf redge pos ei eps sig) (Cert.Spec.endWord ei 0) (Cert.Spec.endWord ei 1) n q := by
  unfold val_main_v125
  show Host.scatterAdd (F := Ideal) (φ := .f32)
    (Cert.LibRows.rowScatterDims 100000 6400000 3 scatter_S100000x3_S6400000x1_S6400000x3_1_0_0_1_wf)
    (val_main_v117 (F := Ideal) pos ei eps sig) (val_main_v124 (F := Ideal) ei) (val_main_v118 (F := Ideal) pos ei eps sig) (ix2 n q) = _
  rw [Cert.LibRows.rowScatterAdd_apply]
  unfold val_main_v117
  show Host.scatterAdd (F := Ideal) (φ := .f32)
    (Cert.LibRows.rowScatterDims 100000 6400000 3 scatter_S100000x3_S6400000x1_S6400000x3_1_0_0_1_wf)
    (val_main_v110 (F := Ideal)) (val_main_v116 (F := Ideal) ei) (val_main_v109 (F := Ideal) pos ei eps sig) (ix2 n q) + _ = _
  rw [Cert.LibRows.rowScatterAdd_apply, val_main_v110_apply, val_main_cst_29_apply]
  show (Ideal.ofBits .f32 0x00000000#32 + _) + _ = _
  rw [Ideal.ofBits_zero_f32, zero_add]
  unfold Cert.Spec.force
  refine congrArg₂ (· + ·) (Finset.sum_congr rfl fun p _ => ?_) (Finset.sum_congr rfl fun p _ => ?_)
  · rw [v116_at, v109_at]
  · rw [v124_at, val_main_v118_apply, v109_at]
    rfl

end Stages

section Results

variable (m : (ℓ : Loc nD τ sig) → Buf (Elt Ideal) ℓ) (c : Dev nD)

abbrev posOf : Cert.Spec.SPos.Idx → EReal := m ((c.tc : Thread nD τ).loc main_arg0)
abbrev eiOf : Cert.Spec.SEdges.Idx → BitVec 32 := m ((c.tc : Thread nD τ).loc main_arg1)
abbrev epsOf : Cert.Spec.SPar.Idx → EReal := m ((c.tc : Thread nD τ).loc main_arg2)
abbrev sigOf : Cert.Spec.SPar.Idx → EReal := m ((c.tc : Thread nD τ).loc main_arg3)

abbrev edOf : Fin Cert.Spec.nEdges → Cert.Spec.Edge :=
  Cert.Spec.edgesOf redge (posOf m c) (eiOf m c) (epsOf m c) (sigOf m c)

theorem out0_eq : Cert.ReferenceIdeal.RefRun.R0 (F := Ideal) m c = fun _ => Cert.Spec.energy (edOf m c) := by
  funext i
  exact v126_eq (posOf m c) (eiOf m c) (epsOf m c) (sigOf m c) i

theorem out2_eq : Cert.ReferenceIdeal.RefRun.R2 (F := Ideal) m c = fun _ => Cert.Spec.virial (edOf m c) := by
  funext i
  exact v129_eq (posOf m c) (eiOf m c) (epsOf m c) (sigOf m c) i

theorem out3_at (a b : Fin 3) :
    Cert.ReferenceIdeal.RefRun.R3 (F := Ideal) m c (ix2 a b) = Cert.Spec.vtensor (edOf m c) a b :=
  v130_eq (posOf m c) (eiOf m c) (epsOf m c) (sigOf m c) a b

theorem out3_eq : Cert.ReferenceIdeal.RefRun.R3 (F := Ideal) m c
    = fun j : S3x3.Idx => Cert.Spec.vtensor (edOf m c) (j 0) (j 1) := by
  funext j
  obtain ⟨a, b, rfl⟩ : ∃ (a : Fin 3) (b : Fin 3), j = ix2 a b := ⟨j 0, j 1, eq_ix2 j⟩
  exact out3_at m c a b

theorem out1_eq (n : Fin 100000) (q : Fin 3) :
    Cert.ReferenceIdeal.RefRun.R1 (F := Ideal) m c (ix2 n q)
      = Cert.Spec.force (edOf m c) (Cert.Spec.endWord (eiOf m c) 0) (Cert.Spec.endWord (eiOf m c) 1) n q :=
  v125_eq (posOf m c) (eiOf m c) (epsOf m c) (sigOf m c) n q

end Results

end Cert.ReferenceIdeal.RefValue

end
-- ==== Proof.Consts.lean ====
import proofs.«420260_j7687991460463_2_alg».proof.KernelIdeal
import Idealize.ShloMosaic.PureOps.Ideal
import Idealize.ShloMosaic.PureOps.IdealRules

noncomputable section

namespace Cert.Consts

open Idealize.ShloMosaic

theorem ofBits_one : Ideal.ofBits .f32 0x3F800000#32 = (1 : EReal) := by
  simp [Ideal.ofBits, Ideal.ieee, -EReal.coe_mul]; norm_num

theorem ofBits_zero : Ideal.ofBits .f32 0x00000000#32 = (0 : EReal) := by
  simp [Ideal.ofBits, Ideal.ieee]

theorem ofBits_D : Ideal.ofBits .f32 0x3D4CCCCD#32 = ((13421773 / 268435456 : ℝ) : EReal) := by
  simp [Ideal.ofBits, Ideal.ieee, -EReal.coe_mul]; norm_num

theorem inv_denom :
    Named.named (F := Ideal) Cert.KernelIdeal.κ "inv_denom" (φ := .f32) 0x41A00000#32
      = ((268435456 / 13421773 : ℝ) : EReal) :=
  IdealRules.named_const.ideal_named_scalar _ _ _ _ rfl

theorem div_one (x : EReal) : Ideal.div x (Ideal.ofBits .f32 0x3F800000#32) = x := by
  rw [ofBits_one, ← EReal.coe_one, Ideal.div_coe (by norm_num : (1 : ℝ) ≠ 0), _root_.div_one, EReal.coe_one,
    _root_.mul_one]

theorem mul_one (x : EReal) : x * Ideal.ofBits .f32 0x3F800000#32 = x := by
  rw [ofBits_one, _root_.mul_one]

theorem one_mul (x : EReal) : Ideal.ofBits .f32 0x3F800000#32 * x = x := by
  rw [ofBits_one, _root_.one_mul]

theorem div_D (x : EReal) :
    Ideal.div x (Ideal.ofBits .f32 0x3D4CCCCD#32) = x * ((268435456 / 13421773 : ℝ) : EReal) := by
  rw [ofBits_D, Ideal.div_coe (by norm_num : (13421773 / 268435456 : ℝ) ≠ 0)]
  congr 2
  norm_num

end Cert.Consts

end
-- ==== Proof.Scalar.lean ====
import proofs.«420260_j7687991460463_2_alg».proof.Proof.KI.Payload
import proofs.«420260_j7687991460463_2_alg».proof.Proof.RefReadH
import proofs.«420260_j7687991460463_2_alg».proof.Proof.Consts
import proofs.«420260_j7687991460463_2_alg».proof.Proof.Spec
import Mathlib.Algebra.BigOperators.Fin

noncomputable section

open scoped BigOperators

namespace Cert.Bridge

open Idealize.ShloMosaic
open Cert.KernelIdeal Cert.ReferenceIdeal

theorem rvec_eq (pi pj : Fin 3 → EReal) : Pay.rvec pi pj = RefValue.rij pi pj := by
  funext q
  unfold Pay.rvec Pay.disp RefValue.rij
  rw [Cert.Consts.mul_one, Cert.Consts.div_one]

theorem dOf_eq (pi pj : Fin 3 → EReal) : Pay.dOf pi pj = RefValue.dist (RefValue.rij pi pj) := by
  unfold Pay.dOf Pay.dist RefValue.dist RefValue.r2
  rw [Fin.sum_univ_three, rvec_eq]

theorem invr_eq (d : Fin 3 → EReal) : Pay.invr (RefValue.dist d) = RefValue.invr d := rfl

theorem s6_eq (d : Fin 3 → EReal) (sig : EReal) : Pay.s6 sig (RefValue.invr d) = RefValue.sr6 d sig := by
  unfold Pay.s6 RefValue.sr6
  ac_rfl

theorem uraw_eq (d : Fin 3 → EReal) (eps sig : EReal) :
    Pay.uraw eps sig (RefValue.invr d) = RefValue.uraw d eps sig := by
  unfold Pay.uraw RefValue.uraw Pay.s12
  rw [s6_eq]

theorem fraw_eq (d : Fin 3 → EReal) (eps sig : EReal) :
    Pay.fraw eps sig (RefValue.invr d) = RefValue.fraw d eps sig := by
  unfold Pay.fraw RefValue.fraw Pay.s12
  rw [s6_eq]

theorem xc_eq (d : Fin 3 → EReal) : Pay.xc (RefValue.dist d) = RefValue.xc d := by
  unfold Pay.xc RefValue.xc Pay.invDenom
  rw [Cert.Consts.inv_denom, Cert.Consts.div_D, Cert.Consts.ofBits_zero]

theorem spoly_eq (x : EReal) : Pay.spoly x = RefValue.spoly x := by
  unfold Pay.spoly RefValue.spoly
  rw [show ((x * x) * x) * x = (x * x) * (x * x) by ac_rfl,
    show ((x * x) * (x * x)) * x = x * ((x * x) * (x * x)) by ac_rfl]

theorem dspoly_eq (x : EReal) : Pay.dspoly x = RefValue.dspoly x := by
  unfold Pay.dspoly RefValue.dspoly Pay.invDenom
  rw [Cert.Consts.inv_denom, Cert.Consts.div_D, show ((x * x) * x) * x = (x * x) * (x * x) by ac_rfl]

theorem inband_eq (r : EReal) : Pay.inband r = RefValue.inMid r := rfl

theorem sw_eq (d : Fin 3 → EReal) : Pay.sw (RefValue.dist d) = RefValue.sw d := by
  unfold Pay.sw RefValue.sw Scalar.select
  rw [inband_eq, xc_eq, spoly_eq, Cert.Consts.ofBits_zero]

theorem dsw_eq (d : Fin 3 → EReal) : Pay.dsw (RefValue.dist d) = RefValue.dsw d := by
  unfold Pay.dsw RefValue.dsw Scalar.select
  rw [inband_eq, xc_eq, dspoly_eq, Cert.Consts.ofBits_zero]

theorem bit_toNat (b : BitVec 1) : (if b = 1 then (1 : EReal) else 0) = ((b.toNat : ℝ) : EReal) := by
  have h : b.toNat = 0 ∨ b.toNat = 1 := by have := b.isLt; omega
  rcases h with h | h
  · have hb : b = 0#1 := BitVec.eq_of_toNat_eq (by simpa using h)
    subst hb; simp
  · have hb : b = 1#1 := BitVec.eq_of_toNat_eq (by simpa using h)
    subst hb; simp

theorem mask_eq (d : Fin 3 → EReal) : Pay.mask (RefValue.dist d) = RefValue.cut d := by
  unfold Pay.mask RefValue.cut
  exact bit_toNat _

theorem fmag_eq (d : Fin 3 → EReal) (eps sig : EReal) :
    Pay.fmag eps sig (RefValue.dist d) = RefValue.fmag d eps sig := by
  unfold Pay.fmag RefValue.fmag
  rw [invr_eq, fraw_eq, uraw_eq, sw_eq, dsw_eq, mask_eq]

theorem kedge_eq_redge (pi pj : Fin 3 → EReal) (eps sig : EReal) :
    Pay.kedge pi pj eps sig = RefValue.redge pi pj eps sig := by
  unfold Pay.kedge RefValue.redge
  rw [dOf_eq, rvec_eq, invr_eq, uraw_eq, sw_eq, mask_eq, fmag_eq]

end Cert.Bridge

end
-- ==== Proof.lean ====
/-
  Lennard-Jones pair forces with a quintic switch and a cutoff, 6 400 000 edges over 100 000 atoms: a kernel that takes
  the edges in 50 blocks of 128 000 on a 2 × 25 grid, against array code.

  For each edge both sides form one record from its two end points, ε and σ: the pair energy u, the virial term w, the
  force f and the minimum-image displacement r. The results are ∑ u, ∑ w, the 3 × 3 tensor ∑ f ⊗ r, and for every atom
  the sum of f over the edges that start there minus the sum over those that end there. The sides differ in how the
  sums are grouped (per block and per core, then combined, against one sum) and in one constant: the kernel
  multiplies by the reciprocal of the switch band's width where the array code divides by the width
  w = 13421773/268435456. The constant is named as 1/w exactly, and x · (1/w) = x / w for every extended real x because
  w is a nonzero real; regrouping sums needs only commutativity and associativity. So the two agree on every input.
-/
import proofs.«420260_j7687991460463_2_alg».proof.Defs
import proofs.«420260_j7687991460463_2_alg».proof.Proof.Gen.Kernel
import proofs.«420260_j7687991460463_2_alg».proof.Proof.Gen.KernelIdeal
import proofs.«420260_j7687991460463_2_alg».proof.Proof.Gen.ReferenceIdeal
import proofs.«420260_j7687991460463_2_alg».proof.Proof.Gen.Pre_finite_inputs
import proofs.«420260_j7687991460463_2_alg».proof.Proof.K.Frame
import proofs.«420260_j7687991460463_2_alg».proof.Proof.KI.Result
import proofs.«420260_j7687991460463_2_alg».proof.Proof.RefReadH
import proofs.«420260_j7687991460463_2_alg».proof.Proof.Scalar
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2.2.2.2)
    (Cert.ReferenceIdeal.RefRun.run (F := Ideal) m ρ)

theorem preserves : Cert.preserves_Kernel_KernelIdeal :=
  ⟨IdealRules.named_const.statement Cert.KernelIdeal.κ "inv_denom" .f32 0x41A00000#32 ((268435456 / 13421773 : ℝ) : EReal) rfl,
   IdealRules.named_const.statement Cert.KernelIdeal.κ "inv_denom" .f32 0x41A00000#32 ((268435456 / 13421773 : ℝ) : EReal) rfl⟩

/-- From memories that agree on the arguments, the two sides' per-edge records are one function of the same rows. -/
theorem edges_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.RefValue.edOf m' c = Cert.KernelIdeal.Result.ED m c
    ∧ Cert.ReferenceIdeal.RefValue.eiOf m' c = Cert.KernelIdeal.Result.ei m c := by
  have e0 : Cert.ReferenceIdeal.RefValue.posOf m' c = Cert.KernelIdeal.Result.pos m c := h0
  have e1 : Cert.ReferenceIdeal.RefValue.eiOf m' c = Cert.KernelIdeal.Result.ei m c := h1
  have e2 : Cert.ReferenceIdeal.RefValue.epsOf m' c = Cert.KernelIdeal.Result.eps m c := h2
  have e3 : Cert.ReferenceIdeal.RefValue.sigOf m' c = Cert.KernelIdeal.Result.sg m c := h3
  refine ⟨?_, e1⟩
  show Cert.Spec.edgesOf Cert.ReferenceIdeal.RefValue.redge (Cert.ReferenceIdeal.RefValue.posOf m' c) (Cert.ReferenceIdeal.RefValue.eiOf m' c)
      (Cert.ReferenceIdeal.RefValue.epsOf m' c) (Cert.ReferenceIdeal.RefValue.sigOf m' c)
    = Cert.Spec.edgesOf Cert.KernelIdeal.Pay.kedge (Cert.KernelIdeal.Result.pos m c) (Cert.KernelIdeal.Result.ei m c)
      (Cert.KernelIdeal.Result.eps m c) (Cert.KernelIdeal.Result.sg m c)
  rw [e0, e1, e2, e3]
  funext e
  exact (Cert.Bridge.kedge_eq_redge _ _ _ _).symm

/-- Both programs end at the four aggregates of the same per-edge records. -/
theorem algebraic : Cert.algebraic_KernelIdeal_ReferenceIdeal := by
  intro m ρ m' ρ' _ hagree
  refine ⟨fun c => (fun _ => Cert.Spec.energy (Cert.KernelIdeal.Result.ED m c)),
    fun c => Cert.KernelIdeal.Result.forcesBuf m c,
    fun c => (fun _ => Cert.Spec.virial (Cert.KernelIdeal.Result.ED m c)),
    fun c => Cert.KernelIdeal.Result.tensorBuf m c,
    Cert.KernelIdeal.Result.kernel_run_bufs m ρ, ?_⟩
  refine (θ_run Cert.ReferenceIdeal.defs _ _).mono (fun _ h c => ?_) (Cert.ReferenceIdeal.RefRun.run (F := Ideal) m' ρ')
  obtain ⟨r0, r1, r2, r3, rest⟩ := h c
  obtain ⟨hED, hEI⟩ := edges_agree m m' c (hagree c).1 (hagree c).2.1 (hagree c).2.2.1 (hagree c).2.2.2
  refine ⟨r0.trans ?_, r1.trans ?_, r2.trans ?_, r3.trans ?_, rest⟩
  · exact (Cert.ReferenceIdeal.RefValue.out0_eq m' c).trans (by rw [hED]; rfl)
  · funext j
    obtain ⟨n, q, rfl⟩ : ∃ (n : Fin 100000) (q : Fin 3), j = ValueIdx.ix2 n q := ⟨j 0, j 1, ValueIdx.eq_ix2 j⟩
    exact (Cert.ReferenceIdeal.RefValue.out1_eq m' c n q).trans (by rw [hED, hEI]; rfl)
  · exact (Cert.ReferenceIdeal.RefValue.out2_eq m' c).trans (by rw [hED]; rfl)
  · exact (Cert.ReferenceIdeal.RefValue.out3_eq m' c).trans (by rw [hED]; rfl)

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
